-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x8192x8192 : Shape := ⟨3, ![2, 8192, 8192]⟩
abbrev S8192x8192 : Shape := ⟨2, ![8192, 8192]⟩
abbrev S1 : Shape := ⟨1, ![1]⟩
abbrev S896x64 : Shape := ⟨2, ![896, 64]⟩
abbrev S64 : Shape := ⟨1, ![64]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_
  bcast_S_S896x64 : S_.BroadcastsInDim S896x64 (![] : Fin 0 → Fin S896x64.rank)
  reducesTo_S896x64_S_d0_1 : S896x64.ReducesTo [0, 1] S_
  bcast_S_S64 : S_.BroadcastsInDim S64 (![] : Fin 0 → Fin S64.rank)
  reducesTo_S64_S_d0 : S64.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_v28 : IVec S_ 1) (main_v33 : IVec S8192 1) : IVec S_ 1 :=
  let main_c_12 : IVec S_ 1 := constantI S_ 1 1#1
  let main_v34 : IVec S_ 1 := (fun x v => Host.reduce IntOp.andi x v reducesTo_S8192_S_d0 h_S_) main_v33 main_c_12
  let main_v35 : IVec S_ 1 := andi main_v28 main_v34
  main_v35

def fn_part1 {F : FTy → Type} [FloatOps F] (main_arg4 : FVec F S896x64 .f32) (main_arg5 : FVec F S64 .f32) (main_arg6 : IVec S8192 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S896x64 .f32 := Host.absf main_arg4
  let main_cst_6 : FVec F S_ .f32 := constant S_ .f32 0x7F800000#32
  let main_v20 : FVec F S896x64 .f32 := broadcastInDim S896x64 ![] bcast_S_S896x64 main_cst_6
  let main_v21 : IVec S896x64 1 := cmpf .olt main_v19 main_v20
  let main_c_7 : IVec S_ 1 := constantI S_ 1 1#1
  let main_v22 : IVec S_ 1 := (fun x v => Host.reduce IntOp.andi x v reducesTo_S896x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S8192 32 := broadcastInDim S8192 ![] bcast_S_S8192 main_c_10
  let main_v30 : IVec S8192 1 := cmpi .sge main_arg6 main_v29
  let main_c_11 : IVec S_ 32 := constantI S_ 32 8192#32
  let main_v31 : IVec S8192 32 := broadcastInDim S8192 ![] bcast_S_S8192 main_c_11
  let main_v32 : IVec S8192 1 := cmpi .slt main_arg6 main_v31
  let main_v33 : IVec S8192 1 := andi main_v30 main_v32
  fn_part2 (F := F) main_v28 main_v33

def fn {F : FTy → Type} [FloatOps F] (main_arg0 : FVec F S8192x128 .f32) (main_arg1 : FVec F S2x8192x8192 .f32) (main_arg2 : FVec F S8192x8192 .f32) (main_arg3 : FVec F S1 .f32) (main_arg4 : FVec F S896x64 .f32) (main_arg5 : FVec F S64 .f32) (main_arg6 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_v13 main_v16
-- ==== Kernel.lean ====
abbrev S8192x128 : Shape := ⟨2, ![8192, 128]⟩
abbrev S2x8192x8192 : Shape := ⟨3, ![2, 8192, 8192]⟩
abbrev S8192x8192 : Shape := ⟨2, ![8192, 8192]⟩
abbrev S1 : Shape := ⟨1, ![1]⟩
abbrev S896x64 : Shape := ⟨2, ![896, 64]⟩
abbrev S64 : Shape := ⟨1, ![64]⟩
abbrev S8192 : Shape := ⟨1, ![8192]⟩
abbrev S1x1 : Shape := ⟨2, ![1, 1]⟩
abbrev S1024x2048 : Shape := ⟨2, ![1024, 2048]⟩
abbrev S1024x128 : Shape := ⟨2, ![1024, 128]⟩
abbrev S2048x128 : Shape := ⟨2, ![2048, 128]⟩
abbrev S_ : Shape := ⟨0, ![]⟩
abbrev S8192x1 : Shape := ⟨2, ![8192, 1]⟩
abbrev S2x8192x128 : Shape := ⟨3, ![2, 8192, 128]⟩
abbrev S1x1024x2048 : Shape := ⟨3, ![1, 1024, 2048]⟩
abbrev S1x1024x128 : Shape := ⟨3, ![1, 1024, 128]⟩
abbrev S1x8192x128 : Shape := ⟨3, ![1, 8192, 128]⟩
abbrev S8192x256 : Shape := ⟨2, ![8192, 256]⟩
abbrev S2x8192x256 : Shape := ⟨3, ![2, 8192, 256]⟩
abbrev S1x1024x256 : Shape := ⟨3, ![1, 1024, 256]⟩
abbrev S1024x256 : Shape := ⟨2, ![1024, 256]⟩
abbrev S2048x256 : Shape := ⟨2, ![2048, 256]⟩
abbrev S1x8192x256 : Shape := ⟨3, ![1, 8192, 256]⟩
abbrev S128x64 : Shape := ⟨2, ![128, 64]⟩
abbrev S256x64 : Shape := ⟨2, ![256, 64]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S8192x64 : Shape := ⟨2, ![8192, 64]⟩

abbrev nBuf : Space → Nat
  | .hbm => 87
  | .vmem => 39
  | .smem => 0
  | _ => 0

abbrev bufTy : (tb : Table) → Fin (tcTables nBuf tb) → BufTy
  | .hbm, ⟨0, _⟩ => ⟨S8192x128, .f32⟩
  | .hbm, ⟨1, _⟩ => ⟨S2x8192x8192, .f32⟩
  | .hbm, ⟨2, _⟩ => ⟨S8192x8192, .f32⟩
  | .hbm, ⟨3, _⟩ => ⟨S1, .f32⟩
  | .hbm, ⟨4, _⟩ => ⟨S896x64, .f32⟩
  | .hbm, ⟨5, _⟩ => ⟨S64, .f32⟩
  | .hbm, ⟨6, _⟩ => ⟨S8192, .i32⟩
  | .hbm, ⟨7, _⟩ => ⟨S8192x128, .bf16⟩
  | .hbm, ⟨8, _⟩ => ⟨S1x1, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192x1, .i32⟩
  | .hbm, ⟨15, _⟩ => ⟨S8192, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .bf16⟩
  | .hbm, ⟨20, _⟩ => ⟨S2x8192x128, .f32⟩
  | .hbm, ⟨21, _⟩ => ⟨S1x8192x128, .f32⟩
  | .hbm, ⟨22, _⟩ => ⟨S8192x128, .f32⟩
  | .hbm, ⟨23, _⟩ => ⟨S1x8192x128, .f32⟩
  | .hbm, ⟨24, _⟩ => ⟨S8192x128, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .bf16⟩
  | .hbm, ⟨29, _⟩ => ⟨S2x8192x256, .f32⟩
  | .hbm, ⟨30, _⟩ => ⟨S1x8192x128, .f32⟩
  | .hbm, ⟨31, _⟩ => ⟨S8192x128, .f32⟩
  | .hbm, ⟨32, _⟩ => ⟨S1x8192x128, .f32⟩
  | .hbm, ⟨33, _⟩ => ⟨S8192x128, .f32⟩
  | .hbm, ⟨34, _⟩ => ⟨S1x8192x256, .f32⟩
  | .hbm, ⟨35, _⟩ => ⟨S8192x256, .f32⟩
  | .hbm, ⟨36, _⟩ => ⟨S1x8192x256, .f32⟩
  | .hbm, ⟨37, _⟩ => ⟨S8192x256, .f32⟩
  | .hbm, ⟨38, _⟩ => ⟨S128x64, .f32⟩
  | .hbm, ⟨39, _⟩ => ⟨S128x64, .f32⟩
  | .hbm, ⟨40, _⟩ => ⟨S128x64, .f32⟩
  | .hbm, ⟨41, _⟩ => ⟨S256x64, .f32⟩
  | .hbm, ⟨42, _⟩ => ⟨S256x64, .f32⟩
  | .hbm, ⟨43, _⟩ => ⟨S_, .i32⟩
  | .hbm, ⟨44, _⟩ => ⟨S_, .f32⟩
  | .hbm, ⟨45, _⟩ => ⟨S128x128, .f32⟩
  | .hbm, ⟨46, _⟩ => ⟨S_, .i32⟩
  | .hbm, ⟨47, _⟩ => ⟨S_, .f32⟩
  | .hbm, ⟨48, _⟩ => ⟨S128x128, .f32⟩
  | .hbm, ⟨49, _⟩ => ⟨S_, .i32⟩
  | .hbm, ⟨50, _⟩ => ⟨S_, .f32⟩
  | .hbm, ⟨51, _⟩ => ⟨S128x128, .f32⟩
  | .hbm, ⟨52, _⟩ => ⟨S_, .i32⟩
  | .hbm, ⟨53, _⟩ => ⟨S_, .f32⟩
  | .hbm, ⟨54, _⟩ => ⟨S256x128, .f32⟩
  | .hbm, ⟨55, _⟩ => ⟨S_, .i32⟩
  | .hbm, ⟨56, _⟩ => ⟨S_, .f32⟩
  | .hbm, ⟨57, _⟩ => ⟨S256x128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S8192x128, .f32⟩
  | .hbm, ⟨63, _⟩ => ⟨S8192x64, .f32⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S1, .i32⟩
  | .hbm, ⟨73, _⟩ => ⟨S_, .i32⟩
  | .hbm, ⟨74, _⟩ => ⟨S8192x1, .i32⟩
  | .hbm, ⟨75, _⟩ => ⟨S8192x1, .i1⟩
  | .hbm, ⟨76, _⟩ => ⟨S1x1, .i32⟩
  | .hbm, ⟨77, _⟩ => ⟨S8192x1, .i32⟩
  | .hbm, ⟨78, _⟩ => ⟨S8192x1, .i1⟩
  | .hbm, ⟨79, _⟩ => ⟨S8192x1, .i1⟩
  | .hbm, ⟨80, _⟩ => ⟨S_, .i1⟩
  | .hbm, ⟨81, _⟩ => ⟨S8192, .i1⟩
  | .hbm, ⟨82, _⟩ => ⟨S8192x64, .f32⟩
  | .hbm, ⟨83, _⟩ => ⟨S8192x64, .i1⟩
  | .hbm, ⟨84, _⟩ => ⟨S_, .f32⟩
  | .hbm, ⟨85, _⟩ => ⟨S8192x64, .f32⟩
  | .hbm, ⟨86, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S8192x128, .bf16⟩
  | .local _ .vmem, ⟨3, _⟩ => ⟨S1024x128, .f32⟩
  | .local _ .vmem, ⟨4, _⟩ => ⟨S1024x128, .f32⟩
  | .local _ .vmem, ⟨5, _⟩ => ⟨S1x1, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1024x2048, .f32⟩
  | .local _ .vmem, ⟨10, _⟩ => ⟨S1x1024x2048, .f32⟩
  | .local _ .vmem, ⟨11, _⟩ => ⟨S8192x128, .bf16⟩
  | .local _ .vmem, ⟨12, _⟩ => ⟨S1x1024x128, .f32⟩
  | .local _ .vmem, ⟨13, _⟩ => ⟨S1x1024x128, .f32⟩
  | .local _ .vmem, ⟨14, _⟩ => ⟨S1024x128, .f32⟩
  | .local _ .vmem, ⟨15, _⟩ => ⟨S1x1024x2048, .f32⟩
  | .local _ .vmem, ⟨16, _⟩ => ⟨S1x1024x2048, .f32⟩
  | .local _ .vmem, ⟨17, _⟩ => ⟨S8192x256, .bf16⟩
  | .local _ .vmem, ⟨18, _⟩ => ⟨S1x1024x256, .f32⟩
  | .local _ .vmem, ⟨19, _⟩ => ⟨S1x1024x256, .f32⟩
  | .local _ .vmem, ⟨20, _⟩ => ⟨S1024x256, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S256x128, .f32⟩
  | .local _ .vmem, ⟨35, _⟩ => ⟨S256x128, .f32⟩
  | .local _ .vmem, ⟨36, _⟩ => ⟨S1x128, .f32⟩
  | .local _ .vmem, ⟨37, _⟩ => ⟨S1024x128, .f32⟩
  | .local _ .vmem, ⟨38, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩
abbrev main_c_1 : Ref sig .tc := ⟨.hbm, 46, rfl⟩
abbrev main_call1_v0 : Ref sig .tc := ⟨.hbm, 47, rfl⟩
abbrev main_v35 : Ref sig .tc := ⟨.hbm, 48, rfl⟩
abbrev main_c_2 : Ref sig .tc := ⟨.hbm, 49, rfl⟩
abbrev main_call2_v0 : Ref sig .tc := ⟨.hbm, 50, rfl⟩
abbrev main_v36 : Ref sig .tc := ⟨.hbm, 51, rfl⟩
abbrev main_c_3 : Ref sig .tc := ⟨.hbm, 52, rfl⟩
abbrev main_call3_v0 : Ref sig .tc := ⟨.hbm, 53, rfl⟩
abbrev main_v37 : Ref sig .tc := ⟨.hbm, 54, rfl⟩
abbrev main_c_4 : Ref sig .tc := ⟨.hbm, 55, rfl⟩
abbrev main_call4_v0 : Ref sig .tc := ⟨.hbm, 56, rfl⟩
abbrev main_v38 : Ref sig .tc := ⟨.hbm, 57, rfl⟩
abbrev main_c_5 : Ref sig .tc := ⟨.hbm, 58, rfl⟩
abbrev main_call5_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call6_c : Ref sig .tc := ⟨.hbm, 64, rfl⟩
abbrev main_call6_v0 : Ref sig .tc := ⟨.hbm, 65, rfl⟩
abbrev main_call6_v1 : Ref sig .tc := ⟨.hbm, 66, rfl⟩
abbrev main_call6_c_0 : Ref sig .tc := ⟨.hbm, 67, rfl⟩
abbrev main_call6_v2 : Ref sig .tc := ⟨.hbm, 68, rfl⟩
abbrev main_call6_v3 : Ref sig .tc := ⟨.hbm, 69, rfl⟩
abbrev main_call6_v4 : Ref sig .tc := ⟨.hbm, 70, rfl⟩
abbrev main_call6_v5 : Ref sig .tc := ⟨.hbm, 71, rfl⟩
abbrev main_call6_c_1 : Ref sig .tc := ⟨.hbm, 72, rfl⟩
abbrev main_call6_c_2 : Ref sig .tc := ⟨.hbm, 73, rfl⟩
abbrev main_call6_v6 : Ref sig .tc := ⟨.hbm, 74, rfl⟩
abbrev main_call6_v7 : Ref sig .tc := ⟨.hbm, 75, rfl⟩
abbrev main_call6_v8 : Ref sig .tc := ⟨.hbm, 76, rfl⟩
abbrev main_call6_v9 : Ref sig .tc := ⟨.hbm, 77, rfl⟩
abbrev main_call6_v10 : Ref sig .tc := ⟨.hbm, 78, rfl⟩
abbrev main_call6_v11 : Ref sig .tc := ⟨.hbm, 79, rfl⟩
abbrev main_call6_c_3 : Ref sig .tc := ⟨.hbm, 80, rfl⟩
abbrev main_call6_v12 : Ref sig .tc := ⟨.hbm, 81, rfl⟩
abbrev main_call6_v13 : Ref sig .tc := ⟨.hbm, 82, rfl⟩
abbrev main_call6_v14 : Ref sig .tc := ⟨.hbm, 83, rfl⟩
abbrev main_call6_cst : Ref sig .tc := ⟨.hbm, 84, rfl⟩
abbrev main_call6_v15 : Ref sig .tc := ⟨.hbm, 85, rfl⟩
abbrev main_v43 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg11_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33
abbrev cc3_sem11_0 : DmaSem sig := 34
abbrev cc3_sem11_1 : DmaSem sig := 35

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨3, ![2, 8, 4], ![false, false, false]⟩

def k1_mult1 (i : grid1.Coords) : BitVec 32 :=
  let arg2 : BitVec 32 := BitVec.ofNat 32 (i 2).val
  let c2048_i32 : BitVec 32 := 2048#32
  let v6 : BitVec 32 := Scalar.muli arg2 c2048_i32
  v6
def k1_off1 (i : grid1.Coords) : Fin 2 → Nat :=
  let arg2 : BitVec 32 := BitVec.ofNat 32 (i 2).val
  let c2048_i32 : BitVec 32 := 2048#32
  let v6 : BitVec 32 := Scalar.muli arg2 c2048_i32
  let v7 : BitVec 32 := v6
  let v8 : Index := Scalar.indexCast v7
  let c0_3 : Index := 0#32
  ![v8.toNat, 0]
def k1_cond2 (i : grid1.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_8 : BitVec 32 := 0#32
  let v19 : BitVec 1 := Scalar.cmpi .ne v18 c0_i32_8
  v19

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 4], ![false, false, false]⟩

def k2_mult1 (i : grid2.Coords) : BitVec 32 :=
  let arg2 : BitVec 32 := BitVec.ofNat 32 (i 2).val
  let c2048_i32 : BitVec 32 := 2048#32
  let v6 : BitVec 32 := Scalar.muli arg2 c2048_i32
  v6
def k2_off1 (i : grid2.Coords) : Fin 2 → Nat :=
  let arg2 : BitVec 32 := BitVec.ofNat 32 (i 2).val
  let c2048_i32 : BitVec 32 := 2048#32
  let v6 : BitVec 32 := Scalar.muli arg2 c2048_i32
  let v7 : BitVec 32 := v6
  let v8 : Index := Scalar.indexCast v7
  let c0_3 : Index := 0#32
  ![v8.toNat, 0]
def k2_cond2 (i : grid2.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_8 : BitVec 32 := 0#32
  let v19 : BitVec 1 := Scalar.cmpi .ne v18 c0_i32_8
  v19

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S1x1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S1024x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  bitsLt_bf16_f32 : FTy.bits .bf16 < FTy.bits .f32
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  h_S2048x128 : 0 < S2048x128.numel
  shapeCasts_S2048x128_S2048x128 : S2048x128.ShapeCasts S2048x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  bcast_S8192x1_S8192x128_0_1 : S8192x1.BroadcastsInDim S8192x128 (![0, 1] : Fin 2 → Fin S8192x128.rank)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S2x8192x128_S1x8192x128_0_0_0 : S2x8192x128.Slices ![0, 0, 0] S1x8192x128
  shapeCasts_S1x8192x128_S8192x128 : S1x8192x128.ShapeCasts S8192x128
  slices_S2x8192x128_S1x8192x128_1_0_0 : S2x8192x128.Slices ![1, 0, 0] S1x8192x128
  concatenates_S8192x128_S8192x128_S8192x256_d1 : Shape.Concatenates [S8192x128, S8192x128] S8192x256 1
  bcast_S8192x1_S8192x256_0_1 : S8192x1.BroadcastsInDim S8192x256 (![0, 1] : Fin 2 → Fin S8192x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S2048x256 : 0 < S2048x256.numel
  shapeCasts_S2048x256_S2048x256 : S2048x256.ShapeCasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  slices_S2x8192x256_S1x8192x256_0_0_0 : S2x8192x256.Slices ![0, 0, 0] S1x8192x256
  shapeCasts_S1x8192x256_S8192x256 : S1x8192x256.ShapeCasts S8192x256
  slices_S2x8192x256_S1x8192x256_1_0_0 : S2x8192x256.Slices ![1, 0, 0] S1x8192x256
  slices_S896x64_S128x64_0_0 : S896x64.Slices ![0, 0] S128x64
  slices_S896x64_S128x64_128_0 : S896x64.Slices ![128, 0] S128x64
  slices_S896x64_S128x64_256_0 : S896x64.Slices ![256, 0] S128x64
  slices_S896x64_S256x64_384_0 : S896x64.Slices ![384, 0] S256x64
  slices_S896x64_S256x64_640_0 : S896x64.Slices ![640, 0] S256x64
  pads_S128x64_S128x128_000_0640 : S128x64.Pads (![0, 0] : Fin 2 → Nat) ![0, 64] ![0, 0] S128x128
  h_S_ : 0 < S_.numel
  pads_S256x64_S256x128_000_0640 : S256x64.Pads (![0, 0] : Fin 2 → Nat) ![0, 64] ![0, 0] S256x128
  pads_S64_S128_0640 : S64.Pads (![0] : Fin 1 → Nat) ![64] ![0] S128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S8192x128_S8192x64_0_0 : S8192x128.Slices ![0, 0] S8192x64
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x64_0 : S8192.BroadcastsInDim S8192x64 (![0] : Fin 1 → Fin S8192x64.rank)
  bcast_S_S8192x64 : S_.BroadcastsInDim S8192x64 (![] : Fin 0 → Fin S8192x64.rank)
  dot_S1024x2048_S2048x128_S1024x128_1_0_0_1_n_n_wf : DotDims.WF S1024x2048 S2048x128 S1024x128 [1] [0] [0] [1] [] []
  scatter_S8192_S8192x1_S8192_n_0_0_1_wf : ScatterDims.WF S8192 S8192x1 S8192 [] [0] [0] 1
  dot_S1024x2048_S2048x256_S1024x256_1_0_0_1_n_n_wf : DotDims.WF S1024x2048 S2048x256 S1024x256 [1] [0] [0] [1] [] []
  dot_S1024x128_S128x128_S1024x128_1_0_0_1_n_n_wf : DotDims.WF S1024x128 S128x128 S1024x128 [1] [0] [0] [1] [] []
  dot_S1024x256_S256x128_S1024x128_1_0_0_1_n_n_wf : DotDims.WF S1024x256 S256x128 S1024x128 [1] [0] [0] [1] [] []
  gather_S8192x64_S8192x1_S8192x64_1_0_n_n_0_1_164_wf : GatherDims.WF S8192x64 S8192x1 S8192x64 [1] [0] [] [0] [] 1 ![1, 64]
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S2x8192x8192.size a
  hwx1_0 : ∀ i : grid1.Coords, EltTy.bits .f32 = 32 ∨ (Rect.block (s := S2x8192x8192) S1x1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x8192x128.size a
  hwx1_2 : ∀ i : grid1.Coords, EltTy.bits .f32 = 32 ∨ (Rect.block (s := S2x8192x128) S1x1024x128.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x2048.size a ≤ S2x8192x8192.size a
  hwx2_0 : ∀ i : grid2.Coords, EltTy.bits .f32 = 32 ∨ (Rect.block (s := S2x8192x8192) S1x1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x256.size a ≤ S2x8192x256.size a
  hwx2_2 : ∀ i : grid2.Coords, EltTy.bits .f32 = 32 ∨ (Rect.block (s := S2x8192x256) S1x1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .f32 = 32 ∨ (Rect.block (s := S8192x128) S1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S8192x256.size a
  hwx3_4 : ∀ i : grid3.Coords, EltTy.bits .f32 = 32 ∨ (Rect.block (s := S8192x256) S1024x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x128.size a ≤ S256x128.size a
  hwx3_9 : ∀ i : grid3.Coords, EltTy.bits .f32 = 32 ∨ (Rect.block (s := S256x128) S256x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1024x128.size a ≤ S8192x128.size a
  hwx3_11 : ∀ i : grid3.Coords, EltTy.bits .f32 = 32 ∨ (Rect.block (s := S8192x128) S1024x128.size (cc3_transform_11 i) (hinb3_11 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x64_S8192x1_S8192x64_1_0_n_n_0_1_164 : GatherDims S8192x64 S8192x1 S8192x64 where
  offsetDims := [1]
  collapsedSliceDims := [0]
  operandBatchingDims := []
  startIndicesBatchingDims := []
  startIndexMap := [0]
  indexVectorDim := 1
  sliceSizes := ![1, 64]
  wf := gather_S8192x64_S8192x1_S8192x64_1_0_n_n_0_1_164_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1x1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v2) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1024x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v28) S1024x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v34) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v36) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v37) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v38) S256x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v40) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v41) S1024x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S8192x128 : Shape := ⟨2, ![8192, 128]⟩
abbrev S2x8192x8192 : Shape := ⟨3, ![2, 8192, 8192]⟩
abbrev S8192x8192 : Shape := ⟨2, ![8192, 8192]⟩
abbrev S1 : Shape := ⟨1, ![1]⟩
abbrev S896x64 : Shape := ⟨2, ![896, 64]⟩
abbrev S64 : Shape := ⟨1, ![64]⟩
abbrev S8192 : Shape := ⟨1, ![8192]⟩
abbrev S1x1 : Shape := ⟨2, ![1, 1]⟩
abbrev S_ : Shape := ⟨0, ![]⟩
abbrev S8192x1 : Shape := ⟨2, ![8192, 1]⟩
abbrev S128x2x8192 : Shape := ⟨3, ![128, 2, 8192]⟩
abbrev S8192x2x128 : Shape := ⟨3, ![8192, 2, 128]⟩
abbrev S8192x256 : Shape := ⟨2, ![8192, 256]⟩
abbrev S256x2x8192 : Shape := ⟨3, ![256, 2, 8192]⟩
abbrev S8192x2x256 : Shape := ⟨3, ![8192, 2, 256]⟩
abbrev S8192x512 : Shape := ⟨2, ![8192, 512]⟩
abbrev S8192x896 : Shape := ⟨2, ![8192, 896]⟩
abbrev S8192x64 : Shape := ⟨2, ![8192, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x8192x8192, .f32⟩
  | .hbm, ⟨2, _⟩ => ⟨S8192x8192, .f32⟩
  | .hbm, ⟨3, _⟩ => ⟨S1, .f32⟩
  | .hbm, ⟨4, _⟩ => ⟨S896x64, .f32⟩
  | .hbm, ⟨5, _⟩ => ⟨S64, .f32⟩
  | .hbm, ⟨6, _⟩ => ⟨S8192, .i32⟩
  | .hbm, ⟨7, _⟩ => ⟨S8192x128, .f32⟩
  | .hbm, ⟨8, _⟩ => ⟨S1x1, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x128, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S2x8192x8192, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S2x8192x8192, .f32⟩
  | .hbm, ⟨39, _⟩ => ⟨S128x2x8192, .f32⟩
  | .hbm, ⟨40, _⟩ => ⟨S8192x2x128, .f32⟩
  | .hbm, ⟨41, _⟩ => ⟨S8192x256, .f32⟩
  | .hbm, ⟨42, _⟩ => ⟨S256x2x8192, .f32⟩
  | .hbm, ⟨43, _⟩ => ⟨S8192x2x256, .f32⟩
  | .hbm, ⟨44, _⟩ => ⟨S8192x512, .f32⟩
  | .hbm, ⟨45, _⟩ => ⟨S8192x896, .f32⟩
  | .hbm, ⟨46, _⟩ => ⟨S8192x64, .f32⟩
  | .hbm, ⟨47, _⟩ => ⟨S1x64, .f32⟩
  | .hbm, ⟨48, _⟩ => ⟨S8192x64, .f32⟩
  | .hbm, ⟨49, _⟩ => ⟨S8192x64, .f32⟩
  | .hbm, ⟨50, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S8192x128_0_1 : S1x1.BroadcastsInDim S8192x128 (![0, 1] : Fin 2 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  transposes_S128x2x8192_S8192x2x128_2_1_0 : S128x2x8192.Transposes [2, 1, 0] S8192x2x128
  shapeCasts_S8192x2x128_S8192x256 : S8192x2x128.ShapeCasts S8192x256
  transposes_S256x2x8192_S8192x2x256_2_1_0 : S256x2x8192.Transposes [2, 1, 0] S8192x2x256
  shapeCasts_S8192x2x256_S8192x512 : S8192x2x256.ShapeCasts S8192x512
  concatenates_S8192x128_S8192x256_S8192x512_S8192x896_d1 : Shape.Concatenates [S8192x128, S8192x256, S8192x512] S8192x896 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x8192_S8192x128_S8192x128_1_0_0_1_n_n_wf : DotDims.WF S8192x8192 S8192x128 S8192x128 [1] [0] [0] [1] [] []
  gather_S8192x128_S8192x1_S8192x128_1_0_n_n_0_1_1128_wf : GatherDims.WF S8192x128 S8192x1 S8192x128 [1] [0] [] [0] [] 1 ![1, 128]
  gather_S2x8192x8192_S8192x1_S2x8192x8192_02_1_n_n_1_1_218192_wf : GatherDims.WF S2x8192x8192 S8192x1 S2x8192x8192 [0, 2] [1] [] [1] [] 1 ![2, 1, 8192]
  gather_S2x8192x8192_S8192x1_S2x8192x8192_01_2_n_n_2_1_281921_wf : GatherDims.WF S2x8192x8192 S8192x1 S2x8192x8192 [0, 1] [2] [] [2] [] 1 ![2, 8192, 1]
  dot_S8192x128_S2x8192x8192_S128x2x8192_0_2_1_01_n_n_wf : DotDims.WF S8192x128 S2x8192x8192 S128x2x8192 [0] [2] [1] [0, 1] [] []
  dot_S8192x256_S2x8192x8192_S256x2x8192_0_2_1_01_n_n_wf : DotDims.WF S8192x256 S2x8192x8192 S256x2x8192 [0] [2] [1] [0, 1] [] []
  dot_S8192x896_S896x64_S8192x64_1_0_0_1_n_n_wf : DotDims.WF S8192x896 S896x64 S8192x64 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def gather_S2x8192x8192_S8192x1_S2x8192x8192_02_1_n_n_1_1_218192 : GatherDims S2x8192x8192 S8192x1 S2x8192x8192 where
  offsetDims := [0, 2]
  collapsedSliceDims := [1]
  operandBatchingDims := []
  startIndicesBatchingDims := []
  startIndexMap := [1]
  indexVectorDim := 1
  sliceSizes := ![2, 1, 8192]
  wf := gather_S2x8192x8192_S8192x1_S2x8192x8192_02_1_n_n_1_1_218192_wf
def gather_S2x8192x8192_S8192x1_S2x8192x8192_01_2_n_n_2_1_281921 : GatherDims S2x8192x8192 S8192x1 S2x8192x8192 where
  offsetDims := [0, 1]
  collapsedSliceDims := [2]
  operandBatchingDims := []
  startIndicesBatchingDims := []
  startIndexMap := [2]
  indexVectorDim := 1
  sliceSizes := ![2, 8192, 1]
  wf := gather_S2x8192x8192_S8192x1_S2x8192x8192_01_2_n_n_2_1_281921_wf
def dot_S8192x128_S2x8192x8192_S128x2x8192_0_2_1_01_n_n : DotDims S8192x128 S2x8192x8192 S128x2x8192 where
  lhsContracting := [0]
  rhsContracting := [2]
  lhsNonContracting := [1]
  rhsNonContracting := [0, 1]
  lhsBatch := []
  rhsBatch := []
  wf := dot_S8192x128_S2x8192x8192_S128x2x8192_0_2_1_01_n_n_wf
def dot_S8192x256_S2x8192x8192_S256x2x8192_0_2_1_01_n_n : DotDims S8192x256 S2x8192x8192 S256x2x8192 where
  lhsContracting := [0]
  rhsContracting := [2]
  lhsNonContracting := [1]
  rhsNonContracting := [0, 1]
  lhsBatch := []
  rhsBatch := []
  wf := dot_S8192x256_S2x8192x8192_S256x2x8192_0_2_1_01_n_n_wf
def dot_S8192x896_S896x64_S8192x64_1_0_0_1_n_n : DotDims S8192x896 S896x64 S8192x64 where
  lhsContracting := [1]
  rhsContracting := [0]
  lhsNonContracting := [0]
  rhsNonContracting := [1]
  lhsBatch := []
  rhsBatch := []
  wf := dot_S8192x896_S896x64_S8192x64_1_0_0_1_n_n_wf

class Facts : Prop extends Facts₀ where

variable [Facts]
-- ==== Proof.K.R0Runs.lean ====
import proofs.«429692_j807453851732_2_alg».proof.Proof.Gen.Kernel.Launch
import proofs.«429692_j807453851732_2_alg».proof.Proof.Gen.Kernel.Skeleton
import proofs.«429692_j807453851732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := by decide +kernel

abbrev cond0_1 (i : grid0.Coords) : Prop := k0_cond2 i = 1#1
theorem hcond0_1 : ∀ t : Fin cfg0.N, cond0_1 (grid0.coords t) ↔ t.val % 4 = 3 := by decide +kernel

theorem liveAt0 : ∀ (w : Fin cfg0.W) (t : Fin cfg0.N), w ≠ 4 → cfg0.idle w (grid0.coords t) = false := by decide +kernel
theorem idleAt0_4 : ∀ t : Fin cfg0.N, ¬t.val % 4 = 3 → cfg0.idle 4 (grid0.coords t) = true := by decide +kernel
theorem noFlush0_4 : ∀ t : Fin cfg0.N, ¬t.val % 4 = 3 → (cfg0.win 4).flush t = false := by decide +kernel
theorem liveAt0_4 : ∀ t : Fin cfg0.N, t.val % 4 = 3 → cfg0.idle 4 (grid0.coords t) = false := by decide +kernel

abbrev VO0_4 : View sig .tc .vmem S1024x128 .f32 := (Memref.whole cc0_stg4_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev scM0_0 : Memref sig .tc .vmem S1024x128 .f32 := Memref.whole cc0_scratch0
abbrev VS0_0 : View sig .tc .vmem S1024x128 .f32 := scM0_0.view

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

abbrev Run0 (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (x0 : Vec F S1024x2048 .f32) (x1 : Vec F S8192x128 .bf16) (x2 : Vec F S1024x128 .f32) (x3 : Vec F S1x1 .f32)
    (P6 : Vec F S1024x128 .f32 → sProp 𝕄) (P7 : sProp 𝕄) (Q6 : Vec F S1024x128 .f32 → List (View.Piece (Elt F) S1024x128 .f32) → sProp 𝕄) : Type :=
  Σ' (L4 : List (View.Piece (Elt F) S1024x128 .f32)), { LS0 : List (View.Piece (Elt F) S1024x128 .f32) //
    ∀ (xi4 : Vec F S1024x128 .f32) (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ P6 xi4 ∗ P7
          ∗ (iprop(owns (c : Thread nD τ) arg2 fullShare x0 ∗ owns (c : Thread nD τ) arg3 fullShare x1 ∗ owns (c : Thread nD τ) arg4 fullShare x2 ∗ owns (c : Thread nD τ) arg5 fullShare x3 ∗ Q6 xi4 L4 ∗ (∃ f, arg7.view.loc (c : Thread nD τ) ↦[arg7.view.set]{fullShare} arg7.view.writes (Elt F) f LS0)) -∗ K ⟨⟩))
        ⊢ wp frame (wpE (defs₀ (F := F)) Variants.none c none) E (cc0__diffusion_kernel i arg2 harg2 arg3 harg3 arg4 harg4 arg5 harg5 arg6 harg6 arg7 harg7) K }

end Cert.Kernel.Hand

end
-- ==== Proof.K.R0RunA.lean ====
import proofs.«429692_j807453851732_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_A (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S8192x128 .bf16) (x2 : Vec F S1024x128 .f32) (x3 : Vec F S1x1 .f32) :
    Run0 c i arg2 harg2 arg3 harg3 arg4 harg4 arg5 harg5 arg6 harg6 arg7 harg7 x0 x1 x2 x3 (owns (c : Thread nD τ) arg6 fullShare) iprop(∃ d, owns (c : Thread nD τ) arg7 fullShare d) (fun xi4 _ => owns (c : Thread nD τ) arg6 fullShare xi4) := by
  refine ⟨[], ?_, fun xi4 E K => ?run⟩
  case run =>
    simp only [cc0__diffusion_kernel_eq_skeleton]; unfold cc0__diffusion_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunB.lean ====
import proofs.«429692_j807453851732_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_B (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S8192x128 .bf16) (x2 : Vec F S1024x128 .f32) (x3 : Vec F S1x1 .f32) (xs0 : Vec F S1024x128 .f32) :
    Run0 c i arg2 harg2 arg3 harg3 arg4 harg4 arg5 harg5 arg6 harg6 arg7 harg7 x0 x1 x2 x3 (owns (c : Thread nD τ) arg6 fullShare) (owns (c : Thread nD τ) arg7 fullShare xs0) (fun xi4 _ => owns (c : Thread nD τ) arg6 fullShare xi4) := by
  refine ⟨[], ?_, fun xi4 E K => ?run⟩
  case run =>
    simp only [cc0__diffusion_kernel_eq_skeleton]; unfold cc0__diffusion_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunC.lean ====
import proofs.«429692_j807453851732_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_C (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S8192x128 .bf16) (x2 : Vec F S1024x128 .f32) (x3 : Vec F S1x1 .f32) (xs0 : Vec F S1024x128 .f32) :
    Run0 c i arg2 harg2 arg3 harg3 arg4 harg4 arg5 harg5 arg6 harg6 arg7 harg7 x0 x1 x2 x3 (fun _ => iprop(∃ d, owns (c : Thread nD τ) arg6 fullShare d)) (owns (c : Thread nD τ) arg7 fullShare xs0) (fun _ L4 => iprop(∃ f, arg6.view.loc (c : Thread nD τ) ↦[arg6.view.set]{fullShare} arg6.view.writes (Elt F) f L4)) := by
  refine ⟨?_, ?_, fun _ E K => ?run⟩
  case run =>
    simp only [cc0__diffusion_kernel_eq_skeleton]; unfold cc0__diffusion_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R0Frame.lean ====
import proofs.«429692_j807453851732_2_alg».proof.Proof.Gen.Kernel.Launch
import proofs.«429692_j807453851732_2_alg».proof.Proof.Gen.Kernel.Skeleton
import proofs.«429692_j807453851732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429692_j807453851732_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole)

section
variable (hc0 : cond0_0 i) (hc1 : ¬cond0_1 i) (x0 : Vec F S1024x2048 .f32) (x1 : Vec F S8192x128 .bf16) (x2 : Vec F S1024x128 .f32) (x3 : Vec F S1x1 .f32)

def out0_A_4 : Vec F S1024x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

theorem scover0_A_0 (y : S1024x128.Idx) : ∃ pc ∈ (kernelRun0_A c i arg2 harg2 arg3 harg3 arg4 harg4 arg5 harg5 arg6 harg6 arg7 harg7 hc0 hc1 x0 x1 x2 x3).2.1, y ∈ pc.1.set :=
  View.cover_of_tiledL _ S1024x128.size (by sl_kernel_rfl) y

def sout0_A_0 : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

end

section
variable (hc0 : ¬cond0_0 i) (hc1 : ¬cond0_1 i) (x0 : Vec F S1024x2048 .f32) (x1 : Vec F S8192x128 .bf16) (x2 : Vec F S1024x128 .f32) (x3 : Vec F S1x1 .f32) (xs0 : Vec F S1024x128 .f32)

def out0_B_4 : Vec F S1024x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (y : S1024x128.Idx) : ∃ pc ∈ (kernelRun0_B c i arg2 harg2 arg3 harg3 arg4 harg4 arg5 harg5 arg6 harg6 arg7 harg7 hc0 hc1 x0 x1 x2 x3 xs0).2.1, y ∈ pc.1.set :=
  View.cover_of_tiledL _ S1024x128.size (by sl_kernel_rfl) y

def sout0_B_0 : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

end

section
variable (hc0 : ¬cond0_0 i) (hc1 : cond0_1 i) (x0 : Vec F S1024x2048 .f32) (x1 : Vec F S8192x128 .bf16) (x2 : Vec F S1024x128 .f32) (x3 : Vec F S1x1 .f32) (xs0 : Vec F S1024x128 .f32)

theorem cover0_C_4 (y : S1024x128.Idx) : ∃ pc ∈ (kernelRun0_C c i arg2 harg2 arg3 harg3 arg4 harg4 arg5 harg5 arg6 harg6 arg7 harg7 hc0 hc1 x0 x1 x2 x3 xs0).1, y ∈ pc.1.set :=
  View.cover_of_tiledL _ S1024x128.size (by sl_kernel_rfl) y

def out0_C_4 : Vec F S1024x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (y : S1024x128.Idx) : ∃ pc ∈ (kernelRun0_C c i arg2 harg2 arg3 harg3 arg4 harg4 arg5 harg5 arg6 harg6 arg7 harg7 hc0 hc1 x0 x1 x2 x3 xs0).2.1, y ∈ pc.1.set :=
  View.cover_of_tiledL _ S1024x128.size (by sl_kernel_rfl) y

def sout0_C_0 : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end

end

theorem ncond0_1 (t : Fin cfg0.N) (h0 : t.val % 4 = 0) : ¬cond0_1 (grid0.coords t) :=
  fun h => by have := (hcond0_1 t).1 h; omega

def step0 (c : Dev nD) (t : Fin cfg0.N) (p : Vec F S1024x128 .f32) : Vec F S1024x128 .f32 × Vec F S1024x128 .f32 :=
  if h0 : t.val % 4 = 0 then
    (out0_A_4 c _ _ (hs0_0 t) _ (hs0_1 t) _ (hs0_2 t) _ (hs0_3 t) _ (hs0_4 t) scM0_0 (Memref.isWhole_whole _) ((hcond0_0 t).2 h0) (ncond0_1 t h0) (iblk0 V c 0 t) (iblk0 V c 1 t) (iblk0 V c 2 t) (iblk0 V c 3 t), sout0_A_0 c _ _ (hs0_0 t) _ (hs0_1 t) _ (hs0_2 t) _ (hs0_3 t) _ (hs0_4 t) scM0_0 (Memref.isWhole_whole _) ((hcond0_0 t).2 h0) (ncond0_1 t h0) (iblk0 V c 0 t) (iblk0 V c 1 t) (iblk0 V c 2 t) (iblk0 V c 3 t))
  else if h1 : t.val % 4 = 3 then
    (out0_C_4 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) p, sout0_C_0 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) p)
  else
    (out0_B_4 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) p, sout0_B_0 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) p)

def outsAt0 (c : Dev nD) : (n : ℕ) → n < cfg0.N → Vec F S1024x128 .f32 × Vec F S1024x128 .f32
  | 0, hn => step0 V c ⟨0, hn⟩ (VS0_0.read (Elt F) VS0_0.junk)
  | n + 1, hn => step0 V c ⟨n + 1, hn⟩ (outsAt0 c n (Nat.lt_of_succ_lt hn)).2

theorem outsAt0_A (c : Dev nD) (t : Fin cfg0.N) (h0 : t.val % 4 = 0) (h1 : ¬t.val % 4 = 3) :
    outsAt0 V c t.val t.isLt = (out0_A_4 c _ _ (hs0_0 t) _ (hs0_1 t) _ (hs0_2 t) _ (hs0_3 t) _ (hs0_4 t) scM0_0 (Memref.isWhole_whole _) ((hcond0_0 t).2 h0) (mt (hcond0_1 t).1 h1) (iblk0 V c 0 t) (iblk0 V c 1 t) (iblk0 V c 2 t) (iblk0 V c 3 t), sout0_A_0 c _ _ (hs0_0 t) _ (hs0_1 t) _ (hs0_2 t) _ (hs0_3 t) _ (hs0_4 t) scM0_0 (Memref.isWhole_whole _) ((hcond0_0 t).2 h0) (mt (hcond0_1 t).1 h1) (iblk0 V c 0 t) (iblk0 V c 1 t) (iblk0 V c 2 t) (iblk0 V c 3 t)) := by
  obtain ⟨_ | n, hn⟩ := t <;> (show step0 V c _ _ = _; unfold step0; exact dif_pos h0)

theorem outsAt0_B (c : Dev nD) (t : Fin cfg0.N) (h0 : ¬t.val % 4 = 0) (h1 : ¬t.val % 4 = 3) :
    outsAt0 V c t.val t.isLt = (out0_B_4 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) (outsAt0 V c (t.val - 1) ((t.1.sub_le 1).trans_lt t.2)).2, sout0_B_0 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) (outsAt0 V c (t.val - 1) ((t.1.sub_le 1).trans_lt t.2)).2) := by
  obtain ⟨_ | n, hn⟩ := t
  · exact absurd (Nat.zero_mod _) h0
  · show step0 V c _ _ = _; unfold step0; exact (dif_neg h0).trans (dif_neg h1)

theorem outsAt0_C (c : Dev nD) (t : Fin cfg0.N) (h0 : ¬t.val % 4 = 0) (h1 : t.val % 4 = 3) :
    outsAt0 V c t.val t.isLt = (out0_C_4 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) (outsAt0 V c (t.val - 1) ((t.1.sub_le 1).trans_lt t.2)).2, sout0_C_0 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) (outsAt0 V c (t.val - 1) ((t.1.sub_le 1).trans_lt t.2)).2) := by
  obtain ⟨_ | n, hn⟩ := t
  · exact absurd (Nat.zero_mod _) h0
  · show step0 V c _ _ = _; unfold step0; exact (dif_neg h0).trans (dif_pos h1)

def PhiAcc (c : Dev nD) (x : Vec F S1024x128 .f32) : sProp 𝕄 :=
  iprop(iprop(iprop(owns (c : Thread nD τ) scM0_0 fullShare x) ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => PhiAcc c (outsAt0 V c n hn).2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_out (c : Dev nD) (t : Fin cfg0.N) : (dat0 V c).after 4 t = (outsAt0 V c t.val t.isLt).1 := rfl

theorem Phi_pos (c : Dev nD) (t : Fin cfg0.N) (hz : ¬t.val % 4 = 0) :
    (dat0 V c).Φ t.castSucc = PhiAcc c (outsAt0 V c (t.val - 1) ((t.1.sub_le 1).trans_lt t.2)).2 := by
  obtain ⟨_ | n, h⟩ := t
  · exact absurd (Nat.zero_mod _) hz
  · rfl

theorem Phi_succ (c : Dev nD) (t : Fin cfg0.N) : (dat0 V c).Φ t.succ = PhiAcc c (outsAt0 V c t.val t.isLt).2 := rfl

theorem PhiAcc_out (c : Dev nD) (x : Vec F S1024x128 .f32) : PhiAcc c x ⊢ (Pipeline.ΦA spec0 c : sProp 𝕄) := by
  rw [PhiA0_eq]; unfold PhiAcc
  iintro ⟨⟨HS, Hr⟩, Hg⟩
  isplitl [HS Hr]
  · isplitl [HS]; · iexists _; iexact HS
    iexact Hr
  iexact Hg

theorem Phi_out0 (c : Dev nD) (t : Fin (cfg0.N + 1)) : (dat0 V c).Φ t ⊢ (Pipeline.ΦA spec0 c : sProp 𝕄) := by
  obtain ⟨_ | n, h⟩ := t
  · exact .rfl
  · exact PhiAcc_out c _

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := Phi_out0 V c _

theorem before0 (c : Dev nD) (w : Fin cfg0.W) (hw : w ≠ 4) (t : Fin cfg0.N) (d) : (dat0 V c).before w t d = (dat0 V c).after w t := by
  obtain ⟨_ | _ | _ | _ | _ | _, h⟩ := w <;> first
    | exact absurd rfl hw
    | exact absurd h (Nat.not_lt.2 (Nat.le_add_left _ _))
    | exact ((dat0 V c).before_in_eq_fetched _ rfl (fun _ => rfl) (fun _ _ _ => rfl) (fun _ => rfl) t d).trans rfl

theorem leaves_live (c : Dev nD) (w : Fin cfg0.W) (t : Fin cfg0.N) (hl : cfg0.idle w (grid0.coords t) = false) :
    (dat0 V c).leavesExact w t = owns (c : Thread nD τ) ((cfg0.win w).stage (cfg0.slots t w)) fullShare ((dat0 V c).after w t) := by
  unfold Dat.leavesExact; rw [hl]

-- Pieces that cover a block determine what is read back, whatever was there before.
theorem owns_of_cover {c : Dev nD} {sp : Space} {s : Shape} {e : EltTy} {m : Memref sig .tc sp s e} {κ' : Kind} {sp' : Space} {v' : View sig κ' sp' s e}
    {L : List (View.Piece (Elt F) s e)} (h : ∀ y, ∃ p ∈ L, y ∈ p.1.set) :
    iprop(∃ f, m.view.loc (c : Thread nD τ) ↦[m.view.set]{fullShare} m.view.writes (Elt F) f L)
      ⊢ (owns (c : Thread nD τ) m fullShare (v'.read (Elt F) (v'.writes (Elt F) v'.junk L)) : sProp 𝕄) := by
  unfold owns; iintro ⟨%f, H⟩; iexists m.view.writes (Elt F) f L; isplitr
  · ipureintro; exact View.read_writes_of_cover _ _ _ _ _ h
  iexact H

-- A run of the body, framed by what it does not touch.
theorem frame0 {c : Dev nD} {D0 D1 D2 D3 D4 : Type} {A7 R G O I0 I1 I2 I3 P7 Q7 S' L' : sProp 𝕄} {B P6 Q6 : D4 → sProp 𝕄}
    {e : Prog (TpuEff nD τ sig (Elt F) Λ₀ .tc) PUnit}
    (run : ∀ d (E : Set ℕ) (K : PUnit → sProp 𝕄), iprop(I0 ∗ I1 ∗ I2 ∗ I3 ∗ P6 d ∗ P7 ∗ (iprop(I0 ∗ I1 ∗ I2 ∗ I3 ∗ Q6 d ∗ Q7) -∗ K ⟨⟩)) ⊢ wp frame (wpE (defs₀ (F := F)) Variants.none c none) E e K)
    (h6 : ∀ d, B d ⊢ P6 d) (h7 : A7 ⊢ P7) (k6 : ∀ d, Q6 d ⊢ L') (k7 : Q7 ⊢ S') :
    iprop(((A7 ∗ R) ∗ G) ∗ O ∗ (∃ d : D0, I0) ∗ (∃ d : D1, I1) ∗ (∃ d : D2, I2) ∗ (∃ d : D3, I3) ∗ (∃ d, B d))
      ⊢ wp frame (wpE (defs₀ (F := F)) Variants.none c none) Set.univ e (fun _ => iprop(((S' ∗ R) ∗ G) ∗ O ∗ I0 ∗ I1 ∗ I2 ∗ I3 ∗ L')) := by
  iintro ⟨⟨⟨HS, Hr⟩, Hg⟩, Ho, ⟨%d0, H0⟩, ⟨%d1, H1⟩, ⟨%d2, H2⟩, ⟨%d3, H3⟩, ⟨%d4, H4⟩⟩
  iapply (run d4 Set.univ _)
  isplitl [H0]; · iexact H0
  isplitl [H1]; · iexact H1
  isplitl [H2]; · iexact H2
  isplitl [H3]; · iexact H3
  isplitl [H4]; · iapply (h6 d4); iexact H4
  isplitl [HS]; · iapply h7; iexact HS
  iintro ⟨H0, H1, H2, H3, H4, HS⟩
  isplitl [HS Hr Hg]
  · isplitl [HS Hr]
    · isplitl [HS]; · iapply k7; iexact HS
      iexact Hr
    iexact Hg
  isplitl [Ho]; · iexact Ho
  isplitl [H0]; · iexact H0
  isplitl [H1]; · iexact H1
  isplitl [H2]; · iexact H2
  isplitl [H3]; · iexact H3
  iapply (k6 d4); iexact H4

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c 0 (by decide), before0 V c 1 (by decide), before0 V c 2 (by decide), before0 V c 3 (by decide)]
  rw [Phi_succ, leaves_live V c 0 t (liveAt0 _ _ (by decide)), leaves_live V c 1 t (liveAt0 _ _ (by decide)), leaves_live V c 2 t (liveAt0 _ _ (by decide)), leaves_live V c 3 t (liveAt0 _ _ (by decide))]
  by_cases h0 : t.val % 4 = 0
  · have h1 : ¬t.val % 4 = 3 := by omega
    refine (sep_mono_l (Phi_out0 V c t.castSucc)).trans ?_
    rw [PhiA0_eq, Dat.leavesExact_idle (dat0 V c) 4 t (idleAt0_4 t h1) (noFlush0_4 t h1), outsAt0_A V c t h0 h1]
    unfold PhiAcc sout0_A_0; dsimp only
    exact frame0 (fun d => (kernelRun0_A _ _ _ _ _ _ _ _ _ _ _ _ _ _ _ _ _ _ _ _).2.2 _) (fun _ => .rfl) .rfl exists_intro
      (owns_of_cover (scover0_A_0 c _ _ _ _ _ _ _ _ _ _ _ _ _ _ _ _ _ _ _))
  · rw [Phi_pos V c t h0]
    by_cases h1 : t.val % 4 = 3
    · rw [leaves_live V c 4 t (liveAt0_4 t h1), after0_out, outsAt0_C V c t h0 h1]
      unfold PhiAcc out0_C_4 sout0_C_0; dsimp only
      exact frame0 (fun d => (kernelRun0_C _ _ _ _ _ _ _ _ _ _ _ _ _ _ _ _ _ _ _ _ _).2.2 d) (fun _ => exists_intro _) .rfl
        (fun _ => owns_of_cover (cover0_C_4 c _ _ _ _ _ _ _ _ _ _ _ _ _ _ _ _ _ _ _ _))
        (owns_of_cover (scover0_C_0 c _ _ _ _ _ _ _ _ _ _ _ _ _ _ _ _ _ _ _ _))
    · rw [Dat.leavesExact_idle (dat0 V c) 4 t (idleAt0_4 t h1) (noFlush0_4 t h1), outsAt0_B V c t h0 h1]
      unfold PhiAcc sout0_B_0; dsimp only
      exact frame0 (fun d => (kernelRun0_B _ _ _ _ _ _ _ _ _ _ _ _ _ _ _ _ _ _ _ _ _).2.2 _) (fun _ => .rfl) .rfl exists_intro
        (owns_of_cover (scover0_B_0 c _ _ _ _ _ _ _ _ _ _ _ _ _ _ _ _ _ _ _ _))

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«429692_j807453851732_2_alg».proof.Proof.Gen.Kernel.Launch
import proofs.«429692_j807453851732_2_alg».proof.Proof.Gen.Kernel.Skeleton
import proofs.«429692_j807453851732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

abbrev VO1_2 : View sig .tc .vmem S1x1024x128 .f32 := (Memref.whole cc1_stg2_0 : Memref sig .tc .vmem S1x1024x128 .f32).view
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)
abbrev scM1_0 : Memref sig .tc .vmem S1024x128 .f32 := Memref.whole cc1_scratch0
abbrev VS1_0 : View sig .tc .vmem S1024x128 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

-- A run of the body: the pieces it leaves in the output block's buffer and in the accumulator, and its triple from the accumulator at ACC.
abbrev Run1 (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole)
    (xk : Vec F S1x1024x2048 .f32) (xr : Vec F S8192x128 .bf16) (ACC : sProp 𝕄) (OUT : Vec F S1x1024x128 .f32 → List (View.Piece (Elt F) S1x1024x128 .f32) → sProp 𝕄) :=
  Σ' (LO : List (View.Piece (Elt F) S1x1024x128 .f32)), { LS : List (View.Piece (Elt F) S1024x128 .f32) //
    ∀ (xo : Vec F S1x1024x128 .f32) (E : Set ℕ) (K : PUnit → sProp 𝕄),
      iprop(owns (c : Thread nD τ) arg3 fullShare xk ∗ owns (c : Thread nD τ) arg4 fullShare xr ∗ owns (c : Thread nD τ) arg5 fullShare xo ∗ ACC
          ∗ (iprop(owns (c : Thread nD τ) arg3 fullShare xk ∗ owns (c : Thread nD τ) arg4 fullShare xr ∗ OUT xo LO ∗ (∃ f, arg6.view.loc (c : Thread nD τ) ↦[arg6.view.set]{fullShare} arg6.view.writes (Elt F) f LS)) -∗ K ⟨⟩))
        ⊢ wp frame (wpE (defs₀ (F := F)) Variants.none c none) E (cc1__k_matmul_kernel i arg3 harg3 arg4 harg4 arg5 harg5 arg6 harg6) K }

end Cert.Kernel.Hand

end
-- ==== Proof.K.R1RunA.lean ====
import proofs.«429692_j807453851732_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole) (hcz : cond1_0 i) (hcl : ¬cond1_1 i)
    (xk : Vec F S1x1024x2048 .f32) (xr : Vec F S8192x128 .bf16) :
    Run1 c i arg3 harg3 arg4 harg4 arg5 harg5 arg6 harg6 xk xr iprop(∃ d, owns (c : Thread nD τ) arg6 fullShare d) fun xo _ => owns (c : Thread nD τ) arg5 fullShare xo := by
  refine ⟨[], ?_, fun xo E K => ?run⟩
  case run =>
    simp only [cc1__k_matmul_kernel_eq_skeleton]; unfold cc1__k_matmul_kernel_skel
    unfold owns
    iintro ⟨⟨%fk, %hfk, HX⟩, ⟨%fr, %hfr, HR⟩, ⟨%fo, %hfo, HO⟩, ⟨%ds, %fs, -, HS⟩, Hk⟩
    obtain rfl := harg3.eq_unread hfk; obtain rfl := harg4.eq_unread hfr; obtain rfl := harg5.eq_unread hfo
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.Kernel.Hand

end
-- ==== Proof.K.R1RunB.lean ====
import proofs.«429692_j807453851732_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole) (hcz : ¬cond1_0 i) (hcl : ¬cond1_1 i)
    (xk : Vec F S1x1024x2048 .f32) (xr : Vec F S8192x128 .bf16) (xs : Vec F S1024x128 .f32) :
    Run1 c i arg3 harg3 arg4 harg4 arg5 harg5 arg6 harg6 xk xr (owns (c : Thread nD τ) arg6 fullShare xs) fun xo _ => owns (c : Thread nD τ) arg5 fullShare xo := by
  refine ⟨[], ?_, fun xo E K => ?run⟩
  case run =>
    simp only [cc1__k_matmul_kernel_eq_skeleton]; unfold cc1__k_matmul_kernel_skel
    unfold owns
    iintro ⟨⟨%fk, %hfk, HX⟩, ⟨%fr, %hfr, HR⟩, ⟨%fo, %hfo, HO⟩, ⟨%fs, %hfs, HS⟩, Hk⟩
    obtain rfl := harg3.eq_unread hfk; obtain rfl := harg4.eq_unread hfr; obtain rfl := harg5.eq_unread hfo; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.Kernel.Hand

end
-- ==== Proof.K.R1RunC.lean ====
import proofs.«429692_j807453851732_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole) (hcz : ¬cond1_0 i) (hcl : cond1_1 i)
    (xk : Vec F S1x1024x2048 .f32) (xr : Vec F S8192x128 .bf16) (xs : Vec F S1024x128 .f32) :
    Run1 c i arg3 harg3 arg4 harg4 arg5 harg5 arg6 harg6 xk xr (owns (c : Thread nD τ) arg6 fullShare xs) fun _ LO => iprop(∃ f, arg5.view.loc (c : Thread nD τ) ↦[arg5.view.set]{fullShare} arg5.view.writes (Elt F) f LO) := by
  refine ⟨?_, ?_, fun xo E K => ?run⟩
  case run =>
    simp only [cc1__k_matmul_kernel_eq_skeleton]; unfold cc1__k_matmul_kernel_skel
    unfold owns
    iintro ⟨⟨%fk, %hfk, HX⟩, ⟨%fr, %hfr, HR⟩, ⟨%fo, -, HO⟩, ⟨%fs, %hfs, HS⟩, Hk⟩
    obtain rfl := harg3.eq_unread hfk; obtain rfl := harg4.eq_unread hfr; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]; · iexists _; iexact HO
    iexists _; iexact HS

end Cert.Kernel.Hand

end
-- ==== Proof.K.R1Frame.lean ====
import proofs.«429692_j807453851732_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole)

section
variable (hcz : cond1_0 i) (hcl : ¬cond1_1 i) (xk : Vec F S1x1024x2048 .f32) (xr : Vec F S8192x128 .bf16)

def out1_A_2 : Vec F S1x1024x128 .f32 :=
  VO1_2.read (Elt F) (VO1_2.writes (Elt F) VO1_2.junk (kernelRun1_A c i arg3 harg3 arg4 harg4 arg5 harg5 arg6 harg6 hcz hcl xk xr).1)

theorem scover1_A_0 (y : S1024x128.Idx) : ∃ pc ∈ (kernelRun1_A c i arg3 harg3 arg4 harg4 arg5 harg5 arg6 harg6 hcz hcl xk xr).2.1, y ∈ pc.1.set :=
  View.cover_of_tiledL _ S1024x128.size (by sl_kernel_rfl) y

def sout1_A_0 : Vec F S1024x128 .f32 :=
  VS1_0.read (Elt F) (VS1_0.writes (Elt F) VS1_0.junk (kernelRun1_A c i arg3 harg3 arg4 harg4 arg5 harg5 arg6 harg6 hcz hcl xk xr).2.1)

end

section
variable (hcz : ¬cond1_0 i) (hcl : ¬cond1_1 i) (xk : Vec F S1x1024x2048 .f32) (xr : Vec F S8192x128 .bf16) (xs : Vec F S1024x128 .f32)

def out1_B_2 : Vec F S1x1024x128 .f32 :=
  VO1_2.read (Elt F) (VO1_2.writes (Elt F) VO1_2.junk (kernelRun1_B c i arg3 harg3 arg4 harg4 arg5 harg5 arg6 harg6 hcz hcl xk xr xs).1)

theorem scover1_B_0 (y : S1024x128.Idx) : ∃ pc ∈ (kernelRun1_B c i arg3 harg3 arg4 harg4 arg5 harg5 arg6 harg6 hcz hcl xk xr xs).2.1, y ∈ pc.1.set :=
  View.cover_of_tiledL _ S1024x128.size (by sl_kernel_rfl) y

def sout1_B_0 : Vec F S1024x128 .f32 :=
  VS1_0.read (Elt F) (VS1_0.writes (Elt F) VS1_0.junk (kernelRun1_B c i arg3 harg3 arg4 harg4 arg5 harg5 arg6 harg6 hcz hcl xk xr xs).2.1)

end

section
variable (hcz : ¬cond1_0 i) (hcl : cond1_1 i) (xk : Vec F S1x1024x2048 .f32) (xr : Vec F S8192x128 .bf16) (xs : Vec F S1024x128 .f32)

theorem cover1_C_2 (y : S1x1024x128.Idx) : ∃ pc ∈ (kernelRun1_C c i arg3 harg3 arg4 harg4 arg5 harg5 arg6 harg6 hcz hcl xk xr xs).1, y ∈ pc.1.set :=
  View.cover_of_tiledL _ S1x1024x128.size (by sl_kernel_rfl) y

def out1_C_2 : Vec F S1x1024x128 .f32 :=
  VO1_2.read (Elt F) (VO1_2.writes (Elt F) VO1_2.junk (kernelRun1_C c i arg3 harg3 arg4 harg4 arg5 harg5 arg6 harg6 hcz hcl xk xr xs).1)

theorem scover1_C_0 (y : S1024x128.Idx) : ∃ pc ∈ (kernelRun1_C c i arg3 harg3 arg4 harg4 arg5 harg5 arg6 harg6 hcz hcl xk xr xs).2.1, y ∈ pc.1.set :=
  View.cover_of_tiledL _ S1024x128.size (by sl_kernel_rfl) y

def sout1_C_0 : Vec F S1024x128 .f32 :=
  VS1_0.read (Elt F) (VS1_0.writes (Elt F) VS1_0.junk (kernelRun1_C c i arg3 harg3 arg4 harg4 arg5 harg5 arg6 harg6 hcz hcl xk xr xs).2.1)

end

end

section
variable (c : Dev nD) (t : Fin cfg1.N)

abbrev atA1 (hz : t.val % 4 = 0) (hl : ¬t.val % 4 = 3) : Vec F S1x1024x128 .f32 × Vec F S1024x128 .f32 :=
  (out1_A_2 c (grid1.coords t) (ms1_0 t) (hs1_0 t) (ms1_1 t) (hs1_1 t) (ms1_2 t) (hs1_2 t) scM1_0 (Memref.isWhole_whole _) ((hcond1_0 t).mpr hz) (fun h => hl ((hcond1_1 t).mp h)) (iblk1 V c 0 t) (iblk1 V c 1 t),
    sout1_A_0 c (grid1.coords t) (ms1_0 t) (hs1_0 t) (ms1_1 t) (hs1_1 t) (ms1_2 t) (hs1_2 t) scM1_0 (Memref.isWhole_whole _) ((hcond1_0 t).mpr hz) (fun h => hl ((hcond1_1 t).mp h)) (iblk1 V c 0 t) (iblk1 V c 1 t))

abbrev atB1 (hz : ¬t.val % 4 = 0) (hl : ¬t.val % 4 = 3) (xs : Vec F S1024x128 .f32) : Vec F S1x1024x128 .f32 × Vec F S1024x128 .f32 :=
  (out1_B_2 c (grid1.coords t) (ms1_0 t) (hs1_0 t) (ms1_1 t) (hs1_1 t) (ms1_2 t) (hs1_2 t) scM1_0 (Memref.isWhole_whole _) (fun h => hz ((hcond1_0 t).mp h)) (fun h => hl ((hcond1_1 t).mp h)) (iblk1 V c 0 t) (iblk1 V c 1 t) xs,
    sout1_B_0 c (grid1.coords t) (ms1_0 t) (hs1_0 t) (ms1_1 t) (hs1_1 t) (ms1_2 t) (hs1_2 t) scM1_0 (Memref.isWhole_whole _) (fun h => hz ((hcond1_0 t).mp h)) (fun h => hl ((hcond1_1 t).mp h)) (iblk1 V c 0 t) (iblk1 V c 1 t) xs)

abbrev atC1 (hz : ¬t.val % 4 = 0) (hl : t.val % 4 = 3) (xs : Vec F S1024x128 .f32) : Vec F S1x1024x128 .f32 × Vec F S1024x128 .f32 :=
  (out1_C_2 c (grid1.coords t) (ms1_0 t) (hs1_0 t) (ms1_1 t) (hs1_1 t) (ms1_2 t) (hs1_2 t) scM1_0 (Memref.isWhole_whole _) (fun h => hz ((hcond1_0 t).mp h)) ((hcond1_1 t).mpr hl) (iblk1 V c 0 t) (iblk1 V c 1 t) xs,
    sout1_C_0 c (grid1.coords t) (ms1_0 t) (hs1_0 t) (ms1_1 t) (hs1_1 t) (ms1_2 t) (hs1_2 t) scM1_0 (Memref.isWhole_whole _) (fun h => hz ((hcond1_0 t).mp h)) ((hcond1_1 t).mpr hl) (iblk1 V c 0 t) (iblk1 V c 1 t) xs)

end

-- (the output block's buffer, the accumulator) after position n: from k = 0 afresh, else added to what n - 1 left.
def outsAt1 (c : Dev nD) : (n : ℕ) → n < cfg1.N → Vec F S1x1024x128 .f32 × Vec F S1024x128 .f32
  | 0, hn => atA1 V c ⟨0, hn⟩ (Nat.zero_mod _) (by dsimp only; omega)
  | n + 1, hn =>
    if hz : (n + 1) % 4 = 0 then atA1 V c ⟨n + 1, hn⟩ hz (by dsimp only; omega)
    else if hl : (n + 1) % 4 = 3 then atC1 V c ⟨n + 1, hn⟩ hz hl (outsAt1 c n (Nat.lt_of_succ_lt hn)).2
    else atB1 V c ⟨n + 1, hn⟩ hz hl (outsAt1 c n (Nat.lt_of_succ_lt hn)).2

theorem outsAt1_A (c : Dev nD) (t : Fin cfg1.N) (hz : t.val % 4 = 0) (hl : ¬t.val % 4 = 3) :
    outsAt1 V c t.val t.isLt = atA1 V c t hz hl := by
  obtain ⟨n, hn⟩ := t
  cases n with
  | zero => exact rfl
  | succ n => exact (dif_pos hz).trans rfl

theorem outsAt1_B (c : Dev nD) (t : Fin cfg1.N) (hz : ¬t.val % 4 = 0) (hl : ¬t.val % 4 = 3) :
    outsAt1 V c t.val t.isLt = atB1 V c t hz hl (outsAt1 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_neg hl).trans rfl)

theorem outsAt1_C (c : Dev nD) (t : Fin cfg1.N) (hz : ¬t.val % 4 = 0) (hl : t.val % 4 = 3) :
    outsAt1 V c t.val t.isLt = atC1 V c t hz hl (outsAt1 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_pos hl).trans rfl)

-- Before position n the accumulator holds what position n - 1 left (anything before the first).
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_pos (c : Dev nD) (n : ℕ) (h : n ≤ cfg1.N) (h0 : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl h0
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]
theorem after1_out (c : Dev nD) (t : Fin cfg1.N) : (dat1 V c).after 2 t = (outsAt1 V c t.val t.isLt).1 := by dsimp only [dat1]

theorem after1_in_0 (c : Dev nD) (t : Fin cfg1.N) : (dat1 V c).after 0 t = iblk1 V c 0 t := by dsimp only [dat1]
theorem after1_in_1 (c : Dev nD) (t : Fin cfg1.N) : (dat1 V c).after 1 t = iblk1 V c 1 t := by dsimp only [dat1]

theorem before1_0 (c : Dev nD) (t : Fin cfg1.N) (d) : (dat1 V c).before 0 t d = iblk1 V c 0 t :=
  before1_0_of V (dat1 V c) (A_eq1 V c 0) (after1_in_0 V c) t d
theorem before1_1 (c : Dev nD) (t : Fin cfg1.N) (d) : (dat1 V c).before 1 t d = iblk1 V c 1 t :=
  before1_1_of V (dat1 V c) (A_eq1 V c 1) (after1_in_1 V c) t d

theorem idle1_2 : ∀ t : Fin cfg1.N, ¬t.val % 4 = 3 → cfg1.idle 2 (grid1.coords t) = true ∧ (cfg1.win 2).flush t = false := by decide +kernel
theorem live1 : ∀ t : Fin cfg1.N, cfg1.idle 0 (grid1.coords t) = false ∧ cfg1.idle 1 (grid1.coords t) = false ∧ (t.val % 4 = 3 → cfg1.idle 2 (grid1.coords t) = false) := by decide +kernel

-- What the accumulator holds may be forgotten at any position.
theorem forget1 (c : Dev nD) (t : Fin (cfg1.N + 1)) :
    (dat1 V c).Φ t ⊢ iprop(iprop(iprop(∃ d, owns (c : Thread nD τ) scM1_0 fullShare d) ∗ rest1 (F := F) c) ∗ (∃ r, prngReg c r)) := by
  obtain ⟨n, hn⟩ := t
  cases n with
  | zero => show (Pipeline.ΦA spec1 c : sProp 𝕄) ⊢ _; rw [PhiA1_eq]
  | succ n =>
    rw [show (dat1 V c).Φ ⟨n + 1, hn⟩ = PhiS1 V c (n + 1) (Nat.le_of_lt_succ hn) from rfl, PhiS1_pos V c _ _ (Nat.succ_ne_zero n)]
    iintro ⟨⟨HS, Hrest⟩, Hg⟩
    isplitl [HS Hrest]
    · isplitl [HS]
      · iexists _; iexact HS
      iexact Hrest
    iexact Hg

-- A run of the body from the accumulator at ACC whose accumulator pieces LS cover it, framed by everything it leaves alone.
theorem body_of_run1 (c : Dev nD) (t : Fin cfg1.N) {ACC W X R Q : sProp 𝕄} {α β γ : Type} {O O' : α → sProp 𝕄} {LS : List (View.Piece (Elt F) S1024x128 .f32)}
    (hcov : ∀ y, ∃ pc ∈ LS, y ∈ pc.1.set)
    (run : ∀ d (K : PUnit → sProp 𝕄), iprop(X ∗ R ∗ O d ∗ ACC ∗ (iprop(X ∗ R ∗ O' d ∗ (∃ f, scM1_0.view.loc (c : Thread nD τ) ↦[scM1_0.view.set]{fullShare} scM1_0.view.writes (Elt F) f LS)) -∗ K ⟨⟩))
      ⊢ wp frame (wpE (defs₀ (F := F)) Variants.none c none) Set.univ (bodyAt1 t) K)
    (hO : ∀ d, O' d ⊢ Q) :
    iprop(iprop(iprop(ACC ∗ rest1 (F := F) c) ∗ (∃ r, prngReg c r)) ∗ W ∗ (∃ d : β, X) ∗ (∃ d : γ, R) ∗ (∃ d, O d))
      ⊢ wp frame (wpE (defs₀ (F := F)) Variants.none c none) Set.univ (bodyAt1 t) (fun _ =>
          iprop(iprop(iprop(owns (c : Thread nD τ) scM1_0 fullShare (VS1_0.read (Elt F) (VS1_0.writes (Elt F) VS1_0.junk LS)) ∗ rest1 (F := F) c) ∗ (∃ r, prngReg c r)) ∗ W ∗ X ∗ R ∗ Q)) := by
  iintro ⟨⟨⟨HS, Hrest⟩, Hg⟩, Hw, ⟨%dk, HX⟩, ⟨%dr, HR⟩, ⟨%d, HO⟩⟩
  iapply run d
  isplitl [HX]; · iexact HX
  isplitl [HR]; · iexact HR
  isplitl [HO]; · iexact HO
  isplitl [HS]; · iexact HS
  iintro ⟨HX, HR, HO, ⟨%es, HS⟩⟩
  isplitl [HS Hrest Hg]
  · isplitl [HS Hrest]
    · isplitl [HS]
      · unfold owns; iexists _; isplitr
        swap; · iexact HS
        ipureintro; exact View.read_writes_of_cover _ _ _ _ _ hcov
      iexact Hrest
    iexact Hg
  isplitl [Hw]; · iexact Hw
  isplitl [HX]; · iexact HX
  isplitl [HR]; · iexact HR
  iapply hO d; iexact HO

set_option maxHeartbeats 4800000 in
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t)) := by
  simp only [before1_0, before1_1]
  rw [show (dat1 V c).owesAt () t.succ = (dat1 V c).owesAt () t.castSucc from rfl]
  rw [show (dat1 V c).Φ t.succ = iprop(iprop(owns (c : Thread nD τ) scM1_0 fullShare ((outsAt1 V c t.val t.isLt).2) ∗ rest1 (F := F) c) ∗ (∃ r, prngReg c r)) from rfl]
  rw [show (dat1 V c).leavesExact 0 t = owns (c : Thread nD τ) (ms1_0 t) fullShare ((dat1 V c).after 0 t) from by
    unfold Dat.leavesExact; rw [(live1 t).1]]
  rw [show (dat1 V c).leavesExact 1 t = owns (c : Thread nD τ) (ms1_1 t) fullShare ((dat1 V c).after 1 t) from by
    unfold Dat.leavesExact; rw [(live1 t).2.1]]
  rw [after1_in_0, after1_in_1]
  by_cases hl : t.val % 4 = 3
  · have hz : ¬t.val % 4 = 0 := by omega
    rw [show (dat1 V c).leavesExact 2 t = owns (c : Thread nD τ) (ms1_2 t) fullShare ((dat1 V c).after 2 t) from by
      unfold Dat.leavesExact; rw [(live1 t).2.2 hl], after1_out, outsAt1_C V c t hz hl]
    dsimp only
    unfold out1_C_2 sout1_C_0
    rw [show (dat1 V c).Φ t.castSucc = PhiS1 V c t.val (Nat.le_of_lt t.isLt) from rfl, PhiS1_pos V c _ _ (fun e => hz (by omega))]
    exact body_of_run1 c t (scover1_C_0 c _ _ _ _ _ _ _ _ _ _ _ _ _ _)
      (fun d K => (kernelRun1_C c (grid1.coords t) _ _ _ _ _ _ _ _ (fun h => hz ((hcond1_0 t).mp h)) ((hcond1_1 t).mpr hl) (iblk1 V c 0 t) (iblk1 V c 1 t) _).2.2 _ Set.univ K)
      (fun _ => by
        unfold owns
        iintro ⟨%f, H⟩
        iexists _; isplitr
        swap; · iexact H
        ipureintro; exact View.read_writes_of_cover _ _ _ _ _ (cover1_C_2 c _ _ _ _ _ _ _ _ _ _ _ _ _ _))
  · rw [Dat.leavesExact_idle (dat1 V c) 2 t (idle1_2 t hl).1 (idle1_2 t hl).2]
    by_cases hz : t.val % 4 = 0
    · rw [outsAt1_A V c t hz hl]
      dsimp only
      unfold sout1_A_0
      iintro ⟨HΦ, H⟩
      iapply body_of_run1 c t (scover1_A_0 c _ _ _ _ _ _ _ _ _ _ _ _ _)
        (fun d K => (kernelRun1_A c (grid1.coords t) _ _ _ _ _ _ _ _ ((hcond1_0 t).mpr hz) (fun h => hl ((hcond1_1 t).mp h)) (iblk1 V c 0 t) (iblk1 V c 1 t)).2.2 ((dat1 V c).before 2 t d) Set.univ K)
        (fun d => by iintro H; iexists d; iexact H)
      isplitl [HΦ]; · iapply forget1 V c t.castSucc; iexact HΦ
      iexact H
    · rw [outsAt1_B V c t hz hl]
      dsimp only
      unfold sout1_B_0
      rw [show (dat1 V c).Φ t.castSucc = PhiS1 V c t.val (Nat.le_of_lt t.isLt) from rfl, PhiS1_pos V c _ _ (fun e => hz (by omega))]
      exact body_of_run1 c t (scover1_B_0 c _ _ _ _ _ _ _ _ _ _ _ _ _ _)
        (fun d K => (kernelRun1_B c (grid1.coords t) _ _ _ _ _ _ _ _ (fun h => hz ((hcond1_0 t).mp h)) (fun h => hl ((hcond1_1 t).mp h)) (iblk1 V c 0 t) (iblk1 V c 1 t) _).2.2 _ Set.univ K)
        (fun d => by iintro H; iexists d; iexact H)

theorem body_obligation1 (c : Dev nD) :
    BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) := by
  rw [PhiA1_eq]; exact forget1 V c _

end Cert.Kernel.Hand

end
-- ==== Proof.K.R2Runs.lean ====
import proofs.«429692_j807453851732_2_alg».proof.Proof.Gen.Kernel.Launch
import proofs.«429692_j807453851732_2_alg».proof.Proof.Gen.Kernel.Skeleton
import proofs.«429692_j807453851732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

abbrev VO2_2 : View sig .tc .vmem S1x1024x256 .f32 := (Memref.whole cc2_stg2_0 : Memref sig .tc .vmem S1x1024x256 .f32).view
abbrev ms2_0 (t : Fin cfg2.N) : Memref sig .tc .vmem S1x1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x256 .f32 := win2_2.stage (cfg2.slots t 2)
abbrev hs2_2 (t : Fin cfg2.N) : (ms2_2 t).IsWhole := hstage2_2 ((cfg2.slots t 2).cast nbuf2_2)
abbrev scM2_0 : Memref sig .tc .vmem S1024x256 .f32 := Memref.whole cc2_scratch0
abbrev VS2_0 : View sig .tc .vmem S1024x256 .f32 := scM2_0.view

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

-- A run of the body: the pieces it leaves in the output block's buffer and in the accumulator, and its triple from the accumulator at ACC.
abbrev Run2 (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole)
    (xk : Vec F S1x1024x2048 .f32) (xr : Vec F S8192x256 .bf16) (ACC : sProp 𝕄) (OUT : Vec F S1x1024x256 .f32 → List (View.Piece (Elt F) S1x1024x256 .f32) → sProp 𝕄) :=
  Σ' (LO : List (View.Piece (Elt F) S1x1024x256 .f32)), { LS : List (View.Piece (Elt F) S1024x256 .f32) //
    ∀ (xo : Vec F S1x1024x256 .f32) (E : Set ℕ) (K : PUnit → sProp 𝕄),
      iprop(owns (c : Thread nD τ) arg3 fullShare xk ∗ owns (c : Thread nD τ) arg4 fullShare xr ∗ owns (c : Thread nD τ) arg5 fullShare xo ∗ ACC
          ∗ (iprop(owns (c : Thread nD τ) arg3 fullShare xk ∗ owns (c : Thread nD τ) arg4 fullShare xr ∗ OUT xo LO ∗ (∃ f, arg6.view.loc (c : Thread nD τ) ↦[arg6.view.set]{fullShare} arg6.view.writes (Elt F) f LS)) -∗ K ⟨⟩))
        ⊢ wp frame (wpE (defs₀ (F := F)) Variants.none c none) E (cc2__k_matmul_kernel i arg3 harg3 arg4 harg4 arg5 harg5 arg6 harg6) K }

end Cert.Kernel.Hand

end
-- ==== Proof.K.R2RunA.lean ====
import proofs.«429692_j807453851732_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole) (hcz : cond2_0 i) (hcl : ¬cond2_1 i)
    (xk : Vec F S1x1024x2048 .f32) (xr : Vec F S8192x256 .bf16) :
    Run2 c i arg3 harg3 arg4 harg4 arg5 harg5 arg6 harg6 xk xr iprop(∃ d, owns (c : Thread nD τ) arg6 fullShare d) fun xo _ => owns (c : Thread nD τ) arg5 fullShare xo := by
  refine ⟨[], ?_, fun xo E K => ?run⟩
  case run =>
    simp only [cc2__k_matmul_kernel_eq_skeleton]; unfold cc2__k_matmul_kernel_skel
    unfold owns
    iintro ⟨⟨%fk, %hfk, HX⟩, ⟨%fr, %hfr, HR⟩, ⟨%fo, %hfo, HO⟩, ⟨%ds, %fs, -, HS⟩, Hk⟩
    obtain rfl := harg3.eq_unread hfk; obtain rfl := harg4.eq_unread hfr; obtain rfl := harg5.eq_unread hfo
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.Kernel.Hand

end
-- ==== Proof.K.R2RunB.lean ====
import proofs.«429692_j807453851732_2_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole) (hcz : ¬cond2_0 i) (hcl : ¬cond2_1 i)
    (xk : Vec F S1x1024x2048 .f32) (xr : Vec F S8192x256 .bf16) (xs : Vec F S1024x256 .f32) :
    Run2 c i arg3 harg3 arg4 harg4 arg5 harg5 arg6 harg6 xk xr (owns (c : Thread nD τ) arg6 fullShare xs) fun xo _ => owns (c : Thread nD τ) arg5 fullShare xo := by
  refine ⟨[], ?_, fun xo E K => ?run⟩
  case run =>
    simp only [cc2__k_matmul_kernel_eq_skeleton]; unfold cc2__k_matmul_kernel_skel
    unfold owns
    iintro ⟨⟨%fk, %hfk, HX⟩, ⟨%fr, %hfr, HR⟩, ⟨%fo, %hfo, HO⟩, ⟨%fs, %hfs, HS⟩, Hk⟩
    obtain rfl := harg3.eq_unread hfk; obtain rfl := harg4.eq_unread hfr; obtain rfl := harg5.eq_unread hfo; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.Kernel.Hand

end
-- ==== Proof.K.R2RunC.lean ====
import proofs.«429692_j807453851732_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole) (hcz : ¬cond2_0 i) (hcl : cond2_1 i)
    (xk : Vec F S1x1024x2048 .f32) (xr : Vec F S8192x256 .bf16) (xs : Vec F S1024x256 .f32) :
    Run2 c i arg3 harg3 arg4 harg4 arg5 harg5 arg6 harg6 xk xr (owns (c : Thread nD τ) arg6 fullShare xs) fun _ LO => iprop(∃ f, arg5.view.loc (c : Thread nD τ) ↦[arg5.view.set]{fullShare} arg5.view.writes (Elt F) f LO) := by
  refine ⟨?_, ?_, fun xo E K => ?run⟩
  case run =>
    simp only [cc2__k_matmul_kernel_eq_skeleton]; unfold cc2__k_matmul_kernel_skel
    unfold owns
    iintro ⟨⟨%fk, %hfk, HX⟩, ⟨%fr, %hfr, HR⟩, ⟨%fo, -, HO⟩, ⟨%fs, %hfs, HS⟩, Hk⟩
    obtain rfl := harg3.eq_unread hfk; obtain rfl := harg4.eq_unread hfr; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]; · iexists _; iexact HO
    iexists _; iexact HS

end Cert.Kernel.Hand

end
-- ==== Proof.K.R2Frame.lean ====
import proofs.«429692_j807453851732_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole)

section
variable (hcz : cond2_0 i) (hcl : ¬cond2_1 i) (xk : Vec F S1x1024x2048 .f32) (xr : Vec F S8192x256 .bf16)

def out2_A_2 : Vec F S1x1024x256 .f32 :=
  VO2_2.read (Elt F) (VO2_2.writes (Elt F) VO2_2.junk (kernelRun2_A c i arg3 harg3 arg4 harg4 arg5 harg5 arg6 harg6 hcz hcl xk xr).1)

theorem scover2_A_0 (y : S1024x256.Idx) : ∃ pc ∈ (kernelRun2_A c i arg3 harg3 arg4 harg4 arg5 harg5 arg6 harg6 hcz hcl xk xr).2.1, y ∈ pc.1.set :=
  View.cover_of_tiledL _ S1024x256.size (by sl_kernel_rfl) y

def sout2_A_0 : Vec F S1024x256 .f32 :=
  VS2_0.read (Elt F) (VS2_0.writes (Elt F) VS2_0.junk (kernelRun2_A c i arg3 harg3 arg4 harg4 arg5 harg5 arg6 harg6 hcz hcl xk xr).2.1)

end

section
variable (hcz : ¬cond2_0 i) (hcl : ¬cond2_1 i) (xk : Vec F S1x1024x2048 .f32) (xr : Vec F S8192x256 .bf16) (xs : Vec F S1024x256 .f32)

def out2_B_2 : Vec F S1x1024x256 .f32 :=
  VO2_2.read (Elt F) (VO2_2.writes (Elt F) VO2_2.junk (kernelRun2_B c i arg3 harg3 arg4 harg4 arg5 harg5 arg6 harg6 hcz hcl xk xr xs).1)

theorem scover2_B_0 (y : S1024x256.Idx) : ∃ pc ∈ (kernelRun2_B c i arg3 harg3 arg4 harg4 arg5 harg5 arg6 harg6 hcz hcl xk xr xs).2.1, y ∈ pc.1.set :=
  View.cover_of_tiledL _ S1024x256.size (by sl_kernel_rfl) y

def sout2_B_0 : Vec F S1024x256 .f32 :=
  VS2_0.read (Elt F) (VS2_0.writes (Elt F) VS2_0.junk (kernelRun2_B c i arg3 harg3 arg4 harg4 arg5 harg5 arg6 harg6 hcz hcl xk xr xs).2.1)

end

section
variable (hcz : ¬cond2_0 i) (hcl : cond2_1 i) (xk : Vec F S1x1024x2048 .f32) (xr : Vec F S8192x256 .bf16) (xs : Vec F S1024x256 .f32)

theorem cover2_C_2 (y : S1x1024x256.Idx) : ∃ pc ∈ (kernelRun2_C c i arg3 harg3 arg4 harg4 arg5 harg5 arg6 harg6 hcz hcl xk xr xs).1, y ∈ pc.1.set :=
  View.cover_of_tiledL _ S1x1024x256.size (by sl_kernel_rfl) y

def out2_C_2 : Vec F S1x1024x256 .f32 :=
  VO2_2.read (Elt F) (VO2_2.writes (Elt F) VO2_2.junk (kernelRun2_C c i arg3 harg3 arg4 harg4 arg5 harg5 arg6 harg6 hcz hcl xk xr xs).1)

theorem scover2_C_0 (y : S1024x256.Idx) : ∃ pc ∈ (kernelRun2_C c i arg3 harg3 arg4 harg4 arg5 harg5 arg6 harg6 hcz hcl xk xr xs).2.1, y ∈ pc.1.set :=
  View.cover_of_tiledL _ S1024x256.size (by sl_kernel_rfl) y

def sout2_C_0 : Vec F S1024x256 .f32 :=
  VS2_0.read (Elt F) (VS2_0.writes (Elt F) VS2_0.junk (kernelRun2_C c i arg3 harg3 arg4 harg4 arg5 harg5 arg6 harg6 hcz hcl xk xr xs).2.1)

end

end

section
variable (c : Dev nD) (t : Fin cfg2.N)

abbrev atA2 (hz : t.val % 4 = 0) (hl : ¬t.val % 4 = 3) : Vec F S1x1024x256 .f32 × Vec F S1024x256 .f32 :=
  (out2_A_2 c (grid2.coords t) (ms2_0 t) (hs2_0 t) (ms2_1 t) (hs2_1 t) (ms2_2 t) (hs2_2 t) scM2_0 (Memref.isWhole_whole _) ((hcond2_0 t).mpr hz) (fun h => hl ((hcond2_1 t).mp h)) (iblk2 V c 0 t) (iblk2 V c 1 t),
    sout2_A_0 c (grid2.coords t) (ms2_0 t) (hs2_0 t) (ms2_1 t) (hs2_1 t) (ms2_2 t) (hs2_2 t) scM2_0 (Memref.isWhole_whole _) ((hcond2_0 t).mpr hz) (fun h => hl ((hcond2_1 t).mp h)) (iblk2 V c 0 t) (iblk2 V c 1 t))

abbrev atB2 (hz : ¬t.val % 4 = 0) (hl : ¬t.val % 4 = 3) (xs : Vec F S1024x256 .f32) : Vec F S1x1024x256 .f32 × Vec F S1024x256 .f32 :=
  (out2_B_2 c (grid2.coords t) (ms2_0 t) (hs2_0 t) (ms2_1 t) (hs2_1 t) (ms2_2 t) (hs2_2 t) scM2_0 (Memref.isWhole_whole _) (fun h => hz ((hcond2_0 t).mp h)) (fun h => hl ((hcond2_1 t).mp h)) (iblk2 V c 0 t) (iblk2 V c 1 t) xs,
    sout2_B_0 c (grid2.coords t) (ms2_0 t) (hs2_0 t) (ms2_1 t) (hs2_1 t) (ms2_2 t) (hs2_2 t) scM2_0 (Memref.isWhole_whole _) (fun h => hz ((hcond2_0 t).mp h)) (fun h => hl ((hcond2_1 t).mp h)) (iblk2 V c 0 t) (iblk2 V c 1 t) xs)

abbrev atC2 (hz : ¬t.val % 4 = 0) (hl : t.val % 4 = 3) (xs : Vec F S1024x256 .f32) : Vec F S1x1024x256 .f32 × Vec F S1024x256 .f32 :=
  (out2_C_2 c (grid2.coords t) (ms2_0 t) (hs2_0 t) (ms2_1 t) (hs2_1 t) (ms2_2 t) (hs2_2 t) scM2_0 (Memref.isWhole_whole _) (fun h => hz ((hcond2_0 t).mp h)) ((hcond2_1 t).mpr hl) (iblk2 V c 0 t) (iblk2 V c 1 t) xs,
    sout2_C_0 c (grid2.coords t) (ms2_0 t) (hs2_0 t) (ms2_1 t) (hs2_1 t) (ms2_2 t) (hs2_2 t) scM2_0 (Memref.isWhole_whole _) (fun h => hz ((hcond2_0 t).mp h)) ((hcond2_1 t).mpr hl) (iblk2 V c 0 t) (iblk2 V c 1 t) xs)

end

-- (the output block's buffer, the accumulator) after position n: from k = 0 afresh, else added to what n - 1 left.
def outsAt2 (c : Dev nD) : (n : ℕ) → n < cfg2.N → Vec F S1x1024x256 .f32 × Vec F S1024x256 .f32
  | 0, hn => atA2 V c ⟨0, hn⟩ (Nat.zero_mod _) (by dsimp only; omega)
  | n + 1, hn =>
    if hz : (n + 1) % 4 = 0 then atA2 V c ⟨n + 1, hn⟩ hz (by dsimp only; omega)
    else if hl : (n + 1) % 4 = 3 then atC2 V c ⟨n + 1, hn⟩ hz hl (outsAt2 c n (Nat.lt_of_succ_lt hn)).2
    else atB2 V c ⟨n + 1, hn⟩ hz hl (outsAt2 c n (Nat.lt_of_succ_lt hn)).2

theorem outsAt2_A (c : Dev nD) (t : Fin cfg2.N) (hz : t.val % 4 = 0) (hl : ¬t.val % 4 = 3) :
    outsAt2 V c t.val t.isLt = atA2 V c t hz hl := by
  obtain ⟨n, hn⟩ := t
  cases n with
  | zero => exact rfl
  | succ n => exact (dif_pos hz).trans rfl

theorem outsAt2_B (c : Dev nD) (t : Fin cfg2.N) (hz : ¬t.val % 4 = 0) (hl : ¬t.val % 4 = 3) :
    outsAt2 V c t.val t.isLt = atB2 V c t hz hl (outsAt2 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_neg hl).trans rfl)

theorem outsAt2_C (c : Dev nD) (t : Fin cfg2.N) (hz : ¬t.val % 4 = 0) (hl : t.val % 4 = 3) :
    outsAt2 V c t.val t.isLt = atC2 V c t hz hl (outsAt2 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_pos hl).trans rfl)

-- Before position n the accumulator holds what position n - 1 left (anything before the first).
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_pos (c : Dev nD) (n : ℕ) (h : n ≤ cfg2.N) (h0 : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl h0
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem recorded_eq2 (c : Dev nD) (t : Fin (cfg2.N + 1)) : (dat2 V c).recorded t = Set.univ := by
  dsimp only [dat2]
theorem after2_out (c : Dev nD) (t : Fin cfg2.N) : (dat2 V c).after 2 t = (outsAt2 V c t.val t.isLt).1 := by dsimp only [dat2]

theorem after2_in_0 (c : Dev nD) (t : Fin cfg2.N) : (dat2 V c).after 0 t = iblk2 V c 0 t := by dsimp only [dat2]
theorem after2_in_1 (c : Dev nD) (t : Fin cfg2.N) : (dat2 V c).after 1 t = iblk2 V c 1 t := by dsimp only [dat2]

theorem before2_0 (c : Dev nD) (t : Fin cfg2.N) (d) : (dat2 V c).before 0 t d = iblk2 V c 0 t :=
  before2_0_of V (dat2 V c) (A_eq2 V c 0) (after2_in_0 V c) t d
theorem before2_1 (c : Dev nD) (t : Fin cfg2.N) (d) : (dat2 V c).before 1 t d = iblk2 V c 1 t :=
  before2_1_of V (dat2 V c) (A_eq2 V c 1) (after2_in_1 V c) t d

theorem idle2_2 : ∀ t : Fin cfg2.N, ¬t.val % 4 = 3 → cfg2.idle 2 (grid2.coords t) = true ∧ (cfg2.win 2).flush t = false := by decide +kernel
theorem live2 : ∀ t : Fin cfg2.N, cfg2.idle 0 (grid2.coords t) = false ∧ cfg2.idle 1 (grid2.coords t) = false ∧ (t.val % 4 = 3 → cfg2.idle 2 (grid2.coords t) = false) := by decide +kernel

-- What the accumulator holds may be forgotten at any position.
theorem forget2 (c : Dev nD) (t : Fin (cfg2.N + 1)) :
    (dat2 V c).Φ t ⊢ iprop(iprop(iprop(∃ d, owns (c : Thread nD τ) scM2_0 fullShare d) ∗ rest2 (F := F) c) ∗ (∃ r, prngReg c r)) := by
  obtain ⟨n, hn⟩ := t
  cases n with
  | zero => show (Pipeline.ΦA spec2 c : sProp 𝕄) ⊢ _; rw [PhiA2_eq]
  | succ n =>
    rw [show (dat2 V c).Φ ⟨n + 1, hn⟩ = PhiS2 V c (n + 1) (Nat.le_of_lt_succ hn) from rfl, PhiS2_pos V c _ _ (Nat.succ_ne_zero n)]
    iintro ⟨⟨HS, Hrest⟩, Hg⟩
    isplitl [HS Hrest]
    · isplitl [HS]
      · iexists _; iexact HS
      iexact Hrest
    iexact Hg

-- A run of the body from the accumulator at ACC whose accumulator pieces LS cover it, framed by everything it leaves alone.
theorem body_of_run2 (c : Dev nD) (t : Fin cfg2.N) {ACC W X R Q : sProp 𝕄} {α β γ : Type} {O O' : α → sProp 𝕄} {LS : List (View.Piece (Elt F) S1024x256 .f32)}
    (hcov : ∀ y, ∃ pc ∈ LS, y ∈ pc.1.set)
    (run : ∀ d (K : PUnit → sProp 𝕄), iprop(X ∗ R ∗ O d ∗ ACC ∗ (iprop(X ∗ R ∗ O' d ∗ (∃ f, scM2_0.view.loc (c : Thread nD τ) ↦[scM2_0.view.set]{fullShare} scM2_0.view.writes (Elt F) f LS)) -∗ K ⟨⟩))
      ⊢ wp frame (wpE (defs₀ (F := F)) Variants.none c none) Set.univ (bodyAt2 t) K)
    (hO : ∀ d, O' d ⊢ Q) :
    iprop(iprop(iprop(ACC ∗ rest2 (F := F) c) ∗ (∃ r, prngReg c r)) ∗ W ∗ (∃ d : β, X) ∗ (∃ d : γ, R) ∗ (∃ d, O d))
      ⊢ wp frame (wpE (defs₀ (F := F)) Variants.none c none) Set.univ (bodyAt2 t) (fun _ =>
          iprop(iprop(iprop(owns (c : Thread nD τ) scM2_0 fullShare (VS2_0.read (Elt F) (VS2_0.writes (Elt F) VS2_0.junk LS)) ∗ rest2 (F := F) c) ∗ (∃ r, prngReg c r)) ∗ W ∗ X ∗ R ∗ Q)) := by
  iintro ⟨⟨⟨HS, Hrest⟩, Hg⟩, Hw, ⟨%dk, HX⟩, ⟨%dr, HR⟩, ⟨%d, HO⟩⟩
  iapply run d
  isplitl [HX]; · iexact HX
  isplitl [HR]; · iexact HR
  isplitl [HO]; · iexact HO
  isplitl [HS]; · iexact HS
  iintro ⟨HX, HR, HO, ⟨%es, HS⟩⟩
  isplitl [HS Hrest Hg]
  · isplitl [HS Hrest]
    · isplitl [HS]
      · unfold owns; iexists _; isplitr
        swap; · iexact HS
        ipureintro; exact View.read_writes_of_cover _ _ _ _ _ hcov
      iexact Hrest
    iexact Hg
  isplitl [Hw]; · iexact Hw
  isplitl [HX]; · iexact HX
  isplitl [HR]; · iexact HR
  iapply hO d; iexact HO

set_option maxHeartbeats 4800000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  simp only [before2_0, before2_1]
  rw [show (dat2 V c).owesAt () t.succ = (dat2 V c).owesAt () t.castSucc from rfl]
  rw [show (dat2 V c).Φ t.succ = iprop(iprop(owns (c : Thread nD τ) scM2_0 fullShare ((outsAt2 V c t.val t.isLt).2) ∗ rest2 (F := F) c) ∗ (∃ r, prngReg c r)) from rfl]
  rw [show (dat2 V c).leavesExact 0 t = owns (c : Thread nD τ) (ms2_0 t) fullShare ((dat2 V c).after 0 t) from by
    unfold Dat.leavesExact; rw [(live2 t).1]]
  rw [show (dat2 V c).leavesExact 1 t = owns (c : Thread nD τ) (ms2_1 t) fullShare ((dat2 V c).after 1 t) from by
    unfold Dat.leavesExact; rw [(live2 t).2.1]]
  rw [after2_in_0, after2_in_1]
  by_cases hl : t.val % 4 = 3
  · have hz : ¬t.val % 4 = 0 := by omega
    rw [show (dat2 V c).leavesExact 2 t = owns (c : Thread nD τ) (ms2_2 t) fullShare ((dat2 V c).after 2 t) from by
      unfold Dat.leavesExact; rw [(live2 t).2.2 hl], after2_out, outsAt2_C V c t hz hl]
    dsimp only
    unfold out2_C_2 sout2_C_0
    rw [show (dat2 V c).Φ t.castSucc = PhiS2 V c t.val (Nat.le_of_lt t.isLt) from rfl, PhiS2_pos V c _ _ (fun e => hz (by omega))]
    exact body_of_run2 c t (scover2_C_0 c _ _ _ _ _ _ _ _ _ _ _ _ _ _)
      (fun d K => (kernelRun2_C c (grid2.coords t) _ _ _ _ _ _ _ _ (fun h => hz ((hcond2_0 t).mp h)) ((hcond2_1 t).mpr hl) (iblk2 V c 0 t) (iblk2 V c 1 t) _).2.2 _ Set.univ K)
      (fun _ => by
        unfold owns
        iintro ⟨%f, H⟩
        iexists _; isplitr
        swap; · iexact H
        ipureintro; exact View.read_writes_of_cover _ _ _ _ _ (cover2_C_2 c _ _ _ _ _ _ _ _ _ _ _ _ _ _))
  · rw [Dat.leavesExact_idle (dat2 V c) 2 t (idle2_2 t hl).1 (idle2_2 t hl).2]
    by_cases hz : t.val % 4 = 0
    · rw [outsAt2_A V c t hz hl]
      dsimp only
      unfold sout2_A_0
      iintro ⟨HΦ, H⟩
      iapply body_of_run2 c t (scover2_A_0 c _ _ _ _ _ _ _ _ _ _ _ _ _)
        (fun d K => (kernelRun2_A c (grid2.coords t) _ _ _ _ _ _ _ _ ((hcond2_0 t).mpr hz) (fun h => hl ((hcond2_1 t).mp h)) (iblk2 V c 0 t) (iblk2 V c 1 t)).2.2 ((dat2 V c).before 2 t d) Set.univ K)
        (fun d => by iintro H; iexists d; iexact H)
      isplitl [HΦ]; · iapply forget2 V c t.castSucc; iexact HΦ
      iexact H
    · rw [outsAt2_B V c t hz hl]
      dsimp only
      unfold sout2_B_0
      rw [show (dat2 V c).Φ t.castSucc = PhiS2 V c t.val (Nat.le_of_lt t.isLt) from rfl, PhiS2_pos V c _ _ (fun e => hz (by omega))]
      exact body_of_run2 c t (scover2_B_0 c _ _ _ _ _ _ _ _ _ _ _ _ _ _)
        (fun d K => (kernelRun2_B c (grid2.coords t) _ _ _ _ _ _ _ _ (fun h => hz ((hcond2_0 t).mp h)) (fun h => hl ((hcond2_1 t).mp h)) (iblk2 V c 0 t) (iblk2 V c 1 t) _).2.2 _ Set.univ K)
        (fun d => by iintro H; iexists d; iexact H)

theorem body_obligation2 (c : Dev nD) :
    BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 :=
  Idealize.SL.BI.Entails.refl _

theorem hout2 (c : Dev nD) : (dat2 V c).Φ (Fin.last cfg2.N) ⊢ (Pipeline.ΦA spec2 c : sProp 𝕄) := by
  rw [PhiA2_eq]; exact forget2 V c _

end Cert.Kernel.Hand

end
-- ==== Proof.K.R3Frame.lean ====
import proofs.«429692_j807453851732_2_alg».proof.Proof.Gen.Kernel.Launch
import proofs.«429692_j807453851732_2_alg».proof.Proof.Gen.Kernel.Skeleton
import proofs.«429692_j807453851732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.TableIdle
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S1024x128 := Rect.unit (s := S1024x128) ![0, 0] S1024x128.size inb_S1024x128_S1024x128_0_0
abbrev r3_b : Rect S1024x256 := Rect.unit (s := S1024x256) ![0, 0] S1024x256.size inb_S1024x256_S1024x256_0_0
abbrev r3_w : Rect S128x128 := Rect.unit (s := S128x128) ![0, 0] S128x128.size inb_S128x128_S128x128_0_0
abbrev r3_u : Rect S256x128 := Rect.unit (s := S256x128) ![0, 0] S256x128.size inb_S256x128_S256x128_0_0
abbrev r3_r : Rect S1x128 := Rect.unit (s := S1x128) ![0, 0] S1x128.size inb_S1x128_S1x128_0_0

def out3_11 (x0 x1 x2 : Vec F S1024x128 .f32) (x3 x4 : Vec F S1024x256 .f32) (x5 x6 x7 : Vec F S128x128 .f32)
    (x8 x9 : Vec F S256x128 .f32) (x10 : Vec F S1x128 .f32) : Vec F S1024x128 .f32 :=
  View.canon [⟨r3_a, k3_pay1
    (k3_pay2 (View.ld x0 r3_a) (View.ld x5 r3_w) (View.ld x1 r3_a) (View.ld x6 r3_w) (View.ld x2 r3_a) (View.ld x7 r3_w)
      (View.ld x3 r3_b) (View.ld x8 r3_u))
    (k3_pay3 (View.ld x4 r3_b)) (View.ld x9 r3_u) (View.ld x10 r3_r)⟩]

theorem cover3_11 (p0 : Vec F S1024x128 .f32) (y : S1024x128.Idx) :
    ∃ pc ∈ ([⟨r3_a, p0⟩] : List (View.Piece (Elt F) S1024x128 .f32)), y ∈ pc.1.set :=
  View.cover_of_tiled [⟨r3_a, p0⟩] S1024x128.size (by rfl) y

-- Loads change nothing, and a store over the whole output leaves exactly its payload.
set_option maxHeartbeats 4000000 in
theorem sound_kernel3 {c : Dev nD} {E : Set ℕ} {i : grid3.Coords} {arg1 arg2 arg3 arg12 : Memref sig .tc .vmem S1024x128 .f32}
    {arg4 arg5 : Memref sig .tc .vmem S1024x256 .f32} {arg6 arg7 arg8 : Memref sig .tc .vmem S128x128 .f32}
    {arg9 arg10 : Memref sig .tc .vmem S256x128 .f32} {arg11 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    {x0 x1 x2 : Vec F S1024x128 .f32} {x3 x4 : Vec F S1024x256 .f32} {x5 x6 x7 : Vec F S128x128 .f32}
    {x8 x9 : Vec F S256x128 .f32} {x10 : Vec F S1x128 .f32} {K : PUnit → sProp 𝕄} :
    iprop(owns c.tc arg1 fullShare x0
        ∗ owns c.tc arg2 fullShare x1
        ∗ owns c.tc arg3 fullShare x2
        ∗ owns c.tc arg4 fullShare x3
        ∗ owns c.tc arg5 fullShare x4
        ∗ owns c.tc arg6 fullShare x5
        ∗ owns c.tc arg7 fullShare x6
        ∗ owns c.tc arg8 fullShare x7
        ∗ owns c.tc arg9 fullShare x8
        ∗ owns c.tc arg10 fullShare x9
        ∗ owns c.tc arg11 fullShare x10
        ∗ (∃ d, owns c.tc arg12 fullShare d)
        ∗ (iprop(owns c.tc arg1 fullShare x0
        ∗ owns c.tc arg2 fullShare x1
        ∗ owns c.tc arg3 fullShare x2
        ∗ owns c.tc arg4 fullShare x3
        ∗ owns c.tc arg5 fullShare x4
        ∗ owns c.tc arg6 fullShare x5
        ∗ owns c.tc arg7 fullShare x6
        ∗ owns c.tc arg8 fullShare x7
        ∗ owns c.tc arg9 fullShare x8
        ∗ owns c.tc arg10 fullShare x9
        ∗ owns c.tc arg11 fullShare x10
            ∗ owns c.tc arg12 fullShare (out3_11 x0 x1 x2 x3 x4 x5 x6 x7 x8 x9 x10)) -∗ K ⟨⟩))
      ⊢ wp frame (wpE (defs₀ (F := F)) Variants.none c none) E (cc3__encoder_kernel i arg1 harg1 arg2 harg2 arg3 harg3 arg4 harg4 arg5 harg5 arg6 harg6 arg7 harg7 arg8 harg8 arg9 harg9 arg10 harg10 arg11 harg11 arg12 harg12) K := by
  simp only [cc3__encoder_kernel_eq_skeleton]; unfold cc3__encoder_kernel_skel
  simp only [k3_part1_eq_skeleton]; unfold k3_part1_skel
  simp only [owns_eq_rep c.tc]
  iintro ⟨H0, H1, H2, H3, H4, H5, H6, H7, H8, H9, H10, ⟨%d11, H11⟩, Hk⟩
  sl_exec
  sl_step
  iapply Hk
  iframe H0 H1 H2 H3 H4 H5 H6 H7 H8 H9 H10
  iapply rep_of_owns
  unfold owns
  iexists _; isplitr
  swap; · iexact H11
  ipureintro
  rw [View.read_writes_eq_canon _ _ _ (cover3_11 _)]
  simp only [View.readAt_rep]
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem recorded_eq3 (c : Dev nD) (t : Fin (cfg3.N + 1)) : (dat3 V c).recorded t = Set.univ := by
  dsimp only [dat3]

theorem after3_11 (c : Dev nD) (t : Fin cfg3.N) :
    (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

-- The body only reads its inputs, so what it finds in an input window is what it leaves there.
theorem before3 (c : Dev nD) (t : Fin cfg3.N) (w : Fin cfg3.W) (hw : (cfg3.win w).isOut = false) (d) :
    (dat3 V c).before w t d = (dat3 V c).after w t := by
  match w, hw with
  | ⟨11, _⟩, h => exact Bool.noConfusion h
  | ⟨0, _⟩, h | ⟨1, _⟩, h | ⟨2, _⟩, h | ⟨3, _⟩, h | ⟨4, _⟩, h | ⟨5, _⟩, h | ⟨6, _⟩, h | ⟨7, _⟩, h | ⟨8, _⟩, h | ⟨9, _⟩, h | ⟨10, _⟩, h =>
    rw [(dat3 V c).before_in_eq_fetched _ h (fun _ => rfl) (fun _ _ _ => rfl) (fun _ => by dsimp only [dat3]; rfl) t d]
    dsimp only [dat3]; rfl

set_option maxHeartbeats 1000000 in
theorem body_obligation3 (c : Dev nD) :
    BodyObligation (dat3 (F := F) V c) (defs₀ (F := F)) Variants.none () Set.univ := fun t => by
  rw [bigSep_W3, bigSep_W3]
  change _ ⊢ wp _ _ _ (bodyAt3 t) _
  simp only [bodyAt3, before3 V c t]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply sound_kernel3
  iframe H0 H1 H2 H3 H4 H5 H6 H7 H8 H9 H10
  isplitl [H11]; · iexists _; iexact H11
  iintro ⟨H0, H1, H2, H3, H4, H5, H6, H7, H8, H9, H10, H11⟩
  iframe

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.Kernel.Hand

end
-- ==== Proof.K.Assembly.lean ====
import proofs.«429692_j807453851732_2_alg».proof.Proof.Gen.Kernel.Regions
import proofs.«429692_j807453851732_2_alg».proof.Proof.K.R0Frame
import proofs.«429692_j807453851732_2_alg».proof.Proof.K.R1Frame
import proofs.«429692_j807453851732_2_alg».proof.Proof.K.R2Frame
import proofs.«429692_j807453851732_2_alg».proof.Proof.K.R3Frame

set_option maxRecDepth 16384
set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 (c : Dev nD) (b : Ref sig .tc) : Buf (Elt F) ((c : Thread nD τ).loc b) := Gen.V1 m c b
def o2 (c : Dev nD) : Buf (Elt F) ((c : Thread nD τ).loc main_v2) := (dat0 (E0 m) c).arrAt 4 cfg0.N
def outsA : Gen.Outs (F := F) := fun _ r c => Function.update (Gen.V1 m c) main_v2 (o2 m c) r

abbrev E1 (c : Dev nD) (b : Ref sig .tc) : Buf (Elt F) ((c : Thread nD τ).loc b) := Gen.V3 m (outsA m) c b
def o4 (c : Dev nD) : Buf (Elt F) ((c : Thread nD τ).loc main_v11) := (dat1 (E1 m) c).arrAt 2 cfg1.N
def outsB : Gen.Outs (F := F) := fun J r c => match J with
  | 2 => outsA m 2 r c
  | _ => Function.update (Gen.V3 m (outsA m) c) main_v11 (o4 m c) r

abbrev E2 (c : Dev nD) (b : Ref sig .tc) : Buf (Elt F) ((c : Thread nD τ).loc b) := Gen.V5 m (outsB m) c b
def o6 (c : Dev nD) : Buf (Elt F) ((c : Thread nD τ).loc main_v20) := (dat2 (E2 m) c).arrAt 2 cfg2.N
def outsC : Gen.Outs (F := F) := fun J r c => match J with
  | 2 => outsA m 2 r c
  | 4 => outsB m 4 r c
  | _ => Function.update (Gen.V5 m (outsB m) c) main_v20 (o6 m c) r

abbrev E3 (c : Dev nD) (b : Ref sig .tc) : Buf (Elt F) ((c : Thread nD τ).loc b) := Gen.V19 m (outsC m) c b
def o20 (c : Dev nD) : Buf (Elt F) ((c : Thread nD τ).loc main_v41) := (dat3 (E3 m) c).arrAt 11 cfg3.N
def outs : Gen.Outs (F := F) := fun J r c => match J with
  | 2 => outsA m 2 r c
  | 4 => outsB m 4 r c
  | 6 => outsC m 6 r c
  | _ => Function.update (Gen.V19 m (outsC m) c) main_v41 (o20 m c) r

theorem outs_2 (c : Dev nD) : outs m 2 main_v2 c = o2 m c := by
  show Function.update (Gen.V1 m c) main_v2 (o2 m c) main_v2 = _; exact Function.update_self ..
theorem outs_4 (c : Dev nD) : outs m 4 main_v11 c = o4 m c := by
  show Function.update (Gen.V3 m (outsA m) c) main_v11 (o4 m c) main_v11 = _; exact Function.update_self ..
theorem outs_6 (c : Dev nD) : outs m 6 main_v20 c = o6 m c := by
  show Function.update (Gen.V5 m (outsB m) c) main_v20 (o6 m c) main_v20 = _; exact Function.update_self ..
theorem outs_20 (c : Dev nD) : outs m 20 main_v41 c = o20 m c := by
  show Function.update (Gen.V19 m (outsC m) c) main_v41 (o20 m c) main_v41 = _; exact Function.update_self ..

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

-- arrRef is injective, so updating Vi at window o's array changes the value at no other window's array.
theorem exit_vals {p : Fin 4} (hw : Pipeline.WinFacts (cfgs p).spec) {c : Dev nD}
    (dat : Dat τ (Elt F) Unit ℕ (UR sig nD τ) ℕ (cfgs p) c) {Vi Vo : Valuation τ sig (Elt F)}
    (hA : ∀ w, dat.A w = Vi (Pipeline.arrRef (cfgs p).spec w)) (o : Fin (cfgs p).W)
    (hio : ∀ w, w ≠ o → ((cfgs p).win w).isOut = false)
    (hVo : Vo = Function.update Vi (Pipeline.arrRef (cfgs p).spec o) (dat.arrAt o (cfgs p).N)) :
    (∀ w, dat.arrAt w (cfgs p).N = Vo (Pipeline.arrRef (cfgs p).spec w))
      ∧ ∀ b : Ref sig .tc, b ∉ Finset.univ.image (Pipeline.arrRef (cfgs p).spec) → Vo b = Vi b := by
  subst hVo
  refine ⟨fun w => ?_, fun b hb => Function.update_of_ne
    (fun h => hb (Finset.mem_image.mpr ⟨o, Finset.mem_univ _, (Proc.devRef_injective _ h).symm⟩)) _ _⟩
  by_cases h : w = o
  · subst h; exact Eq.symm (Function.update_self ..)
  · exact ((dat.arrAt_in w (hio w h) _).trans (hA w)).trans
      (Eq.symm (Function.update_of_ne (fun e => h (hw.arr_inj (Proc.devRef_injective _ e))) _ _))

def region {p : Fin 4} (lf : Pipeline.LaunchFacts (nD := nD) (τ := τ) cfgs p) (Vi Vo : Dev nD → Valuation τ sig (Elt F))
    (hb : ∀ c, BodyObligation (pdats m p c) (defs₀ (F := F)) 𝒱₀ () Set.univ)
    (hq : ∀ c w, (pdats m p c).q w = fullShare)
    (hA : ∀ c w, (pdats m p c).A w = Vi c (Pipeline.arrRef (cfgs p).spec w))
    (h0 : ∀ c t, (pdats m p c).owed t = 0)
    (hrec : ∀ c t, (pdats m p c).recorded t = Set.univ)
    (hΦi : ∀ c, (Pipeline.ΦA (cfgs p).spec c : sProp 𝕄) ⊢ (pdats m p c).Φ 0)
    (hΦo : ∀ c, (pdats m p c).Φ (Fin.last (cfgs p).N) ⊢ (Pipeline.ΦA (cfgs p).spec c : sProp 𝕄))
    (o : Fin (cfgs p).W) (hio : ∀ w, w ≠ o → ((cfgs p).win w).isOut = false)
    (hVo : ∀ c, Vo c = Function.update (Vi c) (Pipeline.arrRef (cfgs p).spec o) ((pdats m p c).arrAt o (cfgs p).N)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c 0, hrec c 0]
      icases HO with ⟨%W, HO⟩; iexists W; isplitr; · ipureintro; exact fun _ _ => Or.inl trivial
      iexact HO
    isplitl [Hp]; · iexact Hp
    iexact Hrest
  hin c := by
    refine .trans ?_ (hΦi c)
    unfold Pipeline.ΦA
    iintro ⟨Hp, -, Hr⟩
    isplitl [Hr] <;> iassumption
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hx := exit_vals lf.win (pdats m p c) (hA c) o hio (hVo c)
    have hjoin := Pipeline.unscopedBufs_of_arrays (p := p) (pcfgs (F := F)) adm
      lf.win lf.arr_whole c (pdats m) ((pdats m p c).share_full (hq c))
      (fun b => Vi c b) (fun b => Vo c b) ((pdats m p c).arrAt · (cfgs p).N) hx.1 hx.2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c (Fin.last _)]
    icases HO with ⟨%W, -, HO⟩; iexists W; iexact HO

def reg0 := region m launch0 (Gen.V1 m) (Gen.V2 m (outs m)) (body_obligation0 (E0 m)) (q_eq0 (E0 m)) (A_eq0 (E0 m))
  (owed_eq0 (E0 m)) (recorded_eq0 (E0 m)) (hin0 (E0 m)) (hout0 (E0 m)) 4 (by decide)
  fun c => congrArg (Function.update _ _) (outs_2 m c)
def reg1 := region m launch1 (Gen.V3 m (outs m)) (Gen.V4 m (outs m)) (body_obligation1 (E1 m)) (q_eq1 (E1 m)) (A_eq1 (E1 m))
  (owed_eq1 (E1 m)) (recorded_eq1 (E1 m)) (hin1 (E1 m)) (hout1 (E1 m)) 2 (by decide)
  fun c => congrArg (Function.update _ _) (outs_4 m c)
def reg2 := region m launch2 (Gen.V5 m (outs m)) (Gen.V6 m (outs m)) (body_obligation2 (E2 m)) (q_eq2 (E2 m)) (A_eq2 (E2 m))
  (owed_eq2 (E2 m)) (recorded_eq2 (E2 m)) (hin2 (E2 m)) (hout2 (E2 m)) 2 (by decide)
  fun c => congrArg (Function.update _ _) (outs_6 m c)
def reg3 := region m launch3 (Gen.V19 m (outs m)) (Gen.V20 m (outs m)) (body_obligation3 (E3 m)) (q_eq3 (E3 m)) (A_eq3 (E3 m))
  (owed_eq3 (E3 m)) (recorded_eq3 (E3 m)) (hin3 (E3 m)) (hout3 (E3 m)) 11 (by decide)
  fun c => congrArg (Function.update _ _) (outs_20 m c)

set_option maxHeartbeats 1600000 in
theorem run_value : θ_run defs (onTc (τ := τ) (main (F := F))) ⟨m, fun _ => 0, ρ⟩ (fun r => ∀ c : Dev nD,
      r.2.mem ((c.tc : Thread nD τ).loc main_v43) = Gen.V22 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (Gen.segs m (outs m) 𝒱₀ L lv (fun _ => R) () (pdats m) (reg0 m) (reg1 m) (reg2 m) (reg3 m))
    (fun c Q => by rw [main_chain c, Seg.run_eq_chain]; exact .rfl)
    (fun c => by simp only [Gen.segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl); iexact Hu
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V22 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, sep_assoc'⟩)
    (hinit := by
      refine Pipeline.initEach L lv fun c => ?_
      rw [Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (Gen.V22 m (outs m) c) s') $$ [Hh HSI]
  · isplitl [Hh] <;> iassumption
  icases Hr with ⟨%h, HSI⟩
  imodintro
  isplitr
  · ipureintro
    have g := fun (r : Ref sig .tc) (hr : ¬(Proc.devRef .tc r : DevRef τ sig).isScoped) =>
      h (Proc.devRef .tc r) (Finset.mem_filter.mpr ⟨StableHlo.devRef_mem_tcRefs r, hr⟩)
    exact ⟨g main_v43 (by decide), (g main_arg0 (by decide)).trans (Gen.V22_main_arg0 m (outs m) c),
      (g main_arg1 (by decide)).trans (Gen.V22_main_arg1 m (outs m) c), (g main_arg2 (by decide)).trans (Gen.V22_main_arg2 m (outs m) c),
      (g main_arg3 (by decide)).trans (Gen.V22_main_arg3 m (outs m) c), (g main_arg4 (by decide)).trans (Gen.V22_main_arg4 m (outs m) c),
      (g main_arg5 (by decide)).trans (Gen.V22_main_arg5 m (outs m) c), (g main_arg6 (by decide)).trans (Gen.V22_main_arg6 m (outs m) c)⟩
  · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.KI.R0Runs.lean ====
import proofs.«429692_j807453851732_2_alg».proof.Proof.Gen.KernelIdeal.Launch
import proofs.«429692_j807453851732_2_alg».proof.Proof.Gen.KernelIdeal.Skeleton
import proofs.«429692_j807453851732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := by decide +kernel

abbrev cond0_1 (i : grid0.Coords) : Prop := k0_cond2 i = 1#1
theorem hcond0_1 : ∀ t : Fin cfg0.N, cond0_1 (grid0.coords t) ↔ t.val % 4 = 3 := by decide +kernel

theorem liveAt0 : ∀ (w : Fin cfg0.W) (t : Fin cfg0.N), w ≠ 4 → cfg0.idle w (grid0.coords t) = false := by decide +kernel
theorem idleAt0_4 : ∀ t : Fin cfg0.N, ¬t.val % 4 = 3 → cfg0.idle 4 (grid0.coords t) = true := by decide +kernel
theorem noFlush0_4 : ∀ t : Fin cfg0.N, ¬t.val % 4 = 3 → (cfg0.win 4).flush t = false := by decide +kernel
theorem liveAt0_4 : ∀ t : Fin cfg0.N, t.val % 4 = 3 → cfg0.idle 4 (grid0.coords t) = false := by decide +kernel

abbrev VO0_4 : View sig .tc .vmem S1024x128 .f32 := (Memref.whole cc0_stg4_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev scM0_0 : Memref sig .tc .vmem S1024x128 .f32 := Memref.whole cc0_scratch0
abbrev VS0_0 : View sig .tc .vmem S1024x128 .f32 := scM0_0.view

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

abbrev Run0 (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (x0 : Vec F S1024x2048 .f32) (x1 : Vec F S8192x128 .bf16) (x2 : Vec F S1024x128 .f32) (x3 : Vec F S1x1 .f32)
    (P6 : Vec F S1024x128 .f32 → sProp 𝕄) (P7 : sProp 𝕄) (Q6 : Vec F S1024x128 .f32 → List (View.Piece (Elt F) S1024x128 .f32) → sProp 𝕄) : Type :=
  Σ' (L4 : List (View.Piece (Elt F) S1024x128 .f32)), { LS0 : List (View.Piece (Elt F) S1024x128 .f32) //
    ∀ (xi4 : Vec F S1024x128 .f32) (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ P6 xi4 ∗ P7
          ∗ (iprop(owns (c : Thread nD τ) arg2 fullShare x0 ∗ owns (c : Thread nD τ) arg3 fullShare x1 ∗ owns (c : Thread nD τ) arg4 fullShare x2 ∗ owns (c : Thread nD τ) arg5 fullShare x3 ∗ Q6 xi4 L4 ∗ (∃ f, arg7.view.loc (c : Thread nD τ) ↦[arg7.view.set]{fullShare} arg7.view.writes (Elt F) f LS0)) -∗ K ⟨⟩))
        ⊢ wp frame (wpE (defs₀ (F := F)) Variants.none c none) E (cc0__diffusion_kernel i arg2 harg2 arg3 harg3 arg4 harg4 arg5 harg5 arg6 harg6 arg7 harg7) K }

end Cert.KernelIdeal.Hand

end
-- ==== Proof.KI.R0RunA.lean ====
import proofs.«429692_j807453851732_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_A (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S8192x128 .bf16) (x2 : Vec F S1024x128 .f32) (x3 : Vec F S1x1 .f32) :
    Run0 c i arg2 harg2 arg3 harg3 arg4 harg4 arg5 harg5 arg6 harg6 arg7 harg7 x0 x1 x2 x3 (owns (c : Thread nD τ) arg6 fullShare) iprop(∃ d, owns (c : Thread nD τ) arg7 fullShare d) (fun xi4 _ => owns (c : Thread nD τ) arg6 fullShare xi4) := by
  refine ⟨[], ?_, fun xi4 E K => ?run⟩
  case run =>
    simp only [cc0__diffusion_kernel_eq_skeleton]; unfold cc0__diffusion_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunB.lean ====
import proofs.«429692_j807453851732_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_B (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S8192x128 .bf16) (x2 : Vec F S1024x128 .f32) (x3 : Vec F S1x1 .f32) (xs0 : Vec F S1024x128 .f32) :
    Run0 c i arg2 harg2 arg3 harg3 arg4 harg4 arg5 harg5 arg6 harg6 arg7 harg7 x0 x1 x2 x3 (owns (c : Thread nD τ) arg6 fullShare) (owns (c : Thread nD τ) arg7 fullShare xs0) (fun xi4 _ => owns (c : Thread nD τ) arg6 fullShare xi4) := by
  refine ⟨[], ?_, fun xi4 E K => ?run⟩
  case run =>
    simp only [cc0__diffusion_kernel_eq_skeleton]; unfold cc0__diffusion_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunC.lean ====
import proofs.«429692_j807453851732_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_C (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S8192x128 .bf16) (x2 : Vec F S1024x128 .f32) (x3 : Vec F S1x1 .f32) (xs0 : Vec F S1024x128 .f32) :
    Run0 c i arg2 harg2 arg3 harg3 arg4 harg4 arg5 harg5 arg6 harg6 arg7 harg7 x0 x1 x2 x3 (fun _ => iprop(∃ d, owns (c : Thread nD τ) arg6 fullShare d)) (owns (c : Thread nD τ) arg7 fullShare xs0) (fun _ L4 => iprop(∃ f, arg6.view.loc (c : Thread nD τ) ↦[arg6.view.set]{fullShare} arg6.view.writes (Elt F) f L4)) := by
  refine ⟨?_, ?_, fun _ E K => ?run⟩
  case run =>
    simp only [cc0__diffusion_kernel_eq_skeleton]; unfold cc0__diffusion_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R0Frame.lean ====
import proofs.«429692_j807453851732_2_alg».proof.Proof.Gen.KernelIdeal.Launch
import proofs.«429692_j807453851732_2_alg».proof.Proof.Gen.KernelIdeal.Skeleton
import proofs.«429692_j807453851732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429692_j807453851732_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole)

section
variable (hc0 : cond0_0 i) (hc1 : ¬cond0_1 i) (x0 : Vec F S1024x2048 .f32) (x1 : Vec F S8192x128 .bf16) (x2 : Vec F S1024x128 .f32) (x3 : Vec F S1x1 .f32)

def out0_A_4 : Vec F S1024x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

theorem scover0_A_0 (y : S1024x128.Idx) : ∃ pc ∈ (kernelRun0_A c i arg2 harg2 arg3 harg3 arg4 harg4 arg5 harg5 arg6 harg6 arg7 harg7 hc0 hc1 x0 x1 x2 x3).2.1, y ∈ pc.1.set :=
  View.cover_of_tiledL _ S1024x128.size (by sl_kernel_rfl) y

def sout0_A_0 : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

end

section
variable (hc0 : ¬cond0_0 i) (hc1 : ¬cond0_1 i) (x0 : Vec F S1024x2048 .f32) (x1 : Vec F S8192x128 .bf16) (x2 : Vec F S1024x128 .f32) (x3 : Vec F S1x1 .f32) (xs0 : Vec F S1024x128 .f32)

def out0_B_4 : Vec F S1024x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (y : S1024x128.Idx) : ∃ pc ∈ (kernelRun0_B c i arg2 harg2 arg3 harg3 arg4 harg4 arg5 harg5 arg6 harg6 arg7 harg7 hc0 hc1 x0 x1 x2 x3 xs0).2.1, y ∈ pc.1.set :=
  View.cover_of_tiledL _ S1024x128.size (by sl_kernel_rfl) y

def sout0_B_0 : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

end

section
variable (hc0 : ¬cond0_0 i) (hc1 : cond0_1 i) (x0 : Vec F S1024x2048 .f32) (x1 : Vec F S8192x128 .bf16) (x2 : Vec F S1024x128 .f32) (x3 : Vec F S1x1 .f32) (xs0 : Vec F S1024x128 .f32)

theorem cover0_C_4 (y : S1024x128.Idx) : ∃ pc ∈ (kernelRun0_C c i arg2 harg2 arg3 harg3 arg4 harg4 arg5 harg5 arg6 harg6 arg7 harg7 hc0 hc1 x0 x1 x2 x3 xs0).1, y ∈ pc.1.set :=
  View.cover_of_tiledL _ S1024x128.size (by sl_kernel_rfl) y

def out0_C_4 : Vec F S1024x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (y : S1024x128.Idx) : ∃ pc ∈ (kernelRun0_C c i arg2 harg2 arg3 harg3 arg4 harg4 arg5 harg5 arg6 harg6 arg7 harg7 hc0 hc1 x0 x1 x2 x3 xs0).2.1, y ∈ pc.1.set :=
  View.cover_of_tiledL _ S1024x128.size (by sl_kernel_rfl) y

def sout0_C_0 : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end

end

theorem ncond0_1 (t : Fin cfg0.N) (h0 : t.val % 4 = 0) : ¬cond0_1 (grid0.coords t) :=
  fun h => by have := (hcond0_1 t).1 h; omega

def step0 (c : Dev nD) (t : Fin cfg0.N) (p : Vec F S1024x128 .f32) : Vec F S1024x128 .f32 × Vec F S1024x128 .f32 :=
  if h0 : t.val % 4 = 0 then
    (out0_A_4 c _ _ (hs0_0 t) _ (hs0_1 t) _ (hs0_2 t) _ (hs0_3 t) _ (hs0_4 t) scM0_0 (Memref.isWhole_whole _) ((hcond0_0 t).2 h0) (ncond0_1 t h0) (iblk0 V c 0 t) (iblk0 V c 1 t) (iblk0 V c 2 t) (iblk0 V c 3 t), sout0_A_0 c _ _ (hs0_0 t) _ (hs0_1 t) _ (hs0_2 t) _ (hs0_3 t) _ (hs0_4 t) scM0_0 (Memref.isWhole_whole _) ((hcond0_0 t).2 h0) (ncond0_1 t h0) (iblk0 V c 0 t) (iblk0 V c 1 t) (iblk0 V c 2 t) (iblk0 V c 3 t))
  else if h1 : t.val % 4 = 3 then
    (out0_C_4 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) p, sout0_C_0 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) p)
  else
    (out0_B_4 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) p, sout0_B_0 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) p)

def outsAt0 (c : Dev nD) : (n : ℕ) → n < cfg0.N → Vec F S1024x128 .f32 × Vec F S1024x128 .f32
  | 0, hn => step0 V c ⟨0, hn⟩ (VS0_0.read (Elt F) VS0_0.junk)
  | n + 1, hn => step0 V c ⟨n + 1, hn⟩ (outsAt0 c n (Nat.lt_of_succ_lt hn)).2

theorem outsAt0_A (c : Dev nD) (t : Fin cfg0.N) (h0 : t.val % 4 = 0) (h1 : ¬t.val % 4 = 3) :
    outsAt0 V c t.val t.isLt = (out0_A_4 c _ _ (hs0_0 t) _ (hs0_1 t) _ (hs0_2 t) _ (hs0_3 t) _ (hs0_4 t) scM0_0 (Memref.isWhole_whole _) ((hcond0_0 t).2 h0) (mt (hcond0_1 t).1 h1) (iblk0 V c 0 t) (iblk0 V c 1 t) (iblk0 V c 2 t) (iblk0 V c 3 t), sout0_A_0 c _ _ (hs0_0 t) _ (hs0_1 t) _ (hs0_2 t) _ (hs0_3 t) _ (hs0_4 t) scM0_0 (Memref.isWhole_whole _) ((hcond0_0 t).2 h0) (mt (hcond0_1 t).1 h1) (iblk0 V c 0 t) (iblk0 V c 1 t) (iblk0 V c 2 t) (iblk0 V c 3 t)) := by
  obtain ⟨_ | n, hn⟩ := t <;> (show step0 V c _ _ = _; unfold step0; exact dif_pos h0)

theorem outsAt0_B (c : Dev nD) (t : Fin cfg0.N) (h0 : ¬t.val % 4 = 0) (h1 : ¬t.val % 4 = 3) :
    outsAt0 V c t.val t.isLt = (out0_B_4 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) (outsAt0 V c (t.val - 1) ((t.1.sub_le 1).trans_lt t.2)).2, sout0_B_0 c _ _ (hs0_0 t) _ (hs0_1 t) _ (hs0_2 t) _ (hs0_3 t) _ (hs0_4 t) scM0_0 (Memref.isWhole_whole _) (mt (hcond0_0 t).1 h0) (mt (hcond0_1 t).1 h1) (iblk0 V c 0 t) (iblk0 V c 1 t) (iblk0 V c 2 t) (iblk0 V c 3 t) (outsAt0 V c (t.val - 1) ((t.1.sub_le 1).trans_lt t.2)).2) := by
  obtain ⟨_ | n, hn⟩ := t
  · exact absurd (Nat.zero_mod _) h0
  · show step0 V c _ _ = _; unfold step0; exact (dif_neg h0).trans (dif_neg h1)

theorem outsAt0_C (c : Dev nD) (t : Fin cfg0.N) (h0 : ¬t.val % 4 = 0) (h1 : t.val % 4 = 3) :
    outsAt0 V c t.val t.isLt = (out0_C_4 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) (outsAt0 V c (t.val - 1) ((t.1.sub_le 1).trans_lt t.2)).2, sout0_C_0 c _ _ (hs0_0 t) _ (hs0_1 t) _ (hs0_2 t) _ (hs0_3 t) _ (hs0_4 t) scM0_0 (Memref.isWhole_whole _) (mt (hcond0_0 t).1 h0) ((hcond0_1 t).2 h1) (iblk0 V c 0 t) (iblk0 V c 1 t) (iblk0 V c 2 t) (iblk0 V c 3 t) (outsAt0 V c (t.val - 1) ((t.1.sub_le 1).trans_lt t.2)).2) := by
  obtain ⟨_ | n, hn⟩ := t
  · exact absurd (Nat.zero_mod _) h0
  · show step0 V c _ _ = _; unfold step0; exact (dif_neg h0).trans (dif_pos h1)

def PhiAcc (c : Dev nD) (x : Vec F S1024x128 .f32) : sProp 𝕄 :=
  iprop(iprop(iprop(owns (c : Thread nD τ) scM0_0 fullShare x) ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => PhiAcc c (outsAt0 V c n hn).2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_out (c : Dev nD) (t : Fin cfg0.N) : (dat0 V c).after 4 t = (outsAt0 V c t.val t.isLt).1 := rfl

theorem Phi_pos (c : Dev nD) (t : Fin cfg0.N) (hz : ¬t.val % 4 = 0) :
    (dat0 V c).Φ t.castSucc = PhiAcc c (outsAt0 V c (t.val - 1) ((t.1.sub_le 1).trans_lt t.2)).2 := by
  obtain ⟨_ | n, h⟩ := t
  · exact absurd (Nat.zero_mod _) hz
  · rfl

theorem Phi_succ (c : Dev nD) (t : Fin cfg0.N) : (dat0 V c).Φ t.succ = PhiAcc c (outsAt0 V c t.val t.isLt).2 := rfl

theorem PhiAcc_out (c : Dev nD) (x : Vec F S1024x128 .f32) : PhiAcc c x ⊢ (Pipeline.ΦA spec0 c : sProp 𝕄) := by
  rw [PhiA0_eq]; unfold PhiAcc
  iintro ⟨⟨HS, Hr⟩, Hg⟩
  isplitl [HS Hr]
  · isplitl [HS]; · iexists _; iexact HS
    iexact Hr
  iexact Hg

theorem Phi_out0 (c : Dev nD) (t : Fin (cfg0.N + 1)) : (dat0 V c).Φ t ⊢ (Pipeline.ΦA spec0 c : sProp 𝕄) := by
  obtain ⟨_ | n, h⟩ := t
  · exact .rfl
  · exact PhiAcc_out c _

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := Phi_out0 V c _

theorem before0 (c : Dev nD) (w : Fin cfg0.W) (hw : w ≠ 4) (t : Fin cfg0.N) (d) : (dat0 V c).before w t d = (dat0 V c).after w t := by
  obtain ⟨_ | _ | _ | _ | _ | _, h⟩ := w <;> first
    | exact absurd rfl hw
    | exact absurd h (Nat.not_lt.2 (Nat.le_add_left _ _))
    | exact ((dat0 V c).before_in_eq_fetched _ rfl (fun _ => rfl) (fun _ _ _ => rfl) (fun _ => rfl) t d).trans rfl

theorem leaves_live (c : Dev nD) (w : Fin cfg0.W) (t : Fin cfg0.N) (hl : cfg0.idle w (grid0.coords t) = false) :
    (dat0 V c).leavesExact w t = owns (c : Thread nD τ) ((cfg0.win w).stage (cfg0.slots t w)) fullShare ((dat0 V c).after w t) := by
  unfold Dat.leavesExact; rw [hl]

-- Pieces that cover a block determine what is read back, whatever was there before.
theorem owns_of_cover {c : Dev nD} {sp : Space} {s : Shape} {e : EltTy} {m : Memref sig .tc sp s e} {κ' : Kind} {sp' : Space} {v' : View sig κ' sp' s e}
    {L : List (View.Piece (Elt F) s e)} (h : ∀ y, ∃ p ∈ L, y ∈ p.1.set) :
    iprop(∃ f, m.view.loc (c : Thread nD τ) ↦[m.view.set]{fullShare} m.view.writes (Elt F) f L)
      ⊢ (owns (c : Thread nD τ) m fullShare (v'.read (Elt F) (v'.writes (Elt F) v'.junk L)) : sProp 𝕄) := by
  unfold owns; iintro ⟨%f, H⟩; iexists m.view.writes (Elt F) f L; isplitr
  · ipureintro; exact View.read_writes_of_cover _ _ _ _ _ h
  iexact H

-- A run of the body, framed by what it does not touch.
theorem frame0 {c : Dev nD} {D0 D1 D2 D3 D4 : Type} {A7 R G O I0 I1 I2 I3 P7 Q7 S' L' : sProp 𝕄} {B P6 Q6 : D4 → sProp 𝕄}
    {e : Prog (TpuEff nD τ sig (Elt F) Λ₀ .tc) PUnit}
    (run : ∀ d (E : Set ℕ) (K : PUnit → sProp 𝕄), iprop(I0 ∗ I1 ∗ I2 ∗ I3 ∗ P6 d ∗ P7 ∗ (iprop(I0 ∗ I1 ∗ I2 ∗ I3 ∗ Q6 d ∗ Q7) -∗ K ⟨⟩)) ⊢ wp frame (wpE (defs₀ (F := F)) Variants.none c none) E e K)
    (h6 : ∀ d, B d ⊢ P6 d) (h7 : A7 ⊢ P7) (k6 : ∀ d, Q6 d ⊢ L') (k7 : Q7 ⊢ S') :
    iprop(((A7 ∗ R) ∗ G) ∗ O ∗ (∃ d : D0, I0) ∗ (∃ d : D1, I1) ∗ (∃ d : D2, I2) ∗ (∃ d : D3, I3) ∗ (∃ d, B d))
      ⊢ wp frame (wpE (defs₀ (F := F)) Variants.none c none) Set.univ e (fun _ => iprop(((S' ∗ R) ∗ G) ∗ O ∗ I0 ∗ I1 ∗ I2 ∗ I3 ∗ L')) := by
  iintro ⟨⟨⟨HS, Hr⟩, Hg⟩, Ho, ⟨%d0, H0⟩, ⟨%d1, H1⟩, ⟨%d2, H2⟩, ⟨%d3, H3⟩, ⟨%d4, H4⟩⟩
  iapply (run d4 Set.univ _)
  isplitl [H0]; · iexact H0
  isplitl [H1]; · iexact H1
  isplitl [H2]; · iexact H2
  isplitl [H3]; · iexact H3
  isplitl [H4]; · iapply (h6 d4); iexact H4
  isplitl [HS]; · iapply h7; iexact HS
  iintro ⟨H0, H1, H2, H3, H4, HS⟩
  isplitl [HS Hr Hg]
  · isplitl [HS Hr]
    · isplitl [HS]; · iapply k7; iexact HS
      iexact Hr
    iexact Hg
  isplitl [Ho]; · iexact Ho
  isplitl [H0]; · iexact H0
  isplitl [H1]; · iexact H1
  isplitl [H2]; · iexact H2
  isplitl [H3]; · iexact H3
  iapply (k6 d4); iexact H4

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c 0 (by decide), before0 V c 1 (by decide), before0 V c 2 (by decide), before0 V c 3 (by decide)]
  rw [Phi_succ, leaves_live V c 0 t (liveAt0 _ _ (by decide)), leaves_live V c 1 t (liveAt0 _ _ (by decide)), leaves_live V c 2 t (liveAt0 _ _ (by decide)), leaves_live V c 3 t (liveAt0 _ _ (by decide))]
  by_cases h0 : t.val % 4 = 0
  · have h1 : ¬t.val % 4 = 3 := by omega
    refine (sep_mono_l (Phi_out0 V c t.castSucc)).trans ?_
    rw [PhiA0_eq, Dat.leavesExact_idle (dat0 V c) 4 t (idleAt0_4 t h1) (noFlush0_4 t h1), outsAt0_A V c t h0 h1]
    unfold PhiAcc sout0_A_0; dsimp only
    exact frame0 (fun d => (kernelRun0_A _ _ _ _ _ _ _ _ _ _ _ _ _ _ _ _ _ _ _ _).2.2 _) (fun _ => .rfl) .rfl exists_intro
      (owns_of_cover (scover0_A_0 c _ _ _ _ _ _ _ _ _ _ _ _ _ _ _ _ _ _ _))
  · rw [Phi_pos V c t h0]
    by_cases h1 : t.val % 4 = 3
    · rw [leaves_live V c 4 t (liveAt0_4 t h1), after0_out, outsAt0_C V c t h0 h1]
      unfold PhiAcc out0_C_4 sout0_C_0; dsimp only
      exact frame0 (fun d => (kernelRun0_C _ _ _ _ _ _ _ _ _ _ _ _ _ _ _ _ _ _ _ _ _).2.2 d) (fun _ => exists_intro _) .rfl
        (fun _ => owns_of_cover (cover0_C_4 c _ _ _ _ _ _ _ _ _ _ _ _ _ _ _ _ _ _ _ _))
        (owns_of_cover (scover0_C_0 c _ _ _ _ _ _ _ _ _ _ _ _ _ _ _ _ _ _ _ _))
    · rw [Dat.leavesExact_idle (dat0 V c) 4 t (idleAt0_4 t h1) (noFlush0_4 t h1), outsAt0_B V c t h0 h1]
      unfold PhiAcc sout0_B_0; dsimp only
      exact frame0 (fun d => (kernelRun0_B _ _ _ _ _ _ _ _ _ _ _ _ _ _ _ _ _ _ _ _ _).2.2 _) (fun _ => .rfl) .rfl exists_intro
        (owns_of_cover (scover0_B_0 c _ _ _ _ _ _ _ _ _ _ _ _ _ _ _ _ _ _ _ _))

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«429692_j807453851732_2_alg».proof.Proof.Gen.KernelIdeal.Launch
import proofs.«429692_j807453851732_2_alg».proof.Proof.Gen.KernelIdeal.Skeleton
import proofs.«429692_j807453851732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

abbrev VO1_2 : View sig .tc .vmem S1x1024x128 .f32 := (Memref.whole cc1_stg2_0 : Memref sig .tc .vmem S1x1024x128 .f32).view
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)
abbrev scM1_0 : Memref sig .tc .vmem S1024x128 .f32 := Memref.whole cc1_scratch0
abbrev VS1_0 : View sig .tc .vmem S1024x128 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

-- A run of the body: the pieces it leaves in the output block's buffer and in the accumulator, and its triple from the accumulator at ACC.
abbrev Run1 (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole)
    (xk : Vec F S1x1024x2048 .f32) (xr : Vec F S8192x128 .bf16) (ACC : sProp 𝕄) (OUT : Vec F S1x1024x128 .f32 → List (View.Piece (Elt F) S1x1024x128 .f32) → sProp 𝕄) :=
  Σ' (LO : List (View.Piece (Elt F) S1x1024x128 .f32)), { LS : List (View.Piece (Elt F) S1024x128 .f32) //
    ∀ (xo : Vec F S1x1024x128 .f32) (E : Set ℕ) (K : PUnit → sProp 𝕄),
      iprop(owns (c : Thread nD τ) arg3 fullShare xk ∗ owns (c : Thread nD τ) arg4 fullShare xr ∗ owns (c : Thread nD τ) arg5 fullShare xo ∗ ACC
          ∗ (iprop(owns (c : Thread nD τ) arg3 fullShare xk ∗ owns (c : Thread nD τ) arg4 fullShare xr ∗ OUT xo LO ∗ (∃ f, arg6.view.loc (c : Thread nD τ) ↦[arg6.view.set]{fullShare} arg6.view.writes (Elt F) f LS)) -∗ K ⟨⟩))
        ⊢ wp frame (wpE (defs₀ (F := F)) Variants.none c none) E (cc1__k_matmul_kernel i arg3 harg3 arg4 harg4 arg5 harg5 arg6 harg6) K }

end Cert.KernelIdeal.Hand

end
-- ==== Proof.KI.R1RunA.lean ====
import proofs.«429692_j807453851732_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole) (hcz : cond1_0 i) (hcl : ¬cond1_1 i)
    (xk : Vec F S1x1024x2048 .f32) (xr : Vec F S8192x128 .bf16) :
    Run1 c i arg3 harg3 arg4 harg4 arg5 harg5 arg6 harg6 xk xr iprop(∃ d, owns (c : Thread nD τ) arg6 fullShare d) fun xo _ => owns (c : Thread nD τ) arg5 fullShare xo := by
  refine ⟨[], ?_, fun xo E K => ?run⟩
  case run =>
    simp only [cc1__k_matmul_kernel_eq_skeleton]; unfold cc1__k_matmul_kernel_skel
    unfold owns
    iintro ⟨⟨%fk, %hfk, HX⟩, ⟨%fr, %hfr, HR⟩, ⟨%fo, %hfo, HO⟩, ⟨%ds, %fs, -, HS⟩, Hk⟩
    obtain rfl := harg3.eq_unread hfk; obtain rfl := harg4.eq_unread hfr; obtain rfl := harg5.eq_unread hfo
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.KernelIdeal.Hand

end
-- ==== Proof.KI.R1RunB.lean ====
import proofs.«429692_j807453851732_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole) (hcz : ¬cond1_0 i) (hcl : ¬cond1_1 i)
    (xk : Vec F S1x1024x2048 .f32) (xr : Vec F S8192x128 .bf16) (xs : Vec F S1024x128 .f32) :
    Run1 c i arg3 harg3 arg4 harg4 arg5 harg5 arg6 harg6 xk xr (owns (c : Thread nD τ) arg6 fullShare xs) fun xo _ => owns (c : Thread nD τ) arg5 fullShare xo := by
  refine ⟨[], ?_, fun xo E K => ?run⟩
  case run =>
    simp only [cc1__k_matmul_kernel_eq_skeleton]; unfold cc1__k_matmul_kernel_skel
    unfold owns
    iintro ⟨⟨%fk, %hfk, HX⟩, ⟨%fr, %hfr, HR⟩, ⟨%fo, %hfo, HO⟩, ⟨%fs, %hfs, HS⟩, Hk⟩
    obtain rfl := harg3.eq_unread hfk; obtain rfl := harg4.eq_unread hfr; obtain rfl := harg5.eq_unread hfo; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.KernelIdeal.Hand

end
-- ==== Proof.KI.R1RunC.lean ====
import proofs.«429692_j807453851732_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole) (hcz : ¬cond1_0 i) (hcl : cond1_1 i)
    (xk : Vec F S1x1024x2048 .f32) (xr : Vec F S8192x128 .bf16) (xs : Vec F S1024x128 .f32) :
    Run1 c i arg3 harg3 arg4 harg4 arg5 harg5 arg6 harg6 xk xr (owns (c : Thread nD τ) arg6 fullShare xs) fun _ LO => iprop(∃ f, arg5.view.loc (c : Thread nD τ) ↦[arg5.view.set]{fullShare} arg5.view.writes (Elt F) f LO) := by
  refine ⟨?_, ?_, fun xo E K => ?run⟩
  case run =>
    simp only [cc1__k_matmul_kernel_eq_skeleton]; unfold cc1__k_matmul_kernel_skel
    unfold owns
    iintro ⟨⟨%fk, %hfk, HX⟩, ⟨%fr, %hfr, HR⟩, ⟨%fo, -, HO⟩, ⟨%fs, %hfs, HS⟩, Hk⟩
    obtain rfl := harg3.eq_unread hfk; obtain rfl := harg4.eq_unread hfr; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]; · iexists _; iexact HO
    iexists _; iexact HS

end Cert.KernelIdeal.Hand

end
-- ==== Proof.KI.R1Frame.lean ====
import proofs.«429692_j807453851732_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg3 : Memref sig .tc .vmem S1x1024x2048 .f32) (harg3 : arg3.IsWhole) (arg4 : Memref sig .tc .vmem S8192x128 .bf16) (harg4 : arg4.IsWhole) (arg5 : Memref sig .tc .vmem S1x1024x128 .f32) (harg5 : arg5.IsWhole) (arg6 : Memref sig .tc .vmem S1024x128 .f32) (harg6 : arg6.IsWhole)

section
variable (hcz : cond1_0 i) (hcl : ¬cond1_1 i) (xk : Vec F S1x1024x2048 .f32) (xr : Vec F S8192x128 .bf16)

def out1_A_2 : Vec F S1x1024x128 .f32 :=
  VO1_2.read (Elt F) (VO1_2.writes (Elt F) VO1_2.junk (kernelRun1_A c i arg3 harg3 arg4 harg4 arg5 harg5 arg6 harg6 hcz hcl xk xr).1)

theorem scover1_A_0 (y : S1024x128.Idx) : ∃ pc ∈ (kernelRun1_A c i arg3 harg3 arg4 harg4 arg5 harg5 arg6 harg6 hcz hcl xk xr).2.1, y ∈ pc.1.set :=
  View.cover_of_tiledL _ S1024x128.size (by sl_kernel_rfl) y

def sout1_A_0 : Vec F S1024x128 .f32 :=
  VS1_0.read (Elt F) (VS1_0.writes (Elt F) VS1_0.junk (kernelRun1_A c i arg3 harg3 arg4 harg4 arg5 harg5 arg6 harg6 hcz hcl xk xr).2.1)

end

section
variable (hcz : ¬cond1_0 i) (hcl : ¬cond1_1 i) (xk : Vec F S1x1024x2048 .f32) (xr : Vec F S8192x128 .bf16) (xs : Vec F S1024x128 .f32)

def out1_B_2 : Vec F S1x1024x128 .f32 :=
  VO1_2.read (Elt F) (VO1_2.writes (Elt F) VO1_2.junk (kernelRun1_B c i arg3 harg3 arg4 harg4 arg5 harg5 arg6 harg6 hcz hcl xk xr xs).1)

theorem scover1_B_0 (y : S1024x128.Idx) : ∃ pc ∈ (kernelRun1_B c i arg3 harg3 arg4 harg4 arg5 harg5 arg6 harg6 hcz hcl xk xr xs).2.1, y ∈ pc.1.set :=
  View.cover_of_tiledL _ S1024x128.size (by sl_kernel_rfl) y

def sout1_B_0 : Vec F S1024x128 .f32 :=
  VS1_0.read (Elt F) (VS1_0.writes (Elt F) VS1_0.junk (kernelRun1_B c i arg3 harg3 arg4 harg4 arg5 harg5 arg6 harg6 hcz hcl xk xr xs).2.1)

end

section
variable (hcz : ¬cond1_0 i) (hcl : cond1_1 i) (xk : Vec F S1x1024x2048 .f32) (xr : Vec F S8192x128 .bf16) (xs : Vec F S1024x128 .f32)

theorem cover1_C_2 (y : S1x1024x128.Idx) : ∃ pc ∈ (kernelRun1_C c i arg3 harg3 arg4 harg4 arg5 harg5 arg6 harg6 hcz hcl xk xr xs).1, y ∈ pc.1.set :=
  View.cover_of_tiledL _ S1x1024x128.size (by sl_kernel_rfl) y

def out1_C_2 : Vec F S1x1024x128 .f32 :=
  VO1_2.read (Elt F) (VO1_2.writes (Elt F) VO1_2.junk (kernelRun1_C c i arg3 harg3 arg4 harg4 arg5 harg5 arg6 harg6 hcz hcl xk xr xs).1)

theorem scover1_C_0 (y : S1024x128.Idx) : ∃ pc ∈ (kernelRun1_C c i arg3 harg3 arg4 harg4 arg5 harg5 arg6 harg6 hcz hcl xk xr xs).2.1, y ∈ pc.1.set :=
  View.cover_of_tiledL _ S1024x128.size (by sl_kernel_rfl) y

def sout1_C_0 : Vec F S1024x128 .f32 :=
  VS1_0.read (Elt F) (VS1_0.writes (Elt F) VS1_0.junk (kernelRun1_C c i arg3 harg3 arg4 harg4 arg5 harg5 arg6 harg6 hcz hcl xk xr xs).2.1)

end

end

section
variable (c : Dev nD) (t : Fin cfg1.N)

abbrev atA1 (hz : t.val % 4 = 0) (hl : ¬t.val % 4 = 3) : Vec F S1x1024x128 .f32 × Vec F S1024x128 .f32 :=
  (out1_A_2 c (grid1.coords t) (ms1_0 t) (hs1_0 t) (ms1_1 t) (hs1_1 t) (ms1_2 t) (hs1_2 t) scM1_0 (Memref.isWhole_whole _) ((hcond1_0 t).mpr hz) (fun h => hl ((hcond1_1 t).mp h)) (iblk1 V c 0 t) (iblk1 V c 1 t),
    sout1_A_0 c (grid1.coords t) (ms1_0 t) (hs1_0 t) (ms1_1 t) (hs1_1 t) (ms1_2 t) (hs1_2 t) scM1_0 (Memref.isWhole_whole _) ((hcond1_0 t).mpr hz) (fun h => hl ((hcond1_1 t).mp h)) (iblk1 V c 0 t) (iblk1 V c 1 t))

abbrev atB1 (hz : ¬t.val % 4 = 0) (hl : ¬t.val % 4 = 3) (xs : Vec F S1024x128 .f32) : Vec F S1x1024x128 .f32 × Vec F S1024x128 .f32 :=
  (out1_B_2 c (grid1.coords t) (ms1_0 t) (hs1_0 t) (ms1_1 t) (hs1_1 t) (ms1_2 t) (hs1_2 t) scM1_0 (Memref.isWhole_whole _) (fun h => hz ((hcond1_0 t).mp h)) (fun h => hl ((hcond1_1 t).mp h)) (iblk1 V c 0 t) (iblk1 V c 1 t) xs,
    sout1_B_0 c (grid1.coords t) (ms1_0 t) (hs1_0 t) (ms1_1 t) (hs1_1 t) (ms1_2 t) (hs1_2 t) scM1_0 (Memref.isWhole_whole _) (fun h => hz ((hcond1_0 t).mp h)) (fun h => hl ((hcond1_1 t).mp h)) (iblk1 V c 0 t) (iblk1 V c 1 t) xs)

abbrev atC1 (hz : ¬t.val % 4 = 0) (hl : t.val % 4 = 3) (xs : Vec F S1024x128 .f32) : Vec F S1x1024x128 .f32 × Vec F S1024x128 .f32 :=
  (out1_C_2 c (grid1.coords t) (ms1_0 t) (hs1_0 t) (ms1_1 t) (hs1_1 t) (ms1_2 t) (hs1_2 t) scM1_0 (Memref.isWhole_whole _) (fun h => hz ((hcond1_0 t).mp h)) ((hcond1_1 t).mpr hl) (iblk1 V c 0 t) (iblk1 V c 1 t) xs,
    sout1_C_0 c (grid1.coords t) (ms1_0 t) (hs1_0 t) (ms1_1 t) (hs1_1 t) (ms1_2 t) (hs1_2 t) scM1_0 (Memref.isWhole_whole _) (fun h => hz ((hcond1_0 t).mp h)) ((hcond1_1 t).mpr hl) (iblk1 V c 0 t) (iblk1 V c 1 t) xs)

end

-- (the output block's buffer, the accumulator) after position n: from k = 0 afresh, else added to what n - 1 left.
def outsAt1 (c : Dev nD) : (n : ℕ) → n < cfg1.N → Vec F S1x1024x128 .f32 × Vec F S1024x128 .f32
  | 0, hn => atA1 V c ⟨0, hn⟩ (Nat.zero_mod _) (by dsimp only; omega)
  | n + 1, hn =>
    if hz : (n + 1) % 4 = 0 then atA1 V c ⟨n + 1, hn⟩ hz (by dsimp only; omega)
    else if hl : (n + 1) % 4 = 3 then atC1 V c ⟨n + 1, hn⟩ hz hl (outsAt1 c n (Nat.lt_of_succ_lt hn)).2
    else atB1 V c ⟨n + 1, hn⟩ hz hl (outsAt1 c n (Nat.lt_of_succ_lt hn)).2

theorem outsAt1_A (c : Dev nD) (t : Fin cfg1.N) (hz : t.val % 4 = 0) (hl : ¬t.val % 4 = 3) :
    outsAt1 V c t.val t.isLt = atA1 V c t hz hl := by
  obtain ⟨n, hn⟩ := t
  cases n with
  | zero => exact rfl
  | succ n => exact (dif_pos hz).trans rfl

theorem outsAt1_B (c : Dev nD) (t : Fin cfg1.N) (hz : ¬t.val % 4 = 0) (hl : ¬t.val % 4 = 3) :
    outsAt1 V c t.val t.isLt = atB1 V c t hz hl (outsAt1 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_neg hl).trans rfl)

theorem outsAt1_C (c : Dev nD) (t : Fin cfg1.N) (hz : ¬t.val % 4 = 0) (hl : t.val % 4 = 3) :
    outsAt1 V c t.val t.isLt = atC1 V c t hz hl (outsAt1 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_pos hl).trans rfl)

-- Before position n the accumulator holds what position n - 1 left (anything before the first).
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_pos (c : Dev nD) (n : ℕ) (h : n ≤ cfg1.N) (h0 : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl h0
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]
theorem after1_out (c : Dev nD) (t : Fin cfg1.N) : (dat1 V c).after 2 t = (outsAt1 V c t.val t.isLt).1 := by dsimp only [dat1]

theorem after1_in_0 (c : Dev nD) (t : Fin cfg1.N) : (dat1 V c).after 0 t = iblk1 V c 0 t := by dsimp only [dat1]
theorem after1_in_1 (c : Dev nD) (t : Fin cfg1.N) : (dat1 V c).after 1 t = iblk1 V c 1 t := by dsimp only [dat1]

theorem before1_0 (c : Dev nD) (t : Fin cfg1.N) (d) : (dat1 V c).before 0 t d = iblk1 V c 0 t :=
  before1_0_of V (dat1 V c) (A_eq1 V c 0) (after1_in_0 V c) t d
theorem before1_1 (c : Dev nD) (t : Fin cfg1.N) (d) : (dat1 V c).before 1 t d = iblk1 V c 1 t :=
  before1_1_of V (dat1 V c) (A_eq1 V c 1) (after1_in_1 V c) t d

theorem idle1_2 : ∀ t : Fin cfg1.N, ¬t.val % 4 = 3 → cfg1.idle 2 (grid1.coords t) = true ∧ (cfg1.win 2).flush t = false := by decide +kernel
theorem live1 : ∀ t : Fin cfg1.N, cfg1.idle 0 (grid1.coords t) = false ∧ cfg1.idle 1 (grid1.coords t) = false ∧ (t.val % 4 = 3 → cfg1.idle 2 (grid1.coords t) = false) := by decide +kernel

-- What the accumulator holds may be forgotten at any position.
theorem forget1 (c : Dev nD) (t : Fin (cfg1.N + 1)) :
    (dat1 V c).Φ t ⊢ iprop(iprop(iprop(∃ d, owns (c : Thread nD τ) scM1_0 fullShare d) ∗ rest1 (F := F) c) ∗ (∃ r, prngReg c r)) := by
  obtain ⟨n, hn⟩ := t
  cases n with
  | zero => show (Pipeline.ΦA spec1 c : sProp 𝕄) ⊢ _; rw [PhiA1_eq]
  | succ n =>
    rw [show (dat1 V c).Φ ⟨n + 1, hn⟩ = PhiS1 V c (n + 1) (Nat.le_of_lt_succ hn) from rfl, PhiS1_pos V c _ _ (Nat.succ_ne_zero n)]
    iintro ⟨⟨HS, Hrest⟩, Hg⟩
    isplitl [HS Hrest]
    · isplitl [HS]
      · iexists _; iexact HS
      iexact Hrest
    iexact Hg

-- A run of the body from the accumulator at ACC whose accumulator pieces LS cover it, framed by everything it leaves alone.
theorem body_of_run1 (c : Dev nD) (t : Fin cfg1.N) {ACC W X R Q : sProp 𝕄} {α β γ : Type} {O O' : α → sProp 𝕄} {LS : List (View.Piece (Elt F) S1024x128 .f32)}
    (hcov : ∀ y, ∃ pc ∈ LS, y ∈ pc.1.set)
    (run : ∀ d (K : PUnit → sProp 𝕄), iprop(X ∗ R ∗ O d ∗ ACC ∗ (iprop(X ∗ R ∗ O' d ∗ (∃ f, scM1_0.view.loc (c : Thread nD τ) ↦[scM1_0.view.set]{fullShare} scM1_0.view.writes (Elt F) f LS)) -∗ K ⟨⟩))
      ⊢ wp frame (wpE (defs₀ (F := F)) Variants.none c none) Set.univ (bodyAt1 t) K)
    (hO : ∀ d, O' d ⊢ Q) :
    iprop(iprop(iprop(ACC ∗ rest1 (F := F) c) ∗ (∃ r, prngReg c r)) ∗ W ∗ (∃ d : β, X) ∗ (∃ d : γ, R) ∗ (∃ d, O d))
      ⊢ wp frame (wpE (defs₀ (F := F)) Variants.none c none) Set.univ (bodyAt1 t) (fun _ =>
          iprop(iprop(iprop(owns (c : Thread nD τ) scM1_0 fullShare (VS1_0.read (Elt F) (VS1_0.writes (Elt F) VS1_0.junk LS)) ∗ rest1 (F := F) c) ∗ (∃ r, prngReg c r)) ∗ W ∗ X ∗ R ∗ Q)) := by
  iintro ⟨⟨⟨HS, Hrest⟩, Hg⟩, Hw, ⟨%dk, HX⟩, ⟨%dr, HR⟩, ⟨%d, HO⟩⟩
  iapply run d
  isplitl [HX]; · iexact HX
  isplitl [HR]; · iexact HR
  isplitl [HO]; · iexact HO
  isplitl [HS]; · iexact HS
  iintro ⟨HX, HR, HO, ⟨%es, HS⟩⟩
  isplitl [HS Hrest Hg]
  · isplitl [HS Hrest]
    · isplitl [HS]
      · unfold owns; iexists _; isplitr
        swap; · iexact HS
        ipureintro; exact View.read_writes_of_cover _ _ _ _ _ hcov
      iexact Hrest
    iexact Hg
  isplitl [Hw]; · iexact Hw
  isplitl [HX]; · iexact HX
  isplitl [HR]; · iexact HR
  iapply hO d; iexact HO

set_option maxHeartbeats 4800000 in
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t)) := by
  simp only [before1_0, before1_1]
  rw [show (dat1 V c).owesAt () t.succ = (dat1 V c).owesAt () t.castSucc from rfl]
  rw [show (dat1 V c).Φ t.succ = iprop(iprop(owns (c : Thread nD τ) scM1_0 fullShare ((outsAt1 V c t.val t.isLt).2) ∗ rest1 (F := F) c) ∗ (∃ r, prngReg c r)) from rfl]
  rw [show (dat1 V c).leavesExact 0 t = owns (c : Thread nD τ) (ms1_0 t) fullShare ((dat1 V c).after 0 t) from by
    unfold Dat.leavesExact; rw [(live1 t).1]]
  rw [show (dat1 V c).leavesExact 1 t = owns (c : Thread nD τ) (ms1_1 t) fullShare ((dat1 V c).after 1 t) from by
    unfold Dat.leavesExact; rw [(live1 t).2.1]]
  rw [after1_in_0, after1_in_1]
  by_cases hl : t.val % 4 = 3
  · have hz : ¬t.val % 4 = 0 := by omega
    rw [show (dat1 V c).leavesExact 2 t = owns (c : Thread nD τ) (ms1_2 t) fullShare ((dat1 V c).after 2 t) from by
      unfold Dat.leavesExact; rw [(live1 t).2.2 hl], after1_out, outsAt1_C V c t hz hl]
    dsimp only
    unfold out1_C_2 sout1_C_0
    rw [show (dat1 V c).Φ t.castSucc = PhiS1 V c t.val (Nat.le_of_lt t.isLt) from rfl, PhiS1_pos V c _ _ (fun e => hz (by omega))]
    exact body_of_run1 c t (scover1_C_0 c _ _ _ _ _ _ _ _ _ _ _ _ _ _)
      (fun d K => (kernelRun1_C c (grid1.coords t) _ _ _ _ _ _ _ _ (fun h => hz ((hcond1_0 t).mp h)) ((hcond1_1 t).mpr hl) (iblk1 V c 0 t) (iblk1 V c 1 t) _).2.2 _ Set.univ K)
      (fun _ => by
        unfold owns
        iintro ⟨%f, H⟩
        iexists _; isplitr
        swap; · iexact H
        ipureintro; exact View.read_writes_of_cover _ _ _ _ _ (cover1_C_2 c _ _ _ _ _ _ _ _ _ _ _ _ _ _))
  · rw [Dat.leavesExact_idle (dat1 V c) 2 t (idle1_2 t hl).1 (idle1_2 t hl).2]
    by_cases hz : t.val % 4 = 0
    · rw [outsAt1_A V c t hz hl]
      dsimp only
      unfold sout1_A_0
      iintro ⟨HΦ, H⟩
      iapply body_of_run1 c t (scover1_A_0 c _ _ _ _ _ _ _ _ _ _ _ _ _)
        (fun d K => (kernelRun1_A c (grid1.coords t) _ _ _ _ _ _ _ _ ((hcond1_0 t).mpr hz) (fun h => hl ((hcond1_1 t).mp h)) (iblk1 V c 0 t) (iblk1 V c 1 t)).2.2 ((dat1 V c).before 2 t d) Set.univ K)
        (fun d => by iintro H; iexists d; iexact H)
      isplitl [HΦ]; · iapply forget1 V c t.castSucc; iexact HΦ
      iexact H
    · rw [outsAt1_B V c t hz hl]
      dsimp only
      unfold sout1_B_0
      rw [show (dat1 V c).Φ t.castSucc = PhiS1 V c t.val (Nat.le_of_lt t.isLt) from rfl, PhiS1_pos V c _ _ (fun e => hz (by omega))]
      exact body_of_run1 c t (scover1_B_0 c _ _ _ _ _ _ _ _ _ _ _ _ _ _)
        (fun d K => (kernelRun1_B c (grid1.coords t) _ _ _ _ _ _ _ _ (fun h => hz ((hcond1_0 t).mp h)) (fun h => hl ((hcond1_1 t).mp h)) (iblk1 V c 0 t) (iblk1 V c 1 t) _).2.2 _ Set.univ K)
        (fun d => by iintro H; iexists d; iexact H)

theorem body_obligation1 (c : Dev nD) :
    BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) := by
  rw [PhiA1_eq]; exact forget1 V c _

end Cert.KernelIdeal.Hand

end
-- ==== Proof.KI.R2Runs.lean ====
import proofs.«429692_j807453851732_2_alg».proof.Proof.Gen.KernelIdeal.Launch
import proofs.«429692_j807453851732_2_alg».proof.Proof.Gen.KernelIdeal.Skeleton
import proofs.«429692_j807453851732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

abbrev VO2_2 : View sig .tc .vmem S1x1024x256 .f32 := (Memref.whole cc2_stg2_0 : Memref sig .tc .vmem S1x1024x256 .f32).view
abbrev ms2_0 (t : Fin cfg2.N) : Memref sig .tc .vmem S1x1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x256 .f32 := win2_2.stage (cfg2.slots t 2)
abbrev hs2_2 (t : Fin cfg2.N) : (ms2_2 t).IsWhole := hstage2_2 ((cfg2.slots t 2).cast nbuf2_2)
abbrev scM2_0 : Memref sig .tc .vmem S1024x256 .f32 := Memref.whole cc2_scratch0
abbrev VS2_0 : View sig .tc .vmem S1024x256 .f32 := scM2_0.view

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

-- A run of the body: the pieces it leaves in the output block's buffer and in the accumulator, and its triple from the accumulator at ACC.
abbrev Run2 (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole)
    (xk : Vec F S1x1024x2048 .f32) (xr : Vec F S8192x256 .bf16) (ACC : sProp 𝕄) (OUT : Vec F S1x1024x256 .f32 → List (View.Piece (Elt F) S1x1024x256 .f32) → sProp 𝕄) :=
  Σ' (LO : List (View.Piece (Elt F) S1x1024x256 .f32)), { LS : List (View.Piece (Elt F) S1024x256 .f32) //
    ∀ (xo : Vec F S1x1024x256 .f32) (E : Set ℕ) (K : PUnit → sProp 𝕄),
      iprop(owns (c : Thread nD τ) arg3 fullShare xk ∗ owns (c : Thread nD τ) arg4 fullShare xr ∗ owns (c : Thread nD τ) arg5 fullShare xo ∗ ACC
          ∗ (iprop(owns (c : Thread nD τ) arg3 fullShare xk ∗ owns (c : Thread nD τ) arg4 fullShare xr ∗ OUT xo LO ∗ (∃ f, arg6.view.loc (c : Thread nD τ) ↦[arg6.view.set]{fullShare} arg6.view.writes (Elt F) f LS)) -∗ K ⟨⟩))
        ⊢ wp frame (wpE (defs₀ (F := F)) Variants.none c none) E (cc2__k_matmul_kernel i arg3 harg3 arg4 harg4 arg5 harg5 arg6 harg6) K }

end Cert.KernelIdeal.Hand

end
-- ==== Proof.KI.R2RunA.lean ====
import proofs.«429692_j807453851732_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole) (hcz : cond2_0 i) (hcl : ¬cond2_1 i)
    (xk : Vec F S1x1024x2048 .f32) (xr : Vec F S8192x256 .bf16) :
    Run2 c i arg3 harg3 arg4 harg4 arg5 harg5 arg6 harg6 xk xr iprop(∃ d, owns (c : Thread nD τ) arg6 fullShare d) fun xo _ => owns (c : Thread nD τ) arg5 fullShare xo := by
  refine ⟨[], ?_, fun xo E K => ?run⟩
  case run =>
    simp only [cc2__k_matmul_kernel_eq_skeleton]; unfold cc2__k_matmul_kernel_skel
    unfold owns
    iintro ⟨⟨%fk, %hfk, HX⟩, ⟨%fr, %hfr, HR⟩, ⟨%fo, %hfo, HO⟩, ⟨%ds, %fs, -, HS⟩, Hk⟩
    obtain rfl := harg3.eq_unread hfk; obtain rfl := harg4.eq_unread hfr; obtain rfl := harg5.eq_unread hfo
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.KernelIdeal.Hand

end
-- ==== Proof.KI.R2RunB.lean ====
import proofs.«429692_j807453851732_2_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole) (hcz : ¬cond2_0 i) (hcl : ¬cond2_1 i)
    (xk : Vec F S1x1024x2048 .f32) (xr : Vec F S8192x256 .bf16) (xs : Vec F S1024x256 .f32) :
    Run2 c i arg3 harg3 arg4 harg4 arg5 harg5 arg6 harg6 xk xr (owns (c : Thread nD τ) arg6 fullShare xs) fun xo _ => owns (c : Thread nD τ) arg5 fullShare xo := by
  refine ⟨[], ?_, fun xo E K => ?run⟩
  case run =>
    simp only [cc2__k_matmul_kernel_eq_skeleton]; unfold cc2__k_matmul_kernel_skel
    unfold owns
    iintro ⟨⟨%fk, %hfk, HX⟩, ⟨%fr, %hfr, HR⟩, ⟨%fo, %hfo, HO⟩, ⟨%fs, %hfs, HS⟩, Hk⟩
    obtain rfl := harg3.eq_unread hfk; obtain rfl := harg4.eq_unread hfr; obtain rfl := harg5.eq_unread hfo; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]
    · iexists _; isplitr; · ipureintro; exact harg5.read_unread _
      iexact HO
    iexists _; iexact HS

end Cert.KernelIdeal.Hand

end
-- ==== Proof.KI.R2RunC.lean ====
import proofs.«429692_j807453851732_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole) (hcz : ¬cond2_0 i) (hcl : cond2_1 i)
    (xk : Vec F S1x1024x2048 .f32) (xr : Vec F S8192x256 .bf16) (xs : Vec F S1024x256 .f32) :
    Run2 c i arg3 harg3 arg4 harg4 arg5 harg5 arg6 harg6 xk xr (owns (c : Thread nD τ) arg6 fullShare xs) fun _ LO => iprop(∃ f, arg5.view.loc (c : Thread nD τ) ↦[arg5.view.set]{fullShare} arg5.view.writes (Elt F) f LO) := by
  refine ⟨?_, ?_, fun xo E K => ?run⟩
  case run =>
    simp only [cc2__k_matmul_kernel_eq_skeleton]; unfold cc2__k_matmul_kernel_skel
    unfold owns
    iintro ⟨⟨%fk, %hfk, HX⟩, ⟨%fr, %hfr, HR⟩, ⟨%fo, -, HO⟩, ⟨%fs, %hfs, HS⟩, Hk⟩
    obtain rfl := harg3.eq_unread hfk; obtain rfl := harg4.eq_unread hfr; obtain rfl := harg6.eq_unread hfs
    sl_exec (disch := first | exact hcz | exact hcl)
    sl_step
    iapply Hk
    isplitl [HX]
    · iexists _; isplitr; · ipureintro; exact harg3.read_unread _
      iexact HX
    isplitl [HR]
    · iexists _; isplitr; · ipureintro; exact harg4.read_unread _
      iexact HR
    isplitl [HO]; · iexists _; iexact HO
    iexists _; iexact HS

end Cert.KernelIdeal.Hand

end
-- ==== Proof.KI.R2Frame.lean ====
import proofs.«429692_j807453851732_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg3 : Memref sig .tc .vmem S1x1024x2048 .f32) (harg3 : arg3.IsWhole) (arg4 : Memref sig .tc .vmem S8192x256 .bf16) (harg4 : arg4.IsWhole) (arg5 : Memref sig .tc .vmem S1x1024x256 .f32) (harg5 : arg5.IsWhole) (arg6 : Memref sig .tc .vmem S1024x256 .f32) (harg6 : arg6.IsWhole)

section
variable (hcz : cond2_0 i) (hcl : ¬cond2_1 i) (xk : Vec F S1x1024x2048 .f32) (xr : Vec F S8192x256 .bf16)

def out2_A_2 : Vec F S1x1024x256 .f32 :=
  VO2_2.read (Elt F) (VO2_2.writes (Elt F) VO2_2.junk (kernelRun2_A c i arg3 harg3 arg4 harg4 arg5 harg5 arg6 harg6 hcz hcl xk xr).1)

theorem scover2_A_0 (y : S1024x256.Idx) : ∃ pc ∈ (kernelRun2_A c i arg3 harg3 arg4 harg4 arg5 harg5 arg6 harg6 hcz hcl xk xr).2.1, y ∈ pc.1.set :=
  View.cover_of_tiledL _ S1024x256.size (by sl_kernel_rfl) y

def sout2_A_0 : Vec F S1024x256 .f32 :=
  VS2_0.read (Elt F) (VS2_0.writes (Elt F) VS2_0.junk (kernelRun2_A c i arg3 harg3 arg4 harg4 arg5 harg5 arg6 harg6 hcz hcl xk xr).2.1)

end

section
variable (hcz : ¬cond2_0 i) (hcl : ¬cond2_1 i) (xk : Vec F S1x1024x2048 .f32) (xr : Vec F S8192x256 .bf16) (xs : Vec F S1024x256 .f32)

def out2_B_2 : Vec F S1x1024x256 .f32 :=
  VO2_2.read (Elt F) (VO2_2.writes (Elt F) VO2_2.junk (kernelRun2_B c i arg3 harg3 arg4 harg4 arg5 harg5 arg6 harg6 hcz hcl xk xr xs).1)

theorem scover2_B_0 (y : S1024x256.Idx) : ∃ pc ∈ (kernelRun2_B c i arg3 harg3 arg4 harg4 arg5 harg5 arg6 harg6 hcz hcl xk xr xs).2.1, y ∈ pc.1.set :=
  View.cover_of_tiledL _ S1024x256.size (by sl_kernel_rfl) y

def sout2_B_0 : Vec F S1024x256 .f32 :=
  VS2_0.read (Elt F) (VS2_0.writes (Elt F) VS2_0.junk (kernelRun2_B c i arg3 harg3 arg4 harg4 arg5 harg5 arg6 harg6 hcz hcl xk xr xs).2.1)

end

section
variable (hcz : ¬cond2_0 i) (hcl : cond2_1 i) (xk : Vec F S1x1024x2048 .f32) (xr : Vec F S8192x256 .bf16) (xs : Vec F S1024x256 .f32)

theorem cover2_C_2 (y : S1x1024x256.Idx) : ∃ pc ∈ (kernelRun2_C c i arg3 harg3 arg4 harg4 arg5 harg5 arg6 harg6 hcz hcl xk xr xs).1, y ∈ pc.1.set :=
  View.cover_of_tiledL _ S1x1024x256.size (by sl_kernel_rfl) y

def out2_C_2 : Vec F S1x1024x256 .f32 :=
  VO2_2.read (Elt F) (VO2_2.writes (Elt F) VO2_2.junk (kernelRun2_C c i arg3 harg3 arg4 harg4 arg5 harg5 arg6 harg6 hcz hcl xk xr xs).1)

theorem scover2_C_0 (y : S1024x256.Idx) : ∃ pc ∈ (kernelRun2_C c i arg3 harg3 arg4 harg4 arg5 harg5 arg6 harg6 hcz hcl xk xr xs).2.1, y ∈ pc.1.set :=
  View.cover_of_tiledL _ S1024x256.size (by sl_kernel_rfl) y

def sout2_C_0 : Vec F S1024x256 .f32 :=
  VS2_0.read (Elt F) (VS2_0.writes (Elt F) VS2_0.junk (kernelRun2_C c i arg3 harg3 arg4 harg4 arg5 harg5 arg6 harg6 hcz hcl xk xr xs).2.1)

end

end

section
variable (c : Dev nD) (t : Fin cfg2.N)

abbrev atA2 (hz : t.val % 4 = 0) (hl : ¬t.val % 4 = 3) : Vec F S1x1024x256 .f32 × Vec F S1024x256 .f32 :=
  (out2_A_2 c (grid2.coords t) (ms2_0 t) (hs2_0 t) (ms2_1 t) (hs2_1 t) (ms2_2 t) (hs2_2 t) scM2_0 (Memref.isWhole_whole _) ((hcond2_0 t).mpr hz) (fun h => hl ((hcond2_1 t).mp h)) (iblk2 V c 0 t) (iblk2 V c 1 t),
    sout2_A_0 c (grid2.coords t) (ms2_0 t) (hs2_0 t) (ms2_1 t) (hs2_1 t) (ms2_2 t) (hs2_2 t) scM2_0 (Memref.isWhole_whole _) ((hcond2_0 t).mpr hz) (fun h => hl ((hcond2_1 t).mp h)) (iblk2 V c 0 t) (iblk2 V c 1 t))

abbrev atB2 (hz : ¬t.val % 4 = 0) (hl : ¬t.val % 4 = 3) (xs : Vec F S1024x256 .f32) : Vec F S1x1024x256 .f32 × Vec F S1024x256 .f32 :=
  (out2_B_2 c (grid2.coords t) (ms2_0 t) (hs2_0 t) (ms2_1 t) (hs2_1 t) (ms2_2 t) (hs2_2 t) scM2_0 (Memref.isWhole_whole _) (fun h => hz ((hcond2_0 t).mp h)) (fun h => hl ((hcond2_1 t).mp h)) (iblk2 V c 0 t) (iblk2 V c 1 t) xs,
    sout2_B_0 c (grid2.coords t) (ms2_0 t) (hs2_0 t) (ms2_1 t) (hs2_1 t) (ms2_2 t) (hs2_2 t) scM2_0 (Memref.isWhole_whole _) (fun h => hz ((hcond2_0 t).mp h)) (fun h => hl ((hcond2_1 t).mp h)) (iblk2 V c 0 t) (iblk2 V c 1 t) xs)

abbrev atC2 (hz : ¬t.val % 4 = 0) (hl : t.val % 4 = 3) (xs : Vec F S1024x256 .f32) : Vec F S1x1024x256 .f32 × Vec F S1024x256 .f32 :=
  (out2_C_2 c (grid2.coords t) (ms2_0 t) (hs2_0 t) (ms2_1 t) (hs2_1 t) (ms2_2 t) (hs2_2 t) scM2_0 (Memref.isWhole_whole _) (fun h => hz ((hcond2_0 t).mp h)) ((hcond2_1 t).mpr hl) (iblk2 V c 0 t) (iblk2 V c 1 t) xs,
    sout2_C_0 c (grid2.coords t) (ms2_0 t) (hs2_0 t) (ms2_1 t) (hs2_1 t) (ms2_2 t) (hs2_2 t) scM2_0 (Memref.isWhole_whole _) (fun h => hz ((hcond2_0 t).mp h)) ((hcond2_1 t).mpr hl) (iblk2 V c 0 t) (iblk2 V c 1 t) xs)

end

-- (the output block's buffer, the accumulator) after position n: from k = 0 afresh, else added to what n - 1 left.
def outsAt2 (c : Dev nD) : (n : ℕ) → n < cfg2.N → Vec F S1x1024x256 .f32 × Vec F S1024x256 .f32
  | 0, hn => atA2 V c ⟨0, hn⟩ (Nat.zero_mod _) (by dsimp only; omega)
  | n + 1, hn =>
    if hz : (n + 1) % 4 = 0 then atA2 V c ⟨n + 1, hn⟩ hz (by dsimp only; omega)
    else if hl : (n + 1) % 4 = 3 then atC2 V c ⟨n + 1, hn⟩ hz hl (outsAt2 c n (Nat.lt_of_succ_lt hn)).2
    else atB2 V c ⟨n + 1, hn⟩ hz hl (outsAt2 c n (Nat.lt_of_succ_lt hn)).2

theorem outsAt2_A (c : Dev nD) (t : Fin cfg2.N) (hz : t.val % 4 = 0) (hl : ¬t.val % 4 = 3) :
    outsAt2 V c t.val t.isLt = atA2 V c t hz hl := by
  obtain ⟨n, hn⟩ := t
  cases n with
  | zero => exact rfl
  | succ n => exact (dif_pos hz).trans rfl

theorem outsAt2_B (c : Dev nD) (t : Fin cfg2.N) (hz : ¬t.val % 4 = 0) (hl : ¬t.val % 4 = 3) :
    outsAt2 V c t.val t.isLt = atB2 V c t hz hl (outsAt2 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_neg hl).trans rfl)

theorem outsAt2_C (c : Dev nD) (t : Fin cfg2.N) (hz : ¬t.val % 4 = 0) (hl : t.val % 4 = 3) :
    outsAt2 V c t.val t.isLt = atC2 V c t hz hl (outsAt2 V c (t.val - 1) (Nat.lt_of_le_of_lt (Nat.sub_le _ _) t.isLt)).2 := by
  obtain ⟨n, hn⟩ := t
  cases n with
  | zero => exact absurd (Nat.zero_mod _) hz
  | succ n => exact (dif_neg hz).trans ((dif_pos hl).trans rfl)

-- Before position n the accumulator holds what position n - 1 left (anything before the first).
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_pos (c : Dev nD) (n : ℕ) (h : n ≤ cfg2.N) (h0 : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl h0
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem recorded_eq2 (c : Dev nD) (t : Fin (cfg2.N + 1)) : (dat2 V c).recorded t = Set.univ := by
  dsimp only [dat2]
theorem after2_out (c : Dev nD) (t : Fin cfg2.N) : (dat2 V c).after 2 t = (outsAt2 V c t.val t.isLt).1 := by dsimp only [dat2]

theorem after2_in_0 (c : Dev nD) (t : Fin cfg2.N) : (dat2 V c).after 0 t = iblk2 V c 0 t := by dsimp only [dat2]
theorem after2_in_1 (c : Dev nD) (t : Fin cfg2.N) : (dat2 V c).after 1 t = iblk2 V c 1 t := by dsimp only [dat2]

theorem before2_0 (c : Dev nD) (t : Fin cfg2.N) (d) : (dat2 V c).before 0 t d = iblk2 V c 0 t :=
  before2_0_of V (dat2 V c) (A_eq2 V c 0) (after2_in_0 V c) t d
theorem before2_1 (c : Dev nD) (t : Fin cfg2.N) (d) : (dat2 V c).before 1 t d = iblk2 V c 1 t :=
  before2_1_of V (dat2 V c) (A_eq2 V c 1) (after2_in_1 V c) t d

theorem idle2_2 : ∀ t : Fin cfg2.N, ¬t.val % 4 = 3 → cfg2.idle 2 (grid2.coords t) = true ∧ (cfg2.win 2).flush t = false := by decide +kernel
theorem live2 : ∀ t : Fin cfg2.N, cfg2.idle 0 (grid2.coords t) = false ∧ cfg2.idle 1 (grid2.coords t) = false ∧ (t.val % 4 = 3 → cfg2.idle 2 (grid2.coords t) = false) := by decide +kernel

-- What the accumulator holds may be forgotten at any position.
theorem forget2 (c : Dev nD) (t : Fin (cfg2.N + 1)) :
    (dat2 V c).Φ t ⊢ iprop(iprop(iprop(∃ d, owns (c : Thread nD τ) scM2_0 fullShare d) ∗ rest2 (F := F) c) ∗ (∃ r, prngReg c r)) := by
  obtain ⟨n, hn⟩ := t
  cases n with
  | zero => show (Pipeline.ΦA spec2 c : sProp 𝕄) ⊢ _; rw [PhiA2_eq]
  | succ n =>
    rw [show (dat2 V c).Φ ⟨n + 1, hn⟩ = PhiS2 V c (n + 1) (Nat.le_of_lt_succ hn) from rfl, PhiS2_pos V c _ _ (Nat.succ_ne_zero n)]
    iintro ⟨⟨HS, Hrest⟩, Hg⟩
    isplitl [HS Hrest]
    · isplitl [HS]
      · iexists _; iexact HS
      iexact Hrest
    iexact Hg

-- A run of the body from the accumulator at ACC whose accumulator pieces LS cover it, framed by everything it leaves alone.
theorem body_of_run2 (c : Dev nD) (t : Fin cfg2.N) {ACC W X R Q : sProp 𝕄} {α β γ : Type} {O O' : α → sProp 𝕄} {LS : List (View.Piece (Elt F) S1024x256 .f32)}
    (hcov : ∀ y, ∃ pc ∈ LS, y ∈ pc.1.set)
    (run : ∀ d (K : PUnit → sProp 𝕄), iprop(X ∗ R ∗ O d ∗ ACC ∗ (iprop(X ∗ R ∗ O' d ∗ (∃ f, scM2_0.view.loc (c : Thread nD τ) ↦[scM2_0.view.set]{fullShare} scM2_0.view.writes (Elt F) f LS)) -∗ K ⟨⟩))
      ⊢ wp frame (wpE (defs₀ (F := F)) Variants.none c none) Set.univ (bodyAt2 t) K)
    (hO : ∀ d, O' d ⊢ Q) :
    iprop(iprop(iprop(ACC ∗ rest2 (F := F) c) ∗ (∃ r, prngReg c r)) ∗ W ∗ (∃ d : β, X) ∗ (∃ d : γ, R) ∗ (∃ d, O d))
      ⊢ wp frame (wpE (defs₀ (F := F)) Variants.none c none) Set.univ (bodyAt2 t) (fun _ =>
          iprop(iprop(iprop(owns (c : Thread nD τ) scM2_0 fullShare (VS2_0.read (Elt F) (VS2_0.writes (Elt F) VS2_0.junk LS)) ∗ rest2 (F := F) c) ∗ (∃ r, prngReg c r)) ∗ W ∗ X ∗ R ∗ Q)) := by
  iintro ⟨⟨⟨HS, Hrest⟩, Hg⟩, Hw, ⟨%dk, HX⟩, ⟨%dr, HR⟩, ⟨%d, HO⟩⟩
  iapply run d
  isplitl [HX]; · iexact HX
  isplitl [HR]; · iexact HR
  isplitl [HO]; · iexact HO
  isplitl [HS]; · iexact HS
  iintro ⟨HX, HR, HO, ⟨%es, HS⟩⟩
  isplitl [HS Hrest Hg]
  · isplitl [HS Hrest]
    · isplitl [HS]
      · unfold owns; iexists _; isplitr
        swap; · iexact HS
        ipureintro; exact View.read_writes_of_cover _ _ _ _ _ hcov
      iexact Hrest
    iexact Hg
  isplitl [Hw]; · iexact Hw
  isplitl [HX]; · iexact HX
  isplitl [HR]; · iexact HR
  iapply hO d; iexact HO

set_option maxHeartbeats 4800000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  simp only [before2_0, before2_1]
  rw [show (dat2 V c).owesAt () t.succ = (dat2 V c).owesAt () t.castSucc from rfl]
  rw [show (dat2 V c).Φ t.succ = iprop(iprop(owns (c : Thread nD τ) scM2_0 fullShare ((outsAt2 V c t.val t.isLt).2) ∗ rest2 (F := F) c) ∗ (∃ r, prngReg c r)) from rfl]
  rw [show (dat2 V c).leavesExact 0 t = owns (c : Thread nD τ) (ms2_0 t) fullShare ((dat2 V c).after 0 t) from by
    unfold Dat.leavesExact; rw [(live2 t).1]]
  rw [show (dat2 V c).leavesExact 1 t = owns (c : Thread nD τ) (ms2_1 t) fullShare ((dat2 V c).after 1 t) from by
    unfold Dat.leavesExact; rw [(live2 t).2.1]]
  rw [after2_in_0, after2_in_1]
  by_cases hl : t.val % 4 = 3
  · have hz : ¬t.val % 4 = 0 := by omega
    rw [show (dat2 V c).leavesExact 2 t = owns (c : Thread nD τ) (ms2_2 t) fullShare ((dat2 V c).after 2 t) from by
      unfold Dat.leavesExact; rw [(live2 t).2.2 hl], after2_out, outsAt2_C V c t hz hl]
    dsimp only
    unfold out2_C_2 sout2_C_0
    rw [show (dat2 V c).Φ t.castSucc = PhiS2 V c t.val (Nat.le_of_lt t.isLt) from rfl, PhiS2_pos V c _ _ (fun e => hz (by omega))]
    exact body_of_run2 c t (scover2_C_0 c _ _ _ _ _ _ _ _ _ _ _ _ _ _)
      (fun d K => (kernelRun2_C c (grid2.coords t) _ _ _ _ _ _ _ _ (fun h => hz ((hcond2_0 t).mp h)) ((hcond2_1 t).mpr hl) (iblk2 V c 0 t) (iblk2 V c 1 t) _).2.2 _ Set.univ K)
      (fun _ => by
        unfold owns
        iintro ⟨%f, H⟩
        iexists _; isplitr
        swap; · iexact H
        ipureintro; exact View.read_writes_of_cover _ _ _ _ _ (cover2_C_2 c _ _ _ _ _ _ _ _ _ _ _ _ _ _))
  · rw [Dat.leavesExact_idle (dat2 V c) 2 t (idle2_2 t hl).1 (idle2_2 t hl).2]
    by_cases hz : t.val % 4 = 0
    · rw [outsAt2_A V c t hz hl]
      dsimp only
      unfold sout2_A_0
      iintro ⟨HΦ, H⟩
      iapply body_of_run2 c t (scover2_A_0 c _ _ _ _ _ _ _ _ _ _ _ _ _)
        (fun d K => (kernelRun2_A c (grid2.coords t) _ _ _ _ _ _ _ _ ((hcond2_0 t).mpr hz) (fun h => hl ((hcond2_1 t).mp h)) (iblk2 V c 0 t) (iblk2 V c 1 t)).2.2 ((dat2 V c).before 2 t d) Set.univ K)
        (fun d => by iintro H; iexists d; iexact H)
      isplitl [HΦ]; · iapply forget2 V c t.castSucc; iexact HΦ
      iexact H
    · rw [outsAt2_B V c t hz hl]
      dsimp only
      unfold sout2_B_0
      rw [show (dat2 V c).Φ t.castSucc = PhiS2 V c t.val (Nat.le_of_lt t.isLt) from rfl, PhiS2_pos V c _ _ (fun e => hz (by omega))]
      exact body_of_run2 c t (scover2_B_0 c _ _ _ _ _ _ _ _ _ _ _ _ _ _)
        (fun d K => (kernelRun2_B c (grid2.coords t) _ _ _ _ _ _ _ _ (fun h => hz ((hcond2_0 t).mp h)) (fun h => hl ((hcond2_1 t).mp h)) (iblk2 V c 0 t) (iblk2 V c 1 t) _).2.2 _ Set.univ K)
        (fun d => by iintro H; iexists d; iexact H)

theorem body_obligation2 (c : Dev nD) :
    BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 :=
  Idealize.SL.BI.Entails.refl _

theorem hout2 (c : Dev nD) : (dat2 V c).Φ (Fin.last cfg2.N) ⊢ (Pipeline.ΦA spec2 c : sProp 𝕄) := by
  rw [PhiA2_eq]; exact forget2 V c _

end Cert.KernelIdeal.Hand

end
-- ==== Proof.KI.R3Frame.lean ====
import proofs.«429692_j807453851732_2_alg».proof.Proof.Gen.KernelIdeal.Launch
import proofs.«429692_j807453851732_2_alg».proof.Proof.Gen.KernelIdeal.Skeleton
import proofs.«429692_j807453851732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S1024x128 := Rect.unit (s := S1024x128) ![0, 0] S1024x128.size inb_S1024x128_S1024x128_0_0
abbrev r3_b : Rect S1024x256 := Rect.unit (s := S1024x256) ![0, 0] S1024x256.size inb_S1024x256_S1024x256_0_0
abbrev r3_w : Rect S128x128 := Rect.unit (s := S128x128) ![0, 0] S128x128.size inb_S128x128_S128x128_0_0
abbrev r3_u : Rect S256x128 := Rect.unit (s := S256x128) ![0, 0] S256x128.size inb_S256x128_S256x128_0_0
abbrev r3_r : Rect S1x128 := Rect.unit (s := S1x128) ![0, 0] S1x128.size inb_S1x128_S1x128_0_0

def out3_11 (x0 x1 x2 : Vec F S1024x128 .f32) (x3 x4 : Vec F S1024x256 .f32) (x5 x6 x7 : Vec F S128x128 .f32)
    (x8 x9 : Vec F S256x128 .f32) (x10 : Vec F S1x128 .f32) : Vec F S1024x128 .f32 :=
  View.canon [⟨r3_a, k3_pay1
    (k3_pay2 (View.ld x0 r3_a) (View.ld x5 r3_w) (View.ld x1 r3_a) (View.ld x6 r3_w) (View.ld x2 r3_a) (View.ld x7 r3_w)
      (View.ld x3 r3_b) (View.ld x8 r3_u))
    (k3_pay3 (View.ld x4 r3_b)) (View.ld x9 r3_u) (View.ld x10 r3_r)⟩]

theorem cover3_11 (p0 : Vec F S1024x128 .f32) (y : S1024x128.Idx) :
    ∃ pc ∈ ([⟨r3_a, p0⟩] : List (View.Piece (Elt F) S1024x128 .f32)), y ∈ pc.1.set :=
  View.cover_of_tiled [⟨r3_a, p0⟩] S1024x128.size (by rfl) y

-- Loads change nothing, and a store over the whole output leaves exactly its payload.
set_option maxHeartbeats 4000000 in
theorem sound_kernel3 {c : Dev nD} {E : Set ℕ} {i : grid3.Coords} {arg1 arg2 arg3 arg12 : Memref sig .tc .vmem S1024x128 .f32}
    {arg4 arg5 : Memref sig .tc .vmem S1024x256 .f32} {arg6 arg7 arg8 : Memref sig .tc .vmem S128x128 .f32}
    {arg9 arg10 : Memref sig .tc .vmem S256x128 .f32} {arg11 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    {x0 x1 x2 : Vec F S1024x128 .f32} {x3 x4 : Vec F S1024x256 .f32} {x5 x6 x7 : Vec F S128x128 .f32}
    {x8 x9 : Vec F S256x128 .f32} {x10 : Vec F S1x128 .f32} {K : PUnit → sProp 𝕄} :
    iprop(owns c.tc arg1 fullShare x0
        ∗ owns c.tc arg2 fullShare x1
        ∗ owns c.tc arg3 fullShare x2
        ∗ owns c.tc arg4 fullShare x3
        ∗ owns c.tc arg5 fullShare x4
        ∗ owns c.tc arg6 fullShare x5
        ∗ owns c.tc arg7 fullShare x6
        ∗ owns c.tc arg8 fullShare x7
        ∗ owns c.tc arg9 fullShare x8
        ∗ owns c.tc arg10 fullShare x9
        ∗ owns c.tc arg11 fullShare x10
        ∗ (∃ d, owns c.tc arg12 fullShare d)
        ∗ (iprop(owns c.tc arg1 fullShare x0
        ∗ owns c.tc arg2 fullShare x1
        ∗ owns c.tc arg3 fullShare x2
        ∗ owns c.tc arg4 fullShare x3
        ∗ owns c.tc arg5 fullShare x4
        ∗ owns c.tc arg6 fullShare x5
        ∗ owns c.tc arg7 fullShare x6
        ∗ owns c.tc arg8 fullShare x7
        ∗ owns c.tc arg9 fullShare x8
        ∗ owns c.tc arg10 fullShare x9
        ∗ owns c.tc arg11 fullShare x10
            ∗ owns c.tc arg12 fullShare (out3_11 x0 x1 x2 x3 x4 x5 x6 x7 x8 x9 x10)) -∗ K ⟨⟩))
      ⊢ wp frame (wpE (defs₀ (F := F)) Variants.none c none) E (cc3__encoder_kernel i arg1 harg1 arg2 harg2 arg3 harg3 arg4 harg4 arg5 harg5 arg6 harg6 arg7 harg7 arg8 harg8 arg9 harg9 arg10 harg10 arg11 harg11 arg12 harg12) K := by
  simp only [cc3__encoder_kernel_eq_skeleton]; unfold cc3__encoder_kernel_skel
  simp only [k3_part1_eq_skeleton]; unfold k3_part1_skel
  simp only [owns_eq_rep c.tc]
  iintro ⟨H0, H1, H2, H3, H4, H5, H6, H7, H8, H9, H10, ⟨%d11, H11⟩, Hk⟩
  sl_exec
  sl_step
  iapply Hk
  iframe H0 H1 H2 H3 H4 H5 H6 H7 H8 H9 H10
  iapply rep_of_owns
  unfold owns
  iexists _; isplitr
  swap; · iexact H11
  ipureintro
  rw [View.read_writes_eq_canon _ _ _ (cover3_11 _)]
  simp only [View.readAt_rep]
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem recorded_eq3 (c : Dev nD) (t : Fin (cfg3.N + 1)) : (dat3 V c).recorded t = Set.univ := by
  dsimp only [dat3]

theorem after3_11 (c : Dev nD) (t : Fin cfg3.N) :
    (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

-- The body only reads its inputs, so what it finds in an input window is what it leaves there.
theorem before3 (c : Dev nD) (t : Fin cfg3.N) (w : Fin cfg3.W) (hw : (cfg3.win w).isOut = false) (d) :
    (dat3 V c).before w t d = (dat3 V c).after w t := by
  match w, hw with
  | ⟨11, _⟩, h => exact Bool.noConfusion h
  | ⟨0, _⟩, h | ⟨1, _⟩, h | ⟨2, _⟩, h | ⟨3, _⟩, h | ⟨4, _⟩, h | ⟨5, _⟩, h | ⟨6, _⟩, h | ⟨7, _⟩, h | ⟨8, _⟩, h | ⟨9, _⟩, h | ⟨10, _⟩, h =>
    rw [(dat3 V c).before_in_eq_fetched _ h (fun _ => rfl) (fun _ _ _ => rfl) (fun _ => by dsimp only [dat3]; rfl) t d]
    dsimp only [dat3]; rfl

set_option maxHeartbeats 1000000 in
theorem body_obligation3 (c : Dev nD) :
    BodyObligation (dat3 (F := F) V c) (defs₀ (F := F)) Variants.none () Set.univ := fun t => by
  rw [bigSep_W3, bigSep_W3]
  change _ ⊢ wp _ _ _ (bodyAt3 t) _
  simp only [bodyAt3, before3 V c t]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply sound_kernel3
  iframe H0 H1 H2 H3 H4 H5 H6 H7 H8 H9 H10
  isplitl [H11]; · iexists _; iexact H11
  iintro ⟨H0, H1, H2, H3, H4, H5, H6, H7, H8, H9, H10, H11⟩
  iframe

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.KernelIdeal.Hand

end
-- ==== Proof.KI.Assembly.lean ====
import proofs.«429692_j807453851732_2_alg».proof.Proof.Gen.KernelIdeal.Regions
import proofs.«429692_j807453851732_2_alg».proof.Proof.KI.R0Frame
import proofs.«429692_j807453851732_2_alg».proof.Proof.KI.R1Frame
import proofs.«429692_j807453851732_2_alg».proof.Proof.KI.R2Frame
import proofs.«429692_j807453851732_2_alg».proof.Proof.KI.R3Frame

set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 (c : Dev nD) (b : Ref sig .tc) : Buf (Elt F) ((c : Thread nD τ).loc b) := Gen.V1 m c b
def o2 (c : Dev nD) : Buf (Elt F) ((c : Thread nD τ).loc main_v2) := (dat0 (E0 m) c).arrAt 4 cfg0.N
def outsA : Gen.Outs (F := F) := fun _ r c => Function.update (Gen.V1 m c) main_v2 (o2 m c) r

abbrev E1 (c : Dev nD) (b : Ref sig .tc) : Buf (Elt F) ((c : Thread nD τ).loc b) := Gen.V3 m (outsA m) c b
def o4 (c : Dev nD) : Buf (Elt F) ((c : Thread nD τ).loc main_v11) := (dat1 (E1 m) c).arrAt 2 cfg1.N
def outsB : Gen.Outs (F := F) := fun J r c => match J with
  | 2 => outsA m 2 r c
  | _ => Function.update (Gen.V3 m (outsA m) c) main_v11 (o4 m c) r

abbrev E2 (c : Dev nD) (b : Ref sig .tc) : Buf (Elt F) ((c : Thread nD τ).loc b) := Gen.V5 m (outsB m) c b
def o6 (c : Dev nD) : Buf (Elt F) ((c : Thread nD τ).loc main_v20) := (dat2 (E2 m) c).arrAt 2 cfg2.N
def outsC : Gen.Outs (F := F) := fun J r c => match J with
  | 2 => outsA m 2 r c
  | 4 => outsB m 4 r c
  | _ => Function.update (Gen.V5 m (outsB m) c) main_v20 (o6 m c) r

abbrev E3 (c : Dev nD) (b : Ref sig .tc) : Buf (Elt F) ((c : Thread nD τ).loc b) := Gen.V19 m (outsC m) c b
def o20 (c : Dev nD) : Buf (Elt F) ((c : Thread nD τ).loc main_v41) := (dat3 (E3 m) c).arrAt 11 cfg3.N
def outs : Gen.Outs (F := F) := fun J r c => match J with
  | 2 => outsA m 2 r c
  | 4 => outsB m 4 r c
  | 6 => outsC m 6 r c
  | _ => Function.update (Gen.V19 m (outsC m) c) main_v41 (o20 m c) r

theorem outs_2 (c : Dev nD) : outs m 2 main_v2 c = o2 m c := by
  show Function.update (Gen.V1 m c) main_v2 (o2 m c) main_v2 = _; exact Function.update_self ..
theorem outs_4 (c : Dev nD) : outs m 4 main_v11 c = o4 m c := by
  show Function.update (Gen.V3 m (outsA m) c) main_v11 (o4 m c) main_v11 = _; exact Function.update_self ..
theorem outs_6 (c : Dev nD) : outs m 6 main_v20 c = o6 m c := by
  show Function.update (Gen.V5 m (outsB m) c) main_v20 (o6 m c) main_v20 = _; exact Function.update_self ..
theorem outs_20 (c : Dev nD) : outs m 20 main_v41 c = o20 m c := by
  show Function.update (Gen.V19 m (outsC m) c) main_v41 (o20 m c) main_v41 = _; exact Function.update_self ..

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

-- arrRef is injective, so updating Vi at window o's array changes the value at no other window's array.
theorem exit_vals {p : Fin 4} (hw : Pipeline.WinFacts (cfgs p).spec) {c : Dev nD}
    (dat : Dat τ (Elt F) Unit ℕ (UR sig nD τ) ℕ (cfgs p) c) {Vi Vo : Valuation τ sig (Elt F)}
    (hA : ∀ w, dat.A w = Vi (Pipeline.arrRef (cfgs p).spec w)) (o : Fin (cfgs p).W)
    (hio : ∀ w, w ≠ o → ((cfgs p).win w).isOut = false)
    (hVo : Vo = Function.update Vi (Pipeline.arrRef (cfgs p).spec o) (dat.arrAt o (cfgs p).N)) :
    (∀ w, dat.arrAt w (cfgs p).N = Vo (Pipeline.arrRef (cfgs p).spec w))
      ∧ ∀ b : Ref sig .tc, b ∉ Finset.univ.image (Pipeline.arrRef (cfgs p).spec) → Vo b = Vi b := by
  subst hVo
  refine ⟨fun w => ?_, fun b hb => Function.update_of_ne
    (fun h => hb (Finset.mem_image.mpr ⟨o, Finset.mem_univ _, (Proc.devRef_injective _ h).symm⟩)) _ _⟩
  by_cases h : w = o
  · subst h; exact Eq.symm (Function.update_self ..)
  · exact ((dat.arrAt_in w (hio w h) _).trans (hA w)).trans
      (Eq.symm (Function.update_of_ne (fun e => h (hw.arr_inj (Proc.devRef_injective _ e))) _ _))

def region {p : Fin 4} (lf : Pipeline.LaunchFacts (nD := nD) (τ := τ) cfgs p) (Vi Vo : Dev nD → Valuation τ sig (Elt F))
    (hb : ∀ c, BodyObligation (pdats m p c) (defs₀ (F := F)) 𝒱₀ () Set.univ)
    (hq : ∀ c w, (pdats m p c).q w = fullShare)
    (hA : ∀ c w, (pdats m p c).A w = Vi c (Pipeline.arrRef (cfgs p).spec w))
    (h0 : ∀ c t, (pdats m p c).owed t = 0)
    (hrec : ∀ c t, (pdats m p c).recorded t = Set.univ)
    (hΦi : ∀ c, (Pipeline.ΦA (cfgs p).spec c : sProp 𝕄) ⊢ (pdats m p c).Φ 0)
    (hΦo : ∀ c, (pdats m p c).Φ (Fin.last (cfgs p).N) ⊢ (Pipeline.ΦA (cfgs p).spec c : sProp 𝕄))
    (o : Fin (cfgs p).W) (hio : ∀ w, w ≠ o → ((cfgs p).win w).isOut = false)
    (hVo : ∀ c, Vo c = Function.update (Vi c) (Pipeline.arrRef (cfgs p).spec o) ((pdats m p c).arrAt o (cfgs p).N)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c 0, hrec c 0]
      icases HO with ⟨%W, HO⟩; iexists W; isplitr; · ipureintro; exact fun _ _ => Or.inl trivial
      iexact HO
    isplitl [Hp]; · iexact Hp
    iexact Hrest
  hin c := by
    refine .trans ?_ (hΦi c)
    unfold Pipeline.ΦA
    iintro ⟨Hp, -, Hr⟩
    isplitl [Hr] <;> iassumption
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hx := exit_vals lf.win (pdats m p c) (hA c) o hio (hVo c)
    have hjoin := Pipeline.unscopedBufs_of_arrays (p := p) (pcfgs (F := F)) adm
      lf.win lf.arr_whole c (pdats m) ((pdats m p c).share_full (hq c))
      (fun b => Vi c b) (fun b => Vo c b) ((pdats m p c).arrAt · (cfgs p).N) hx.1 hx.2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c (Fin.last _)]
    icases HO with ⟨%W, -, HO⟩; iexists W; iexact HO

def reg0 := region m launch0 (Gen.V1 m) (Gen.V2 m (outs m)) (body_obligation0 (E0 m)) (q_eq0 (E0 m)) (A_eq0 (E0 m))
  (owed_eq0 (E0 m)) (recorded_eq0 (E0 m)) (hin0 (E0 m)) (hout0 (E0 m)) 4 (by decide)
  fun c => congrArg (Function.update _ _) (outs_2 m c)
def reg1 := region m launch1 (Gen.V3 m (outs m)) (Gen.V4 m (outs m)) (body_obligation1 (E1 m)) (q_eq1 (E1 m)) (A_eq1 (E1 m))
  (owed_eq1 (E1 m)) (recorded_eq1 (E1 m)) (hin1 (E1 m)) (hout1 (E1 m)) 2 (by decide)
  fun c => congrArg (Function.update _ _) (outs_4 m c)
def reg2 := region m launch2 (Gen.V5 m (outs m)) (Gen.V6 m (outs m)) (body_obligation2 (E2 m)) (q_eq2 (E2 m)) (A_eq2 (E2 m))
  (owed_eq2 (E2 m)) (recorded_eq2 (E2 m)) (hin2 (E2 m)) (hout2 (E2 m)) 2 (by decide)
  fun c => congrArg (Function.update _ _) (outs_6 m c)
def reg3 := region m launch3 (Gen.V19 m (outs m)) (Gen.V20 m (outs m)) (body_obligation3 (E3 m)) (q_eq3 (E3 m)) (A_eq3 (E3 m))
  (owed_eq3 (E3 m)) (recorded_eq3 (E3 m)) (hin3 (E3 m)) (hout3 (E3 m)) 11 (by decide)
  fun c => congrArg (Function.update _ _) (outs_20 m c)

set_option maxHeartbeats 1600000 in
theorem run_value : θ_run defs (onTc (τ := τ) (main (F := F))) ⟨m, fun _ => 0, ρ⟩ (fun r => ∀ c : Dev nD,
      r.2.mem ((c.tc : Thread nD τ).loc main_v43) = Gen.V22 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (Gen.segs m (outs m) 𝒱₀ L lv (fun _ => R) () (pdats m) (reg0 m) (reg1 m) (reg2 m) (reg3 m))
    (fun c Q => by rw [main_chain c, Seg.run_eq_chain]; exact .rfl)
    (fun c => by simp only [Gen.segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl); iexact Hu
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V22 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, sep_assoc'⟩)
    (hinit := by
      refine Pipeline.initEach L lv fun c => ?_
      rw [Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (Gen.V22 m (outs m) c) s') $$ [Hh HSI]
  · isplitl [Hh] <;> iassumption
  icases Hr with ⟨%h, HSI⟩
  imodintro
  isplitr
  · ipureintro
    have g := fun (r : Ref sig .tc) (hr : ¬(Proc.devRef .tc r : DevRef τ sig).isScoped) =>
      h (Proc.devRef .tc r) (Finset.mem_filter.mpr ⟨StableHlo.devRef_mem_tcRefs r, hr⟩)
    exact ⟨g main_v43 (by decide), (g main_arg0 (by decide)).trans (Gen.V22_main_arg0 m (outs m) c),
      (g main_arg1 (by decide)).trans (Gen.V22_main_arg1 m (outs m) c), (g main_arg2 (by decide)).trans (Gen.V22_main_arg2 m (outs m) c),
      (g main_arg3 (by decide)).trans (Gen.V22_main_arg3 m (outs m) c), (g main_arg4 (by decide)).trans (Gen.V22_main_arg4 m (outs m) c),
      (g main_arg5 (by decide)).trans (Gen.V22_main_arg5 m (outs m) c), (g main_arg6 (by decide)).trans (Gen.V22_main_arg6 m (outs m) c)⟩
  · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.Spec.lean ====
import Idealize.ShloMosaic.PureOps.Ideal

noncomputable section

namespace Cert.Spec

open scoped BigOperators

variable (x : Fin 8192 → Fin 128 → EReal) (Kt : Fin 2 → Fin 8192 → Fin 8192 → EReal)
  (Lm : Fin 8192 → Fin 8192 → EReal) (tau : EReal) (W : Fin 896 → Fin 64 → EReal) (b : Fin 64 → EReal)
  (nid : Fin 8192 → Fin 8192) (th : EReal → EReal)

def x1 (r : Fin 8192) (d : Fin 128) : EReal := x r d - tau * ∑ q : Fin 8192, Lm r q * x q d

def cnt (q : Fin 8192) : EReal := 0 + ∑ _j ∈ Finset.univ.filter (fun j : Fin 8192 => nid j = q), (1 : EReal)

def S1 (q : Fin 8192) (d : Fin 128) : EReal := cnt nid q * x1 x Lm tau q d

def M1 (kk : Fin 2) (r : Fin 8192) (d : Fin 128) : EReal := ∑ q : Fin 8192, Kt kk r q * S1 x Lm tau nid q d

def C1 (r : Fin 8192) (e : Fin 256) : EReal :=
  if h : e.val < 128 then M1 x Kt Lm tau nid 0 r ⟨e.val, h⟩ else M1 x Kt Lm tau nid 1 r ⟨e.val - 128, by omega⟩

def S2 (q : Fin 8192) (e : Fin 256) : EReal := cnt nid q * C1 x Kt Lm tau nid q e

def M2 (kk : Fin 2) (r : Fin 8192) (e : Fin 256) : EReal := ∑ q : Fin 8192, Kt kk r q * S2 x Kt Lm tau nid q e

def pre (r : Fin 8192) (o : Fin 64) : EReal :=
  ((((∑ d : Fin 128, x1 x Lm tau r d * W ⟨d.val, by omega⟩ o)
      + ∑ d : Fin 128, M1 x Kt Lm tau nid 0 r d * W ⟨128 + d.val, by omega⟩ o)
      + ∑ d : Fin 128, M1 x Kt Lm tau nid 1 r d * W ⟨256 + d.val, by omega⟩ o)
      + ∑ e : Fin 256, M2 x Kt Lm tau nid 0 r e * W ⟨384 + e.val, by omega⟩ o)
      + ∑ e : Fin 256, M2 x Kt Lm tau nid 1 r e * W ⟨640 + e.val, by omega⟩ o

def embO (r : Fin 8192) (o : Fin 64) : EReal := th (pre x Kt Lm tau W nid r o + b o)

def kout (j : Fin 8192) (o : Fin 64) : EReal := embO x Kt Lm tau W b nid th (nid j) o

def xg (j : Fin 8192) (d : Fin 128) : EReal := x1 x Lm tau (nid j) d

def Ks (kk : Fin 2) (j i : Fin 8192) : EReal := Kt kk (nid j) (nid i)

def h1 (j : Fin 8192) (kk : Fin 2) (d : Fin 128) : EReal := ∑ i : Fin 8192, xg x Lm tau nid i d * Ks Kt nid kk j i

def h1r (j : Fin 8192) (e : Fin 256) : EReal :=
  h1 x Kt Lm tau nid j ⟨e.val / 128, by omega⟩ ⟨e.val % 128, Nat.mod_lt _ (by omega)⟩

def h2 (j : Fin 8192) (kk : Fin 2) (e : Fin 256) : EReal := ∑ i : Fin 8192, h1r x Kt Lm tau nid i e * Ks Kt nid kk j i

def h2r (j : Fin 8192) (f : Fin 512) : EReal :=
  h2 x Kt Lm tau nid j ⟨f.val / 256, by omega⟩ ⟨f.val % 256, Nat.mod_lt _ (by omega)⟩

def cat (j : Fin 8192) (c : Fin 896) : EReal :=
  if h : c.val < 128 then xg x Lm tau nid j ⟨c.val, h⟩
  else if h' : c.val < 384 then h1r x Kt Lm tau nid j ⟨c.val - 128, by omega⟩
  else h2r x Kt Lm tau nid j ⟨c.val - 384, by omega⟩

def rout (j : Fin 8192) (o : Fin 64) : EReal := th ((∑ c : Fin 896, cat x Kt Lm tau nid j c * W c o) + b o)

section
variable {x Kt Lm tau W b nid th}

-- Positions are grouped by their node: each node's fibre contributes its size times the term.
theorem hop (g : Fin 8192 → EReal) (kk : Fin 2) (r : Fin 8192) :
    ∑ i : Fin 8192, g (nid i) * Kt kk r (nid i) = ∑ q : Fin 8192, Kt kk r q * (cnt nid q * g q) := by
  rw [← Finset.sum_fiberwise' Finset.univ nid fun q => g q * Kt kk r q]
  refine Finset.sum_congr rfl fun q _ => ?_
  rw [Finset.sum_const, EReal.nsmul_eq_mul, cnt, Finset.sum_const, nsmul_one, zero_add, ← mul_assoc, mul_comm]

theorem h1_eq (j : Fin 8192) (kk : Fin 2) (d : Fin 128) :
    h1 x Kt Lm tau nid j kk d = M1 x Kt Lm tau nid kk (nid j) d :=
  hop (fun q => x1 x Lm tau q d) kk (nid j)

theorem h1r_eq (j : Fin 8192) (e : Fin 256) :
    h1r x Kt Lm tau nid j e = C1 x Kt Lm tau nid (nid j) e := by
  rw [h1r, h1_eq, C1]
  split <;> congr 1 <;> exact Fin.ext (by dsimp only; omega)

theorem h2_eq (j : Fin 8192) (kk : Fin 2) (e : Fin 256) :
    h2 x Kt Lm tau nid j kk e = M2 x Kt Lm tau nid kk (nid j) e := by
  unfold h2
  simp only [h1r_eq]
  exact hop (fun q => C1 x Kt Lm tau nid q e) kk (nid j)

theorem cat_M1 (j : Fin 8192) (c : Fin 896) (kk : Fin 2) (d : Fin 128) (h : c.val = 128 + 128 * kk.val + d.val) :
    cat x Kt Lm tau nid j c = M1 x Kt Lm tau nid kk (nid j) d := by
  rw [cat, dif_neg (show ¬ c.val < 128 by omega), dif_pos (show c.val < 384 by omega), h1r, h1_eq]
  congr 1 <;> exact Fin.ext (by dsimp only; omega)

theorem cat_M2 (j : Fin 8192) (c : Fin 896) (kk : Fin 2) (e : Fin 256) (h : c.val = 384 + 256 * kk.val + e.val) :
    cat x Kt Lm tau nid j c = M2 x Kt Lm tau nid kk (nid j) e := by
  rw [cat, dif_neg (show ¬ c.val < 128 by omega), dif_neg (show ¬ c.val < 384 by omega), h2r, h2_eq]
  congr 1 <;> exact Fin.ext (by dsimp only; omega)

-- The 896 columns split at 128, 256, 384 and 640, and each block is read off by its offset.
theorem sum_cat_eq_pre (j : Fin 8192) (o : Fin 64) :
    ∑ c : Fin 896, cat x Kt Lm tau nid j c * W c o = pre x Kt Lm tau W nid (nid j) o := by
  have s := fun (a b : ℕ) (g : Fin (a + b) → EReal) => Fin.sum_univ_add g
  refine ((s 640 256 _).trans (congrArg (· + _) ((s 384 256 _).trans (congrArg (· + _) ((s 256 128 _).trans
    (congrArg (· + _) (s 128 128 _))))))).trans
    (congrArg₂ (· + ·) (congrArg₂ (· + ·) (congrArg₂ (· + ·) (congrArg₂ (· + ·) ?_ ?_) ?_) ?_) ?_) <;>
    refine Finset.sum_congr rfl fun d _ => congrArg (· * _) ?_
  exacts [dif_pos d.isLt, cat_M1 j _ 0 d rfl, cat_M1 j _ 1 d rfl, cat_M2 j _ 0 d rfl, cat_M2 j _ 1 d rfl]

end

theorem kout_eq_rout (j : Fin 8192) (o : Fin 64) :
    kout x Kt Lm tau W b nid th j o = rout x Kt Lm tau W b nid th j o := by
  rw [kout, rout, embO, sum_cat_eq_pre]

end Cert.Spec

end
-- ==== Proof.SpecCompose.lean ====
import proofs.«429692_j807453851732_2_alg».proof.Proof.Spec

noncomputable section

namespace Cert.Spec

open scoped BigOperators

variable (x : Fin 8192 → Fin 128 → EReal) (Kt : Fin 2 → Fin 8192 → Fin 8192 → EReal)
  (Lm : Fin 8192 → Fin 8192 → EReal) (tau : EReal) (W : Fin 896 → Fin 64 → EReal) (b : Fin 64 → EReal)
  (nid : Fin 8192 → Fin 8192) (th : EReal → EReal)

theorem kout_of_stages
    (xb : Fin 8192 → Fin 128 → EReal) (o2 : Fin 8192 → Fin 128 → EReal)
    (s1 : Fin 8192 → Fin 128 → EReal) (o4 : Fin 2 → Fin 8192 → Fin 128 → EReal)
    (s2 : Fin 8192 → Fin 256 → EReal) (o6 : Fin 2 → Fin 8192 → Fin 256 → EReal)
    (w0 w1 w2 : Fin 128 → Fin 128 → EReal) (w3 w4 : Fin 256 → Fin 128 → EReal)
    (bp : Fin 128 → EReal) (o20 : Fin 8192 → Fin 128 → EReal) (out : Fin 8192 → Fin 64 → EReal)
    (hxb : ∀ q d, xb q d = x q d)
    (ho2 : ∀ r d, o2 r d = x r d - tau * ∑ q : Fin 8192, Lm r q * xb q d)
    (hs1 : ∀ q d, s1 q d = cnt nid q * o2 q d)
    (ho4 : ∀ kk r d, o4 kk r d = ∑ q : Fin 8192, Kt kk r q * s1 q d)
    (hs2 : ∀ q (e : Fin 256), s2 q e = cnt nid q *
      (if h : e.val < 128 then o4 0 q ⟨e.val, h⟩ else o4 1 q ⟨e.val - 128, by omega⟩))
    (ho6 : ∀ kk r e, o6 kk r e = ∑ q : Fin 8192, Kt kk r q * s2 q e)
    (hw0 : ∀ (d : Fin 128) (o' : Fin 128), w0 d o' =
      if h : o'.val < 64 then W ⟨d.val, by omega⟩ ⟨o'.val, h⟩ else 0)
    (hw1 : ∀ (d : Fin 128) (o' : Fin 128), w1 d o' =
      if h : o'.val < 64 then W ⟨128 + d.val, by omega⟩ ⟨o'.val, h⟩ else 0)
    (hw2 : ∀ (d : Fin 128) (o' : Fin 128), w2 d o' =
      if h : o'.val < 64 then W ⟨256 + d.val, by omega⟩ ⟨o'.val, h⟩ else 0)
    (hw3 : ∀ (e : Fin 256) (o' : Fin 128), w3 e o' =
      if h : o'.val < 64 then W ⟨384 + e.val, by omega⟩ ⟨o'.val, h⟩ else 0)
    (hw4 : ∀ (e : Fin 256) (o' : Fin 128), w4 e o' =
      if h : o'.val < 64 then W ⟨640 + e.val, by omega⟩ ⟨o'.val, h⟩ else 0)
    (hbp : ∀ o' : Fin 128, bp o' = if h : o'.val < 64 then b ⟨o'.val, h⟩ else 0)
    (ho20 : ∀ r (o' : Fin 128), o20 r o' =
      th ((((((∑ d : Fin 128, o2 r d * w0 d o') + ∑ d : Fin 128, o4 0 r d * w1 d o')
        + ∑ d : Fin 128, o4 1 r d * w2 d o') + ∑ e : Fin 256, o6 0 r e * w3 e o')
        + ∑ e : Fin 256, o6 1 r e * w4 e o') + bp o'))
    (hout : ∀ j (o : Fin 64), out j o = o20 (nid j) ⟨o.val, by omega⟩) :
    ∀ j o, out j o = kout x Kt Lm tau W b nid th j o := by
  have e2 : ∀ r d, o2 r d = x1 x Lm tau r d := fun r d => by
    rw [ho2, x1]; simp only [hxb]
  have e4 : ∀ kk r d, o4 kk r d = M1 x Kt Lm tau nid kk r d := fun kk r d => by
    rw [ho4, M1]; simp only [hs1, e2, S1]
  have e6 : ∀ kk r e, o6 kk r e = M2 x Kt Lm tau nid kk r e := fun kk r e => by
    rw [ho6, M2]; simp only [hs2, e4, S2, C1]
  intro j o
  rw [hout, ho20, kout, embO, pre]
  simp only [hw0, hw1, hw2, hw3, hw4, hbp, e2, e4, e6, Fin.is_lt, ↓reduceDIte, Fin.eta]

end Cert.Spec

end
-- ==== Proof.SpecArgs.lean ====
import proofs.«429692_j807453851732_2_alg».proof.Proof.Spec
import Idealize.ShloMosaic.Lib.ValueIdx

noncomputable section

namespace Cert.Spec

open Idealize.ShloMosaic Idealize.ShloMosaic.ValueIdx

abbrev Sx : Shape := ⟨2, ![8192, 128]⟩
abbrev SK : Shape := ⟨3, ![2, 8192, 8192]⟩
abbrev SL : Shape := ⟨2, ![8192, 8192]⟩
abbrev Stau : Shape := ⟨1, ![1]⟩
abbrev SW : Shape := ⟨2, ![896, 64]⟩
abbrev Sb : Shape := ⟨1, ![64]⟩
abbrev Sn : Shape := ⟨1, ![8192]⟩
abbrev Sout : Shape := ⟨2, ![8192, 64]⟩

def nidOf (a6 : IVec Sn 32) (j : Fin 8192) : Fin 8192 :=
  ⟨min (a6 (ix1 j)).toInt.toNat 8191, by omega⟩

theorem nidOf_val (a6 : IVec Sn 32) (j : Fin 8192) (h0 : 0 ≤ (a6 (ix1 j)).toInt) (h1 : (a6 (ix1 j)).toInt < 8192) :
    ((nidOf a6 j).val : Int) = (a6 (ix1 j)).toInt := by
  unfold nidOf
  simp only
  omega

variable (a0 : FVec Ideal Sx .f32) (a1 : FVec Ideal SK .f32) (a2 : FVec Ideal SL .f32) (a3 : FVec Ideal Stau .f32)
  (a4 : FVec Ideal SW .f32) (a5 : FVec Ideal Sb .f32) (a6 : IVec Sn 32)

def koutOf : FVec Ideal Sout .f32 := fun i =>
  kout (fun r d => a0 (ix2 r d)) (fun kk r q => a1 (ix3 kk r q)) (fun r q => a2 (ix2 r q)) (a3 (ix1 0))
    (fun c o => a4 (ix2 c o)) (fun o => a5 (ix1 o)) (nidOf a6) Ideal.tanh (i 0) (i 1)

def routOf : FVec Ideal Sout .f32 := fun i =>
  rout (fun r d => a0 (ix2 r d)) (fun kk r q => a1 (ix3 kk r q)) (fun r q => a2 (ix2 r q)) (a3 (ix1 0))
    (fun c o => a4 (ix2 c o)) (fun o => a5 (ix1 o)) (nidOf a6) Ideal.tanh (i 0) (i 1)

theorem koutOf_eq_routOf : koutOf a0 a1 a2 a3 a4 a5 a6 = routOf a0 a1 a2 a3 a4 a5 a6 :=
  funext fun i => kout_eq_rout _ _ _ _ _ _ _ _ (i 0) (i 1)

end Cert.Spec

end
-- ==== Proof.KI.Final.lean ====
import proofs.«429692_j807453851732_2_alg».proof.Proof.KI.Assembly
import proofs.«429692_j807453851732_2_alg».proof.Proof.SpecCompose
import proofs.«429692_j807453851732_2_alg».proof.Proof.SpecArgs
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.ValueIdx
open scoped BigOperators

abbrev rd {s : Shape} (x : s.Idx → EReal) (i : s.Idx) : EReal := x i

-- The stage equations, substituted one into the next, give the kernel side of the claim.
theorem kernel_value (m : (ℓ : Loc nD τ sig) → Buf (Elt Ideal) ℓ) (c : Dev nD)
    (RV0 : ∀ (V : (c : Dev nD) → (b : Ref sig .tc) → Buf (Elt Ideal) ((c : Thread nD τ).loc b)) (r : Fin 8192) (d : Fin 128),
      rd ((dat0 V c).arrAt 4 cfg0.N) (ix2 r d)
        = rd (V c main_arg0) (ix2 r d) - rd (V c main_v1) (ix2 (0 : Fin 1) (0 : Fin 1))
          * ∑ q : Fin 8192, rd (V c main_arg2) (ix2 r q) * rd (V c main_v0) (ix2 q d))
    (RV1 : ∀ (V : (c : Dev nD) → (b : Ref sig .tc) → Buf (Elt Ideal) ((c : Thread nD τ).loc b)) (kk : Fin 2) (r : Fin 8192) (d : Fin 128),
      rd ((dat1 V c).arrAt 2 cfg1.N) (ix3 kk r d) = ∑ q : Fin 8192, rd (V c main_arg1) (ix3 kk r q) * rd (V c main_v10) (ix2 q d))
    (RV2 : ∀ (V : (c : Dev nD) → (b : Ref sig .tc) → Buf (Elt Ideal) ((c : Thread nD τ).loc b)) (kk : Fin 2) (r : Fin 8192) (e : Fin 256),
      rd ((dat2 V c).arrAt 2 cfg2.N) (ix3 kk r e) = ∑ q : Fin 8192, rd (V c main_arg1) (ix3 kk r q) * rd (V c main_v19) (ix2 q e))
    (RV3 : ∀ (V : (c : Dev nD) → (b : Ref sig .tc) → Buf (Elt Ideal) ((c : Thread nD τ).loc b)) (r : Fin 8192) (o' : Fin 128),
      rd ((dat3 V c).arrAt 11 cfg3.N) (ix2 r o')
        = Ideal.tanh ((((((∑ d : Fin 128, rd (V c main_v2) (ix2 r d) * rd (V c main_v34) (ix2 d o'))
            + ∑ d : Fin 128, rd (V c main_v22) (ix2 r d) * rd (V c main_v35) (ix2 d o'))
            + ∑ d : Fin 128, rd (V c main_v24) (ix2 r d) * rd (V c main_v36) (ix2 d o'))
            + ∑ e : Fin 256, rd (V c main_v26) (ix2 r e) * rd (V c main_v37) (ix2 e o'))
            + ∑ e : Fin 256, rd (V c main_v28) (ix2 r e) * rd (V c main_v38) (ix2 e o'))
            + rd (V c main_v40) (ix2 (0 : Fin 1) o')))
    (A1 : ∀ (r : Fin 8192) (d : Fin 128), Gen.V1 m c main_v0 (ix2 r d) = m ((c.tc : Thread nD τ).loc main_arg0) (ix2 r d))
    (A2 : Gen.V1 m c main_v1 (ix2 (0 : Fin 1) (0 : Fin 1)) = m ((c.tc : Thread nD τ).loc main_arg3) (ix1 (0 : Fin 1)))
    (A3a : Gen.V1 m c main_arg2 = m ((c.tc : Thread nD τ).loc main_arg2))
    (A3b : Gen.V1 m c main_arg0 = m ((c.tc : Thread nD τ).loc main_arg0))
    (A4 : ∀ (os : Gen.Outs (F := Ideal)) (q : Fin 8192) (d : Fin 128),
      Gen.V3 m os c main_v10 (ix2 q d) = Cert.Spec.cnt (Cert.Spec.nidOf (m ((c.tc : Thread nD τ).loc main_arg6))) q * (os 2 main_v2 c) (ix2 q d))
    (A5 : ∀ (os : Gen.Outs (F := Ideal)), Gen.V3 m os c main_arg1 = m ((c.tc : Thread nD τ).loc main_arg1))
    (A6 : ∀ (os : Gen.Outs (F := Ideal)) (q : Fin 8192) (e : Fin 256),
      Gen.V5 m os c main_v19 (ix2 q e)
        = Cert.Spec.cnt (Cert.Spec.nidOf (m ((c.tc : Thread nD τ).loc main_arg6))) q
          * (if h : e.val < 128 then (os 4 main_v11 c) (ix3 0 q ⟨e.val, h⟩)
             else (os 4 main_v11 c) (ix3 1 q ⟨e.val - 128, by omega⟩)))
    (A7 : ∀ (os : Gen.Outs (F := Ideal)), Gen.V5 m os c main_arg1 = m ((c.tc : Thread nD τ).loc main_arg1))
    (B1a : ∀ (os : Gen.Outs (F := Ideal)), Gen.V19 m os c main_v2 = os 2 main_v2 c)
    (B1b : ∀ (os : Gen.Outs (F := Ideal)) (r : Fin 8192) (d : Fin 128),
      Gen.V19 m os c main_v22 (ix2 r d) = (os 4 main_v11 c) (ix3 0 r d))
    (B1c : ∀ (os : Gen.Outs (F := Ideal)) (r : Fin 8192) (d : Fin 128),
      Gen.V19 m os c main_v24 (ix2 r d) = (os 4 main_v11 c) (ix3 1 r d))
    (B1d : ∀ (os : Gen.Outs (F := Ideal)) (r : Fin 8192) (e : Fin 256),
      Gen.V19 m os c main_v26 (ix2 r e) = (os 6 main_v20 c) (ix3 0 r e))
    (B1e : ∀ (os : Gen.Outs (F := Ideal)) (r : Fin 8192) (e : Fin 256),
      Gen.V19 m os c main_v28 (ix2 r e) = (os 6 main_v20 c) (ix3 1 r e))
    (B2a : ∀ (os : Gen.Outs (F := Ideal)) (d : Fin 128) (o' : Fin 128),
      Gen.V19 m os c main_v34 (ix2 d o')
        = if h : o'.val < 64 then rd (m ((c.tc : Thread nD τ).loc main_arg4)) (ix2 ⟨d.val, by omega⟩ ⟨o'.val, h⟩) else 0)
    (B2b : ∀ (os : Gen.Outs (F := Ideal)) (d : Fin 128) (o' : Fin 128),
      Gen.V19 m os c main_v35 (ix2 d o')
        = if h : o'.val < 64 then rd (m ((c.tc : Thread nD τ).loc main_arg4)) (ix2 ⟨128 + d.val, by omega⟩ ⟨o'.val, h⟩) else 0)
    (B2c : ∀ (os : Gen.Outs (F := Ideal)) (d : Fin 128) (o' : Fin 128),
      Gen.V19 m os c main_v36 (ix2 d o')
        = if h : o'.val < 64 then rd (m ((c.tc : Thread nD τ).loc main_arg4)) (ix2 ⟨256 + d.val, by omega⟩ ⟨o'.val, h⟩) else 0)
    (B2d : ∀ (os : Gen.Outs (F := Ideal)) (e : Fin 256) (o' : Fin 128),
      Gen.V19 m os c main_v37 (ix2 e o')
        = if h : o'.val < 64 then rd (m ((c.tc : Thread nD τ).loc main_arg4)) (ix2 ⟨384 + e.val, by omega⟩ ⟨o'.val, h⟩) else 0)
    (B2e : ∀ (os : Gen.Outs (F := Ideal)) (e : Fin 256) (o' : Fin 128),
      Gen.V19 m os c main_v38 (ix2 e o')
        = if h : o'.val < 64 then rd (m ((c.tc : Thread nD τ).loc main_arg4)) (ix2 ⟨640 + e.val, by omega⟩ ⟨o'.val, h⟩) else 0)
    (B3 : ∀ (os : Gen.Outs (F := Ideal)) (o' : Fin 128),
      Gen.V19 m os c main_v40 (ix2 (0 : Fin 1) o')
        = if h : o'.val < 64 then rd (m ((c.tc : Thread nD τ).loc main_arg5)) (ix1 ⟨o'.val, h⟩) else 0)
    (B4 : ∀ (os : Gen.Outs (F := Ideal)) (j : Fin 8192) (o : Fin 64),
      Gen.V22 m os c main_v43 (ix2 j o) = (os 20 main_v41 c) (ix2 ((Cert.Spec.nidOf (m ((c.tc : Thread nD τ).loc main_arg6))) j) ⟨o.val, by omega⟩)) :
    Gen.V22 m (outs m) c main_v43
      = Cert.Spec.koutOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext i
  obtain ⟨j, o, rfl⟩ : ∃ j o, i = ix2 j o := ⟨i 0, i 1, eq_ix2 i⟩
  have eA : outsA m 2 main_v2 c = o2 m c := by
    show Function.update (Gen.V1 m c) main_v2 (o2 m c) main_v2 = _; exact Function.update_self ..
  have eB : outsB m 4 main_v11 c = o4 m c := by
    show Function.update (Gen.V3 m (outsA m) c) main_v11 (o4 m c) main_v11 = _; exact Function.update_self ..
  have e2 : outsC m 2 main_v2 c = o2 m c := eA
  have e4 : outsC m 4 main_v11 c = o4 m c := eB
  have e6 : outsC m 6 main_v20 c = o6 m c := by
    show Function.update (Gen.V5 m (outsB m) c) main_v20 (o6 m c) main_v20 = _; exact Function.update_self ..
  exact Cert.Spec.kout_of_stages
    (fun r d => (m ((c.tc : Thread nD τ).loc main_arg0)) (ix2 r d))
    (fun kk r q => (m ((c.tc : Thread nD τ).loc main_arg1)) (ix3 kk r q))
    (fun r q => (m ((c.tc : Thread nD τ).loc main_arg2)) (ix2 r q))
    ((m ((c.tc : Thread nD τ).loc main_arg3)) (ix1 (0 : Fin 1)))
    (fun c' o => (m ((c.tc : Thread nD τ).loc main_arg4)) (ix2 c' o))
    (fun o => (m ((c.tc : Thread nD τ).loc main_arg5)) (ix1 o))
    (Cert.Spec.nidOf (m ((c.tc : Thread nD τ).loc main_arg6))) Ideal.tanh
    (fun q d => Gen.V1 m c main_v0 (ix2 q d))
    (fun r d => o2 m c (ix2 r d))
    (fun q d => Gen.V3 m (outsA m) c main_v10 (ix2 q d))
    (fun kk r d => o4 m c (ix3 kk r d))
    (fun q e => Gen.V5 m (outsB m) c main_v19 (ix2 q e))
    (fun kk r e => o6 m c (ix3 kk r e))
    (fun d o' => Gen.V19 m (outsC m) c main_v34 (ix2 d o'))
    (fun d o' => Gen.V19 m (outsC m) c main_v35 (ix2 d o'))
    (fun d o' => Gen.V19 m (outsC m) c main_v36 (ix2 d o'))
    (fun e o' => Gen.V19 m (outsC m) c main_v37 (ix2 e o'))
    (fun e o' => Gen.V19 m (outsC m) c main_v38 (ix2 e o'))
    (fun o' => Gen.V19 m (outsC m) c main_v40 (ix2 (0 : Fin 1) o'))
    (fun r o' => o20 m c (ix2 r o'))
    (fun j o => Gen.V22 m (outs m) c main_v43 (ix2 j o))
    A1
    (fun r d => by
      have h := RV0 (E0 m) r d
      dsimp only [rd, E0] at h ⊢
      rw [A3b, A2, A3a] at h
      exact h)
    (fun q d => by
      rw [A4 (outsA m) q d, eA])
    (fun kk r d => by
      have h := RV1 (E1 m) kk r d
      dsimp only [rd, E1] at h ⊢
      rw [A5 (outsA m)] at h
      exact h)
    (fun q e => by
      rw [A6 (outsB m) q e, eB])
    (fun kk r e => by
      have h := RV2 (E2 m) kk r e
      dsimp only [rd, E2] at h ⊢
      rw [A7 (outsB m)] at h
      exact h)
    (B2a (outsC m)) (B2b (outsC m)) (B2c (outsC m)) (B2d (outsC m)) (B2e (outsC m)) (B3 (outsC m))
    (fun r o' => by
      have h := RV3 (E3 m) r o'
      dsimp only [rd, E3] at h ⊢
      rw [B1a (outsC m), e2] at h
      simp only [B1b (outsC m), B1c (outsC m), B1d (outsC m), B1e (outsC m), e4, e6] at h
      exact h)
    (fun j o => by
      rw [B4 (outs m) j o, outs_20])
    j o

end Cert.KernelIdeal.Hand

end
-- ==== Proof.KI.HostA.lean ====
import proofs.«429692_j807453851732_2_alg».proof.Proof.Gen.KernelIdeal.Regions
import proofs.«429692_j807453851732_2_alg».proof.Proof.SpecArgs
import Idealize.ShloMosaic.Lib.StableHlo.Run
import Idealize.ShloMosaic.Lib.ValueLayout
import Idealize.ShloMosaic.Lib.IdealHost

noncomputable section

namespace Cert.KernelIdeal.HostValue

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD)

theorem v0_eq (r : Fin 8192) (d : Fin 128) :
    V1 m c main_v0 (ix2 r d) = m ((c.tc : Thread nD τ).loc main_arg0) (ix2 r d) := by
  dsimp only [V1]
  after_results
  rfl

theorem v1_eq :
    V1 m c main_v1 (ix2 0 0) = m ((c.tc : Thread nD τ).loc main_arg3) (ix1 0) := by
  dsimp only [V1]
  after_results
  show shapeCast S1x1 (m ((c.tc : Thread nD τ).loc main_arg3)) shapeCasts_S1_S1x1 (ix2 0 0) = _
  refine shapeCast_apply (s := S1) (t := S1x1) _ _ _ (ix1 0) ?_
  rw [Shape.rowMajor_val_one, Shape.rowMajor_val_two]
  rfl

theorem arg_keep1 : V1 m c main_arg2 = m ((c.tc : Thread nD τ).loc main_arg2)
    ∧ V1 m c main_arg0 = m ((c.tc : Thread nD τ).loc main_arg0) :=
  ⟨V1_of m c _ (by decide), V1_of m c _ (by decide)⟩

namespace HostA

abbrev D := scatter_S8192_S8192x1_S8192_n_0_0_1

theorem idx1_lt {n : Nat} (j : (⟨1, ![n]⟩ : Shape).Idx) : (j 0).val < n := (j 0).isLt

def co {n : Nat} (j : (⟨1, ![n]⟩ : Shape).Idx) : Fin n := ⟨(j 0).val, idx1_lt j⟩

theorem ix1_co {n : Nat} (j : (⟨1, ![n]⟩ : Shape).Idx) : ix1 (co j) = j := by
  funext d; match d with | ⟨0, _⟩ => rfl

theorem co_ix1 {n : Nat} (a : Fin n) : co (ix1 a) = a := rfl

theorem window_zero (j : S8192.Idx) (a : Fin 1) : D.window j a = 0 := by
  rw [ScatterDims.window, dif_neg]
  revert a; decide

theorem start_eq {w : Nat} (j : S8192.Idx) (idx : IVec S8192x1 w) (a : Fin 1) :
    D.start j idx a = (idx (ix2 (co j) 0)).toInt := by
  have h0 : a = 0 := Subsingleton.elim _ _
  subst h0
  have ha : (0 : Fin 1) ∈ D.scatterDimsToOperandDims := by
    show (0 : Fin 1) ∈ ([0] : List (Fin 1)); decide
  unfold ScatterDims.start
  rw [dif_pos ha]
  congr 2
  funext b
  match b with
  | ⟨0, _⟩ => rfl
  | ⟨1, _⟩ => rfl

theorem resultIdx_iff {w : Nat} (idx : IVec S8192x1 w) (j : S8192.Idx) (q : Fin 8192) :
    D.resultIdx? j idx = some (ix1 q) ↔ (idx (ix2 (co j) 0)).toInt = (q.val : Int) := by
  unfold ScatterDims.resultIdx?
  split
  · rename_i h
    have h0 := h 0
    rw [start_eq, window_zero] at h0
    rw [Option.some.injEq]
    constructor
    · intro e
      have e1 : (D.start j idx 0 + (D.window j 0 : Nat)).toNat = q.val := congrArg Fin.val (congrFun e 0)
      rw [start_eq, window_zero] at e1
      omega
    · intro e
      funext a
      have ha : a = 0 := Subsingleton.elim _ _
      subst ha
      apply Fin.ext
      show (D.start j idx 0 + (D.window j 0 : Nat)).toNat = q.val
      rw [start_eq, window_zero, e]
      omega
  · rename_i h
    constructor
    · intro e; cases e
    · intro e
      exfalso; apply h
      intro a
      have ha : a = 0 := Subsingleton.elim _ _
      subst ha
      rw [start_eq, window_zero, e]
      have hq := q.isLt
      have hs : S8192.size 0 = 8192 := rfl
      rw [hs]
      constructor <;> omega

-- Adding one at row q for every position whose id is q counts the positions that name q.
theorem scatter_cnt (a6 : IVec Cert.Spec.Sn 32)
    (hr : ∀ j : Fin 8192, 0 ≤ (a6 (ix1 j)).toInt ∧ (a6 (ix1 j)).toInt < 8192)
    (x : S8192.Idx → EReal) (idx : IVec S8192x1 32) (upd : S8192.Idx → EReal)
    (hx : ∀ i, x i = 0) (hidx : ∀ j : Fin 8192, idx (ix2 j 0) = a6 (ix1 j)) (hupd : ∀ j, upd j = 1) (q : Fin 8192) :
    Ideal.hostScatterAdd D x idx upd (ix1 q) = Cert.Spec.cnt (Cert.Spec.nidOf a6) q := by
  unfold Ideal.hostScatterAdd Cert.Spec.cnt
  rw [hx]
  congr 1
  refine Finset.sum_nbij' (fun j => co j) (fun j => ix1 j) ?_ ?_ ?_ ?_ ?_
  · intro j hj
    simp only [Finset.mem_filter, Finset.mem_univ, true_and] at hj ⊢
    have h1 := (resultIdx_iff idx j q).1 hj
    rw [hidx] at h1
    apply Fin.ext
    have h2 := Cert.Spec.nidOf_val a6 (co j) (hr _).1 (hr _).2
    omega
  · intro j hj
    simp only [Finset.mem_filter, Finset.mem_univ, true_and] at hj ⊢
    apply (resultIdx_iff idx (ix1 j) q).2
    rw [co_ix1, hidx]
    have h2 := Cert.Spec.nidOf_val a6 j (hr _).1 (hr _).2
    rw [← h2, hj]
  · intro j _; exact ix1_co j
  · intro j _; rfl
  · intro j _; exact hupd j

theorem cntcol_eq (a6 : IVec Cert.Spec.Sn 32)
    (hr : ∀ j : Fin 8192, 0 ≤ (a6 (ix1 j)).toInt ∧ (a6 (ix1 j)).toInt < 8192) (q : Fin 8192) :
    shapeCast S8192x1
        (Host.scatterAdd (F := Ideal) scatter_S8192_S8192x1_S8192_n_0_0_1
          (broadcastInDim S8192 ![] bcast_S_S8192 (constant (F := Ideal) S_ .f32 0x00000000#32))
          (broadcastInDim S8192x1 ![0] bcast_S8192_S8192x1_0 a6)
          (broadcastInDim S8192 ![] bcast_S_S8192 (constant (F := Ideal) S_ .f32 0x3F800000#32)))
        shapeCasts_S8192_S8192x1 (ix2 q 0)
      = Cert.Spec.cnt (Cert.Spec.nidOf a6) q := by
  refine (shapeCast_apply (s := S8192) (t := S8192x1) _ _ (ix2 q 0) (ix1 q) ?_).trans ?_
  · rw [Shape.rowMajor_val_one, Shape.rowMajor_val_two]
    show q.val = q.val * 1 + 0
    omega
  refine scatter_cnt a6 hr _ _ _ (fun i => Ideal.ofBits_zero_f32) (fun j => ?_) (fun j => Ideal.ofBits_one_f32) q
  exact broadcastInDim_apply (s := S8192) (t := S8192x1) _ _ _ (ix2 j 0) (ix1 j)
    (fun a => match a with | ⟨0, _⟩ => rfl)

theorem V2_arg6 : V2 m outs c main_arg6 = m ((c.tc : Thread nD τ).loc main_arg6) :=
  (V2_of m outs c _ (by decide)).trans (V1_of m c _ (by decide))

theorem v7_eq
    (hr : ∀ j : Fin 8192, 0 ≤ ((m ((c.tc : Thread nD τ).loc main_arg6)) (ix1 j)).toInt
      ∧ ((m ((c.tc : Thread nD τ).loc main_arg6)) (ix1 j)).toInt < 8192)
    (q : Fin 8192) :
    V3 m outs c main_v7 (ix2 q 0) = Cert.Spec.cnt (Cert.Spec.nidOf (m ((c.tc : Thread nD τ).loc main_arg6))) q := by
  dsimp only [V3]
  after_results
  rw [V2_arg6]
  exact cntcol_eq _ hr q

-- Slab kk of a stack of two matrices, read as a matrix.
theorem half_eq {n : Nat} (kk : Fin 2) (X : (⟨3, ![2, 8192, n]⟩ : Shape).Idx → EReal)
    (hs : (⟨3, ![2, 8192, n]⟩ : Shape).Slices ![kk.val, 0, 0] ⟨3, ![1, 8192, n]⟩)
    (hc : (⟨3, ![1, 8192, n]⟩ : Shape).ShapeCasts ⟨2, ![8192, n]⟩) (q : Fin 8192) (d : Fin n) :
    shapeCast ⟨2, ![8192, n]⟩ (extractStridedSlice ⟨3, ![1, 8192, n]⟩ ![kk.val, 0, 0] X hs) hc (ix2 q d)
      = X (ix3 kk q d) := by
  rw [shapeCast_1ab_ab_apply]
  refine extractStridedSlice_apply _ _ _ _ _ fun ax => ?_
  match ax with
  | ⟨0, _⟩ => exact (Nat.add_zero _).symm
  | ⟨1, _⟩ => exact (Nat.zero_add _).symm
  | ⟨2, _⟩ => exact (Nat.zero_add _).symm

theorem col_bcast {k : Nat} (h : S8192x1.BroadcastsInDim ⟨2, ![8192, k]⟩ ![0, 1]) (v : S8192x1.Idx → EReal)
    (q : Fin 8192) (e : Fin k) : broadcastInDim ⟨2, ![8192, k]⟩ ![0, 1] h v (ix2 q e) = v (ix2 q 0) :=
  broadcastInDim_apply _ _ _ _ _ fun a => match a with
    | ⟨0, _⟩ => rfl
    | ⟨1, _⟩ => rfl

end HostA

open HostA

theorem v10_eq
    (hr : ∀ j : Fin 8192, 0 ≤ ((m ((c.tc : Thread nD τ).loc main_arg6)) (ix1 j)).toInt
      ∧ ((m ((c.tc : Thread nD τ).loc main_arg6)) (ix1 j)).toInt < 8192)
    (q : Fin 8192) (d : Fin 128) :
    V3 m outs c main_v10 (ix2 q d)
      = Cert.Spec.cnt (Cert.Spec.nidOf (m ((c.tc : Thread nD τ).loc main_arg6))) q * (outs 2 main_v2 c) (ix2 q d) := by
  dsimp only [V3]
  after_results
  rw [V2_arg6, show V2 m outs c main_v2 = outs 2 main_v2 c from Function.update_self .., truncf_apply, mulf_apply]
  congr 1
  exact (col_bcast _ _ q d).trans (cntcol_eq _ hr q)

theorem keep3 : V3 m outs c main_arg1 = m ((c.tc : Thread nD τ).loc main_arg1) :=
  (V3_of m outs c _ (by decide)).trans <| (V2_of m outs c _ (by decide)).trans <| V1_of m c _ (by decide)

theorem v19_eq
    (hr : ∀ j : Fin 8192, 0 ≤ ((m ((c.tc : Thread nD τ).loc main_arg6)) (ix1 j)).toInt
      ∧ ((m ((c.tc : Thread nD τ).loc main_arg6)) (ix1 j)).toInt < 8192)
    (q : Fin 8192) (e : Fin 256) :
    V5 m outs c main_v19 (ix2 q e)
      = Cert.Spec.cnt (Cert.Spec.nidOf (m ((c.tc : Thread nD τ).loc main_arg6))) q
        * (if h : e.val < 128 then (outs 4 main_v11 c) (ix3 0 q ⟨e.val, h⟩)
           else (outs 4 main_v11 c) (ix3 1 q ⟨e.val - 128, by omega⟩)) := by
  dsimp only [V5]
  after_results
  rw [V4_of m outs c main_v7 (by decide), show V4 m outs c main_v11 = outs 4 main_v11 c from Function.update_self ..,
    truncf_apply, mulf_apply]
  refine congrArg₂ (fun a b : EReal => a * b) ((col_bcast _ _ q e).trans (v7_eq m outs c hr q)) ?_
  by_cases h : e.val < 128
  · rw [dif_pos h]
    refine (concatenate_pair_apply_left (t := S8192x256) (s₁ := S8192x128) (s₂ := S8192x128) 1 _ _ _ (ix2 q e) rfl
      (ix2 q ⟨e.val, h⟩) fun b => ?_).trans ?_
    · match b with
      | ⟨0, _⟩ => rfl
      | ⟨1, _⟩ => rfl
    exact half_eq 0 _ _ _ q _
  · rw [dif_neg h]
    refine (concatenate_pair_apply_right (t := S8192x256) (s₁ := S8192x128) (s₂ := S8192x128) 1 _ _ _ (ix2 q e) rfl rfl
      (ix2 q ⟨e.val - 128, by omega⟩) (fun b hb => ?_) ?_).trans ?_
    · match b, hb with
      | ⟨0, _⟩, _ => rfl
      | ⟨1, _⟩, hb => exact absurd rfl hb
    · show (e.val - 128) + 128 = e.val
      omega
    exact half_eq 1 _ _ _ q _

theorem keep5 : V5 m outs c main_arg1 = m ((c.tc : Thread nD τ).loc main_arg1) :=
  (V5_of m outs c _ (by decide)).trans <| (V4_of m outs c _ (by decide)).trans <| keep3 m outs c

end Cert.KernelIdeal.HostValue

end
-- ==== Proof.KI.HostB.lean ====
import proofs.«429692_j807453851732_2_alg».proof.Proof.KI.HostA
import Idealize.ShloMosaic.Lib.KernelVsHost

noncomputable section

namespace Cert.KernelIdeal.HostValue

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal)) (c : Dev nD)

theorem V6_v11 : V6 m outs c main_v11 = outs 4 main_v11 c :=
  (V6_of m outs c _ (by decide)).trans <| (V5_of m outs c _ (by decide)).trans <| Function.update_self ..

theorem V6_arg (r : Ref sig .tc) (h : r = main_arg4 ∨ r = main_arg5) : V6 m outs c r = m ((c : Thread nD τ).loc r) := by
  rcases h with rfl | rfl <;>
  exact (V6_of m outs c _ (by decide)).trans <| (V5_of m outs c _ (by decide)).trans <|
    (V4_of m outs c _ (by decide)).trans <| (V3_of m outs c _ (by decide)).trans <|
    (V2_of m outs c _ (by decide)).trans <| V1_of m c _ (by decide)

theorem v2_eq : V19 m outs c main_v2 = outs 2 main_v2 c := by
  dsimp only [V19]
  after_results
  exact (V6_of m outs c _ (by decide)).trans <| (V5_of m outs c _ (by decide)).trans <|
    (V4_of m outs c _ (by decide)).trans <| (V3_of m outs c _ (by decide)).trans <| Function.update_self ..

theorem v22_eq (r : Fin 8192) (d : Fin 128) :
    (V19 m outs c main_v22 : S8192x128.Idx → EReal) (ix2 r d)
      = (outs 4 main_v11 c : S2x8192x128.Idx → EReal) (ix3 0 r d) := by
  dsimp only [V19]
  after_results
  rw [V6_v11]
  exact HostA.half_eq 0 _ _ _ r d

theorem v24_eq (r : Fin 8192) (d : Fin 128) :
    (V19 m outs c main_v24 : S8192x128.Idx → EReal) (ix2 r d)
      = (outs 4 main_v11 c : S2x8192x128.Idx → EReal) (ix3 1 r d) := by
  dsimp only [V19]
  after_results
  rw [V6_v11]
  exact HostA.half_eq 1 _ _ _ r d

theorem v26_eq (r : Fin 8192) (e : Fin 256) :
    (V19 m outs c main_v26 : S8192x256.Idx → EReal) (ix2 r e)
      = (outs 6 main_v20 c : S2x8192x256.Idx → EReal) (ix3 0 r e) := by
  dsimp only [V19]
  after_results
  rw [show V6 m outs c main_v20 = outs 6 main_v20 c from Function.update_self ..]
  exact HostA.half_eq 0 _ _ _ r e

theorem v28_eq (r : Fin 8192) (e : Fin 256) :
    (V19 m outs c main_v28 : S8192x256.Idx → EReal) (ix2 r e)
      = (outs 6 main_v20 c : S2x8192x256.Idx → EReal) (ix3 1 r e) := by
  dsimp only [V19]
  after_results
  rw [show V6 m outs c main_v20 = outs 6 main_v20 c from Function.update_self ..]
  exact HostA.half_eq 1 _ _ _ r e

theorem padValue_eq (i : S_.Idx) : (sitofp (F := Ideal) .f32 (constantI S_ 32 0#32) : FVec Ideal S_ .f32) i = 0 := by
  show (((0#32 : BitVec 32).toInt : ℝ) : EReal) = 0
  rw [BitVec.toInt_zero, Int.cast_zero, EReal.coe_zero]

-- Below column 64 the padded block holds the weight rows from off on; from column 64 on it is zero.
theorem padded_block_apply {n : Nat} (off : Nat) (W : S896x64.Idx → EReal)
    (hs : S896x64.Slices ![off, 0] ⟨2, ![n, 64]⟩)
    (hp : (⟨2, ![n, 64]⟩ : Shape).Pads (![0, 0] : Fin 2 → Nat) ![0, 64] ![0, 0] ⟨2, ![n, 128]⟩) (hu : 0 < S_.numel)
    (d : Fin n) (o' : Fin 128) (k : Fin 896) (hk : k.val = off + d.val) :
    pad ⟨2, ![n, 128]⟩ ![0, 0] ![0, 64] ![0, 0] (extractStridedSlice ⟨2, ![n, 64]⟩ ![off, 0] W hs)
        (sitofp (F := Ideal) .f32 (constantI S_ 32 0#32) : FVec Ideal S_ .f32) hp hu (ix2 d o')
      = if h : o'.val < 64 then W (ix2 k ⟨o'.val, h⟩) else (0 : EReal) := by
  by_cases ho : o'.val < 64
  · rw [dif_pos ho]
    refine (pad_apply_of_inside _ _ _ _ _ hp hu _ (ix2 d ⟨o'.val, ho⟩) fun a => ?_).trans
      (slice2_axis0_apply off _ _ d _ k hk)
    match a with
    | ⟨0, _⟩ => show d.val = 0 + d.val * (0 + 1); omega
    | ⟨1, _⟩ => show o'.val = 0 + o'.val * (0 + 1); omega
  · rw [dif_neg ho]
    refine (pad_apply_of_not_inside _ _ _ _ _ hp hu _ (1 : Fin 2) fun hh => ?_).trans (padValue_eq _)
    have h3 : (o'.val - 0) / (0 + 1) < 64 := hh.2.2
    omega

theorem v34_eq (d : Fin 128) (o' : Fin 128) :
    (V19 m outs c main_v34 : S128x128.Idx → EReal) (ix2 d o')
      = if h : o'.val < 64 then
          (m ((c : Thread nD τ).loc main_arg4) : S896x64.Idx → EReal) (ix2 ⟨d.val, by omega⟩ ⟨o'.val, h⟩)
        else (0 : EReal) := by
  dsimp only [V19]
  after_results
  rw [V6_arg m outs c _ (.inl rfl)]
  exact padded_block_apply 0 _ slices_S896x64_S128x64_0_0 pads_S128x64_S128x128_000_0640 h_S_ d o' _ (Nat.zero_add _).symm

theorem v35_eq (d : Fin 128) (o' : Fin 128) :
    (V19 m outs c main_v35 : S128x128.Idx → EReal) (ix2 d o')
      = if h : o'.val < 64 then
          (m ((c : Thread nD τ).loc main_arg4) : S896x64.Idx → EReal) (ix2 ⟨128 + d.val, by omega⟩ ⟨o'.val, h⟩)
        else (0 : EReal) := by
  dsimp only [V19]
  after_results
  rw [V6_arg m outs c _ (.inl rfl)]
  exact padded_block_apply 128 _ slices_S896x64_S128x64_128_0 pads_S128x64_S128x128_000_0640 h_S_ d o' _ rfl

theorem v36_eq (d : Fin 128) (o' : Fin 128) :
    (V19 m outs c main_v36 : S128x128.Idx → EReal) (ix2 d o')
      = if h : o'.val < 64 then
          (m ((c : Thread nD τ).loc main_arg4) : S896x64.Idx → EReal) (ix2 ⟨256 + d.val, by omega⟩ ⟨o'.val, h⟩)
        else (0 : EReal) := by
  dsimp only [V19]
  after_results
  rw [V6_arg m outs c _ (.inl rfl)]
  exact padded_block_apply 256 _ slices_S896x64_S128x64_256_0 pads_S128x64_S128x128_000_0640 h_S_ d o' _ rfl

theorem v37_eq (e : Fin 256) (o' : Fin 128) :
    (V19 m outs c main_v37 : S256x128.Idx → EReal) (ix2 e o')
      = if h : o'.val < 64 then
          (m ((c : Thread nD τ).loc main_arg4) : S896x64.Idx → EReal) (ix2 ⟨384 + e.val, by omega⟩ ⟨o'.val, h⟩)
        else (0 : EReal) := by
  dsimp only [V19]
  after_results
  rw [V6_arg m outs c _ (.inl rfl)]
  exact padded_block_apply 384 _ slices_S896x64_S256x64_384_0 pads_S256x64_S256x128_000_0640 h_S_ e o' _ rfl

theorem v38_eq (e : Fin 256) (o' : Fin 128) :
    (V19 m outs c main_v38 : S256x128.Idx → EReal) (ix2 e o')
      = if h : o'.val < 64 then
          (m ((c : Thread nD τ).loc main_arg4) : S896x64.Idx → EReal) (ix2 ⟨640 + e.val, by omega⟩ ⟨o'.val, h⟩)
        else (0 : EReal) := by
  dsimp only [V19]
  after_results
  rw [V6_arg m outs c _ (.inl rfl)]
  exact padded_block_apply 640 _ slices_S896x64_S256x64_640_0 pads_S256x64_S256x128_000_0640 h_S_ e o' _ rfl

theorem v40_eq (o' : Fin 128) :
    (V19 m outs c main_v40 : S1x128.Idx → EReal) (ix2 (0 : Fin 1) o')
      = if h : o'.val < 64 then (m ((c : Thread nD τ).loc main_arg5) : S64.Idx → EReal) (ix1 ⟨o'.val, h⟩)
        else (0 : EReal) := by
  dsimp only [V19]
  after_results
  rw [V6_arg m outs c _ (.inr rfl)]
  refine (shapeCast_a_1a_apply _ _ 0 o').trans ?_
  by_cases ho : o'.val < 64
  · rw [dif_pos ho]
    exact pad_apply_of_inside (s := S64) ![0] ![64] ![0] _ _ pads_S64_S128_0640 h_S_ (ix1 o') (ix1 ⟨o'.val, ho⟩) fun a => by
      match a with
      | ⟨0, _⟩ => show o'.val = 0 + o'.val * (0 + 1); omega
  · rw [dif_neg ho]
    refine (pad_apply_of_not_inside (s := S64) ![0] ![64] ![0] _ _ pads_S64_S128_0640 h_S_ (ix1 o') (0 : Fin 1) fun hh => ?_).trans (padValue_eq (Shape.Idx.first h_S_))
    have h3 : (o'.val - 0) / (0 + 1) < 64 := hh.2.2
    omega

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

theorem reduce_andi_ones {s t : Shape} {axes : List (Fin s.rank)} (x : s.Idx → BitVec 1) (hx : ∀ i, x i = 1#1)
    (h : s.ReducesTo axes t) (hu : 0 < S_.numel) (j : t.Idx) :
    Host.reduce IntOp.andi x (constantI S_ 1 1#1) h hu j = 1#1 := by
  rw [Host.reduce_eq_foldl]
  exact foldl_andi_ones x hx _

theorem rows_apply {α : Type} {k : Nat} (h : S8192.BroadcastsInDim ⟨2, ![8192, k]⟩ ![0]) (v : S8192.Idx → α)
    (j : Fin 8192) (o : Fin k) : broadcastInDim ⟨2, ![8192, k]⟩ ![0] h v (ix2 j o) = v (ix1 j) :=
  broadcastInDim_apply _ _ v _ (ix1 j) fun a => by
    match a with
    | ⟨0, _⟩ => exact (if_neg (show ¬((8192 : Nat) = 1) by decide)).symm

abbrev G := gather_S8192x64_S8192x1_S8192x64_1_0_n_n_0_1_164

-- Row j of the gather is the operand's row at the clamped id of position j.
theorem gather_rows_apply {α : Type} (x : S8192x64.Idx → α) (idx : IVec S8192x1 32) (j : Fin 8192) (o : Fin 64) :
    Host.gather G x idx (ix2 j o)
      = x (ix2 ⟨min (idx (ix2 j (0 : Fin 1))).toInt.toNat 8191, by omega⟩ o) := by
  unfold Host.gather
  congr 1
  funext a
  refine Fin.ext ?_
  match a with
  | ⟨0, _⟩ =>
    show G.start (ix2 j o) idx (0 : Fin 2)
        + G.batchCoord (ix2 j o) (0 : Fin 2)
        + G.offCoord (ix2 j o) (0 : Fin 2) = _
    rw [GatherDims.batchCoord_eq_zero _ _ _ List.not_mem_nil,
      GatherDims.offCoord_eq_zero _ _ _ (fun h => ((GatherDims.mem_sKept _ _).mp h).1 (List.mem_singleton.mpr rfl)),
      GatherDims.start, dif_pos (by decide),
      show G.siIdx (ix2 j o) _ = ix2 j (0 : Fin 1) from
        funext fun b => Fin.ext (match b with | ⟨0, _⟩ => rfl | ⟨1, _⟩ => rfl)]
    rfl
  | ⟨1, _⟩ =>
    show G.start (ix2 j o) idx (1 : Fin 2)
        + G.batchCoord (ix2 j o) (1 : Fin 2)
        + G.offCoord (ix2 j o) (1 : Fin 2) = o.val
    rw [GatherDims.batchCoord_eq_zero _ _ _ List.not_mem_nil, GatherDims.start, dif_neg (by decide), GatherDims.offCoord,
      dif_pos (by decide)]
    exact Nat.zero_add _

def wrapCol (a6 : IVec S8192 32) : IVec S8192x1 32 :=
  broadcastInDim S8192x1 ![0] bcast_S8192_S8192x1_0
    (select (cmpi .slt a6 (broadcastInDim S8192 ![] bcast_S_S8192 (constantI S_ 32 0#32)))
      (addi a6 (broadcastInDim S8192 ![] bcast_S_S8192 (constantI S_ 32 8192#32))) a6)

def inRange (a6 : IVec S8192 32) : IVec S8192x1 1 :=
  andi (cmpi .sge (wrapCol a6) (broadcastInDim S8192x1 ![] bcast_S_S8192x1 (constantI S_ 32 0#32)))
    (cmpi .sle (wrapCol a6) (broadcastInDim S8192x1 ![0, 1] bcast_S1x1_S8192x1_0_1
      (broadcastInDim S1x1 ![1] bcast_S1_S1x1_1 (constantI S1 32 8191#32))))

theorem s4_1_v43 (W : Valuation τ sig (Elt Ideal)) : (after hostOps4_1 W main_v43 : S8192x64.Idx → EReal)
    = select (broadcastInDim S8192x64 ![0] bcast_S8192_S8192x64_0
          (Host.reduce IntOp.andi (inRange (W main_arg6 : IVec S8192 32)) (constantI S_ 1 1#1)
            reducesTo_S8192x1_S8192_d1 h_S_))
        (Host.gather gather_S8192x64_S8192x1_S8192x64_1_0_n_n_0_1_164 (W main_v42 : S8192x64.Idx → EReal)
          (wrapCol (W main_arg6 : IVec S8192 32)))
        (broadcastInDim S8192x64 ![] bcast_S_S8192x64 (constant (F := Ideal) S_ .f32 0x7FC00000#32)) := by
  after_results_simp; all_goals rfl

theorem wrapCol_apply (a6 : IVec S8192 32) (j : Fin 8192) (u : Fin 1) (h0 : 0 ≤ (a6 (ix1 j)).toInt) :
    wrapCol a6 (ix2 j u) = a6 (ix1 j) := by
  unfold wrapCol
  rw [rows_apply]
  show Scalar.select (IntOp.cmpi .slt (a6 (ix1 j)) 0#32) (IntOp.addi (a6 (ix1 j)) 8192#32) (a6 (ix1 j)) = a6 (ix1 j)
  unfold Scalar.select
  rw [if_neg]
  intro h
  have h' := IntOp.cmpi_slt.mp h
  rw [BitVec.toInt_zero] at h'
  omega

theorem inRange_apply (a6 : IVec S8192 32) (j : Fin 8192) (u : Fin 1) (h0 : 0 ≤ (a6 (ix1 j)).toInt)
    (h1 : (a6 (ix1 j)).toInt < 8192) : inRange a6 (ix2 j u) = 1#1 := by
  show IntOp.andi (IntOp.cmpi .sge (wrapCol a6 (ix2 j u)) 0#32) (IntOp.cmpi .sle (wrapCol a6 (ix2 j u)) 8191#32) = 1#1
  rw [wrapCol_apply a6 j u h0, IntOp.andi_eq_one, IntOp.cmpi_sge, IntOp.cmpi_sle]
  have e1 : (0#32 : BitVec 32).toInt = 0 := by decide
  have e2 : (8191#32 : BitVec 32).toInt = 8191 := by decide
  rw [e1, e2]
  exact ⟨h0, by omega⟩

theorem out_eq
    (hr : ∀ j : Fin 8192, 0 ≤ ((m ((c : Thread nD τ).loc main_arg6) : IVec S8192 32) (ix1 j)).toInt
      ∧ ((m ((c : Thread nD τ).loc main_arg6) : IVec S8192 32) (ix1 j)).toInt < 8192)
    (j : Fin 8192) (o : Fin 64) :
    (V22 m outs c main_v43 : S8192x64.Idx → EReal) (ix2 j o)
      = (outs 20 main_v41 c : S8192x128.Idx → EReal)
          (ix2 (Cert.Spec.nidOf (m ((c : Thread nD τ).loc main_arg6)) j) ⟨o.val, by omega⟩) := by
  have hall : ∀ i : S8192x1.Idx, inRange (m ((c : Thread nD τ).loc main_arg6) : IVec S8192 32) i = 1#1 := fun i => by
    rw [eq_ix2 i]; exact inRange_apply _ _ _ (hr (i 0)).1 (hr (i 0)).2
  rw [show V22 m outs c main_v43 = after hostOps4_1 (V21 m outs c) main_v43 from rfl, s4_1_v43,
    show V21 m outs c main_arg6 = _ from (V22_of m outs c _ (by decide)).symm.trans (V22_main_arg6 m outs c),
    select_apply, rows_apply, reduce_andi_ones _ hall, select_one, gather_rows_apply]
  simp only [wrapCol_apply _ j (0 : Fin 1) (hr j).1]
  dsimp only [V21]
  after_results
  rw [show V20 m outs c main_v41 = outs 20 main_v41 c from Function.update_self ..]
  exact slice2_axis1_apply 0 _ _ _ o ⟨o.val, by omega⟩ (Nat.zero_add _).symm

end Cert.KernelIdeal.HostValue

end
-- ==== Proof.KI.R0Pieces.lean ====
import proofs.«429692_j807453851732_2_alg».proof.Proof.KI.R0Frame
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

namespace R0Pieces

theorem hz : (![0, 0] : Fin 2 → Nat) = fun _ => 0 := funext fun a => by fin_cases a <;> rfl

abbrev slab (i : grid0.Coords) (x1 : Vec F S8192x128 .bf16) : Vec F S2048x128 .bf16 :=
  View.ld x1 (Rect.unit (s := S8192x128) (k0_off1 i) S2048x128.size (k0_off1_inb i))

end R0Pieces

open R0Pieces

variable (c : Dev nD) (i : grid0.Coords) (arg2 : Memref sig .tc .vmem S1024x2048 .f32) (harg2 : arg2.IsWhole)
  (arg3 : Memref sig .tc .vmem S8192x128 .bf16) (harg3 : arg3.IsWhole) (arg4 : Memref sig .tc .vmem S1024x128 .f32) (harg4 : arg4.IsWhole)
  (arg5 : Memref sig .tc .vmem S1x1 .f32) (harg5 : arg5.IsWhole) (arg6 : Memref sig .tc .vmem S1024x128 .f32) (harg6 : arg6.IsWhole)
  (arg7 : Memref sig .tc .vmem S1024x128 .f32) (harg7 : arg7.IsWhole)
  (x0 : Vec F S1024x2048 .f32) (x1 : Vec F S8192x128 .bf16) (x2 : Vec F S1024x128 .f32) (x3 : Vec F S1x1 .f32) (xs0 : Vec F S1024x128 .f32)

theorem sout0_A_0_eq (hc0 : cond0_0 i) (hc1 : ¬cond0_1 i) :
    sout0_A_0 c i arg2 harg2 arg3 harg3 arg4 harg4 arg5 harg5 arg6 harg6 arg7 harg7 hc0 hc1 x0 x1 x2 x3 = k0_pay2 x0 (slab i x1) (k0_pay1 (F := F)) := by
  unfold sout0_A_0
  rw [View.read_writes_eq_canon _ _ _ (fun y => scover0_A_0 (y := y) ..)]
  unfold kernelRun0_A
  dsimp only
  sl_unfold_words
  rw [View.canon_cons_unit_zero (S := S1024x128) hz, View.readCov_unit_zero (S := S1024x128) _ hz]
  simp only [View.readAt_eq_ld, Memref.IsWhole.read_unread, View.ld_unit_zero (S := S1024x2048) hz, View.ld_unit_zero (S := S1024x128) hz, View.ld_unit_zero (S := S1x1) hz]
  rfl

theorem sout0_B_0_eq (hc0 : ¬cond0_0 i) (hc1 : ¬cond0_1 i) :
    sout0_B_0 c i arg2 harg2 arg3 harg3 arg4 harg4 arg5 harg5 arg6 harg6 arg7 harg7 hc0 hc1 x0 x1 x2 x3 xs0 = k0_pay2 x0 (slab i x1) xs0 := by
  unfold sout0_B_0
  rw [View.read_writes_eq_canon _ _ _ (fun y => scover0_B_0 (y := y) ..)]
  unfold kernelRun0_B
  dsimp only
  sl_unfold_words
  rw [View.canon_unit_zero hz]
  simp only [View.readAt_eq_ld, Memref.IsWhole.read_unread, View.ld_unit_zero (S := S1024x2048) hz, View.ld_unit_zero (S := S1024x128) hz, View.ld_unit_zero (S := S1x1) hz]
  rfl

theorem sout0_C_0_eq (hc0 : ¬cond0_0 i) (hc1 : cond0_1 i) :
    sout0_C_0 c i arg2 harg2 arg3 harg3 arg4 harg4 arg5 harg5 arg6 harg6 arg7 harg7 hc0 hc1 x0 x1 x2 x3 xs0 = k0_pay2 x0 (slab i x1) xs0 := by
  unfold sout0_C_0
  rw [View.read_writes_eq_canon _ _ _ (fun y => scover0_C_0 (y := y) ..)]
  unfold kernelRun0_C
  dsimp only
  sl_unfold_words
  rw [View.canon_unit_zero hz]
  simp only [View.readAt_eq_ld, Memref.IsWhole.read_unread, View.ld_unit_zero (S := S1024x2048) hz, View.ld_unit_zero (S := S1024x128) hz, View.ld_unit_zero (S := S1x1) hz]
  rfl

theorem out0_C_4_eq (hc0 : ¬cond0_0 i) (hc1 : cond0_1 i) :
    out0_C_4 c i arg2 harg2 arg3 harg3 arg4 harg4 arg5 harg5 arg6 harg6 arg7 harg7 hc0 hc1 x0 x1 x2 x3 xs0 = k0_pay3 x3 x2 (k0_pay2 x0 (slab i x1) xs0) := by
  unfold out0_C_4
  rw [View.read_writes_eq_canon _ _ _ (fun y => cover0_C_4 (y := y) ..)]
  unfold kernelRun0_C
  dsimp only
  sl_unfold_words
  rw [View.canon_unit_zero hz]
  simp only [View.readAt_eq_ld, Memref.IsWhole.read_unread, View.ld_unit_zero (S := S1024x2048) hz, View.ld_unit_zero (S := S1024x128) hz, View.ld_unit_zero (S := S1x1) hz, View.readCov_unit_zero (S := S1024x128) _ hz]
  rfl

end Cert.KernelIdeal.Hand

end
-- ==== Proof.KI.R0ValueLib.lean ====
import proofs.«429692_j807453851732_2_alg».proof.Proof.KI.R0Runs
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- Position q of 8192 is position q % 2048 of run q / 2048.
theorem rv0_sum4 {M : Type} [AddCommMonoid M] (f : Fin 8192 → M) :
    ∑ q, f q = ∑ k : Fin 4, ∑ j : Fin 2048, f ⟨j + 2048 * k, by omega⟩ :=
  ((finProdFinEquiv (m := 4) (n := 2048)).sum_comp f).symm.trans (Fintype.sum_prod_type _)

abbrev rv0_D : DotDims S1024x2048 S2048x128 S1024x128 := dot_S1024x2048_S2048x128_S1024x128_1_0_0_1_n_n

theorem rv0_dot_apply (a : FVec Ideal S1024x2048 .bf16) (b : FVec Ideal S2048x128 .bf16) (ρ : Fin 1024) (d : Fin 128) :
    matmul rv0_D none a b (constant S1024x128 .f32 0x00000000#32) (ix2 ρ d) = ∑ j : Fin 2048, a (ix2 ρ j) * b (ix2 j d) := by
  simp only [matmul]
  rw [Ideal.matmul_constant_zero_apply, ← (contrEquiv1 rv0_D 2048 rfl rfl).symm.sum_comp]
  refine Finset.sum_congr rfl fun k _ => ?_
  have hk := contrEquiv1_symm_val rv0_D 2048 rfl rfl k
  rw [show rv0_D.lhsIdx (ix2 ρ d) ((contrEquiv1 rv0_D 2048 rfl rfl).symm k) = ix2 ρ k from Shape.idx_ext₂ rfl hk,
    show rv0_D.rhsIdx (ix2 ρ d) ((contrEquiv1 rv0_D 2048 rfl rfl).symm k) = ix2 k d from Shape.idx_ext₂ hk rfl]

theorem rv0_pay1_apply (i : S1024x128.Idx) : k0_pay1 (F := Ideal) i = 0 := by
  unfold k0_pay1
  rw [shapeCast_self]
  exact Ideal.ofBits_zero_f32

theorem rv0_pay2_apply (v3 : Vec Ideal S1024x2048 .f32) (v8 : Vec Ideal S2048x128 .bf16) (v10 : Vec Ideal S1024x128 .f32)
    (ρ : Fin 1024) (d : Fin 128) :
    k0_pay2 (F := Ideal) v3 v8 v10 (ix2 ρ d) = v10 (ix2 ρ d) + ∑ j : Fin 2048, v3 (ix2 ρ j) * v8 (ix2 j d) := by
  unfold k0_pay2
  rw [shapeCast_self, shapeCast_self, addf_apply, rv0_dot_apply]
  rfl

theorem rv0_pay3_apply (v19 : Vec Ideal S1x1 .f32) (v21 : Vec Ideal S1024x128 .f32) (v22 : Vec Ideal S1024x128 .f32)
    (i : S1024x128.Idx) :
    k0_pay3 (F := Ideal) v19 v21 v22 i = v21 i - v19 (ix2 0 0) * v22 i :=
  congrArg (fun z => v21 i - v19 z * v22 i) (Shape.idx_ext₂ rfl rfl)

variable {F : FTy → Type} [FloatOps F]
variable (V : (c : Dev nD) → (b : Ref sig .tc) → Buf (Elt F) ((c : Thread nD τ).loc b))

theorem rv0_N : cfg0.N = 32 := by decide

theorem rv0_idx_facts : ∀ t : Fin grid0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ k0_off1 (grid0.coords t) (0 : Fin 2) = 2048 * (t.val % 4) ∧ k0_off1 (grid0.coords t) (1 : Fin 2) = 0 := by
  decide +kernel

-- A block coordinate: block index b, block size m, offset x.
theorem rv0_co {a b m x k : ℕ} (h : a = b) (hk : k = m * b + x) : a * m + 1 * x = k := by
  rw [h, hk, Nat.mul_comm, Nat.one_mul]

theorem rv0_iblk_0_apply (c : Dev nD) (t : Fin cfg0.N) (x : S1024x2048.Idx) (k : S8192x8192.Idx)
    (hk0 : (k 0).val = 1024 * (t.val / 4) + (x 0).val) (hk1 : (k 1).val = 2048 * (t.val % 4) + (x 1).val) :
    (iblk0 V c 0 t : Vec F S1024x2048 .f32) x = (V c main_arg2 : S8192x8192.Idx → Elt F .f32) k := by
  obtain ⟨h0, h1, -⟩ := rv0_idx_facts t
  exact congrArg (V c main_arg2) (Shape.idx_ext₂
    (rv0_co h0 hk0) (rv0_co h1 hk1))

theorem rv0_iblk_1_apply (c : Dev nD) (t : Fin cfg0.N) (x : S8192x128.Idx) :
    (iblk0 V c 1 t : Vec F S8192x128 .bf16) x = (V c main_v0 : S8192x128.Idx → Elt F .bf16) x := by
  obtain ⟨-, -, h0, h1, -⟩ := rv0_idx_facts t
  exact congrArg (V c main_v0) (Shape.idx_ext₂
    (rv0_co h0 (Nat.zero_add _).symm) (rv0_co h1 (Nat.zero_add _).symm))

theorem rv0_iblk_2_apply (c : Dev nD) (t : Fin cfg0.N) (x : S1024x128.Idx) (k : S8192x128.Idx)
    (hk0 : (k 0).val = 1024 * (t.val / 4) + (x 0).val) (hk1 : (k 1).val = (x 1).val) :
    (iblk0 V c 2 t : Vec F S1024x128 .f32) x = (V c main_arg0 : S8192x128.Idx → Elt F .f32) k := by
  obtain ⟨-, -, -, -, h0, h1, -⟩ := rv0_idx_facts t
  exact congrArg (V c main_arg0) (Shape.idx_ext₂
    (rv0_co h0 hk0) (rv0_co h1 (hk1.trans (Nat.zero_add _).symm)))

theorem rv0_iblk_3_apply (c : Dev nD) (t : Fin cfg0.N) (x : S1x1.Idx) :
    (iblk0 V c 3 t : Vec F S1x1 .f32) x = (V c main_v1 : S1x1.Idx → Elt F .f32) x := by
  obtain ⟨-, -, -, -, -, -, h0, h1, -⟩ := rv0_idx_facts t
  exact congrArg (V c main_v1) (Shape.idx_ext₂
    (rv0_co h0 (Nat.zero_add _).symm) (rv0_co h1 (Nat.zero_add _).symm))

theorem rv0_slab_apply (X : Vec F S8192x128 .bf16) (t : Fin cfg0.N) (x : S2048x128.Idx) (k : S8192x128.Idx)
    (hk0 : (k 0).val = 2048 * (t.val % 4) + (x 0).val) (hk1 : (k 1).val = (x 1).val) :
    View.ld X (Rect.unit (s := S8192x128) (k0_off1 (grid0.coords t)) S2048x128.size (k0_off1_inb _)) x = X k := by
  obtain ⟨-, -, -, -, -, -, -, -, -, -, h0, h1⟩ := rv0_idx_facts t
  exact congrArg X (Shape.idx_ext₂
    (by show k0_off1 (grid0.coords t) 0 + 1 * (x 0).val = _; rw [h0, hk0]; omega)
    (by show k0_off1 (grid0.coords t) 1 + 1 * (x 1).val = _; rw [h1, hk1]; omega))

end Cert.KernelIdeal.Hand

end
-- ==== Proof.KI.R0Cover.lean ====
import proofs.«429692_j807453851732_2_alg».proof.Proof.KI.R0Frame
import proofs.«429692_j807453851732_2_alg».proof.Proof.KI.R0ValueLib

noncomputable section

namespace Cert.KernelIdeal.Hand

open Cert.KernelIdeal Cert.KernelIdeal.Gen
open Idealize.ShloMosaic Idealize.ShloMosaic.TcCoe
open Idealize.ShloMosaic.Pipeline (Dat Cfg Window)

-- Row r is in row block r / 1024, whose last point is 4 (r / 1024) + 3.
theorem covered0 (i : S8192x128.Idx) : ∃ t : Fin cfg0.N, (cfg0.win 4).flush t = true ∧ i ∈ ((cfg0.win 4).blk t).view.set := by
  have h0 : (i 0).val < 8192 := (i 0).isLt
  have h1 : (i 1).val < 128 := (i 1).isLt
  obtain ⟨t, ht⟩ : ∃ t : Fin cfg0.N, t.val = 4 * ((i 0).val / 1024) + 3 := ⟨⟨_, by rw [rv0_N]; omega⟩, rfl⟩
  obtain ⟨-, -, -, -, -, -, -, -, e0, e1, -⟩ := rv0_idx_facts t
  refine ⟨t, (flush0_4 t).mpr (by omega), ?_⟩
  show i ∈ ((View.whole main_v2).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 128 ≤ (i 1).val ∧ (i 1).val < win0_4.index t (1 : Fin 2) * 128 + 128; rw [e1]; omega

theorem cover0 (V : (c : Dev nD) → (b : Ref sig .tc) → Buf (Elt Ideal) ((c : Thread nD τ).loc b)) (c : Dev nD) (G : S8192x128.Idx → EReal)
    (hfl : ∀ (q : Fin 8) (n : ℕ) (hn : n < cfg0.N), n = 4 * q.val + 3 → ∀ (y : S1024x128.Idx) (i : S8192x128.Idx),
      (i 0).val = 1024 * q.val + (y 0).val → (i 1).val = (y 1).val → (outsAt0 V c n hn).1 y = G i) :
    ((dat0 V c).arrAt 4 cfg0.N : S8192x128.Idx → EReal) = G :=
  (dat0 V c).arrAt_eq_of_cover 4 G (fun t hf => by
    have h3 := (flush0_4 t).mp hf
    have hN : t.val < cfg0.N := t.isLt
    rw [rv0_N] at hN
    obtain ⟨-, -, -, -, -, -, -, -, e0, e1, -⟩ := rv0_idx_facts t
    show (cfg0.win 4).cut (grid0.coords t) ((dat0 V c).after 4 t) = _
    rw [after0_out]
    funext y
    exact hfl ⟨t.val / 4, by omega⟩ t.val t.isLt (by show t.val = 4 * (t.val / 4) + 3; omega) y (((cfg0.win 4).blk t).view.emb y)
      (rv0_co e0 rfl) (rv0_co e1 (Nat.zero_add _).symm)) covered0

end Cert.KernelIdeal.Hand

end
-- ==== Proof.KI.R0Value.lean ====
import proofs.«429692_j807453851732_2_alg».proof.Proof.KI.R0Pieces
import proofs.«429692_j807453851732_2_alg».proof.Proof.KI.R0Cover

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open R0Pieces

variable (V : (c : Dev nD) → (b : Ref sig .tc) → Buf (Elt Ideal) ((c : Thread nD τ).loc b))

abbrev rv0_X (c : Dev nD) : S8192x128.Idx → EReal := V c main_arg0
abbrev rv0_tau (c : Dev nD) : S1x1.Idx → EReal := V c main_v1
abbrev rv0_L (c : Dev nD) : S8192x8192.Idx → EReal := V c main_arg2
abbrev rv0_Xb (c : Dev nD) : S8192x128.Idx → EReal := V c main_v0
abbrev rv0_O (c : Dev nD) : S8192x128.Idx → EReal := (dat0 V c).arrAt 4 cfg0.N

def rv0_step (c : Dev nD) (n : ℕ) (hn : n < cfg0.N) (acc : Vec Ideal S1024x128 .f32) : Vec Ideal S1024x128 .f32 :=
  k0_pay2 (F := Ideal) (iblk0 V c 0 ⟨n, hn⟩) (slab (grid0.coords ⟨n, hn⟩) (iblk0 V c 1 ⟨n, hn⟩)) acc

theorem rv0_step_apply (c : Dev nD) (q : Fin 8) (k : Fin 4) (acc : Vec Ideal S1024x128 .f32) (ρ : Fin 1024) (d : Fin 128)
    (n : ℕ) (hn : n < cfg0.N) (e : n = 4 * q.val + k.val) :
    rv0_step V c n hn acc (ix2 ρ d) = acc (ix2 ρ d) + ∑ j : Fin 2048,
      rv0_L V c (ix2 ⟨1024 * q.val + ρ.val, by omega⟩ ⟨j.val + 2048 * k.val, by omega⟩) * rv0_Xb V c (ix2 ⟨j.val + 2048 * k.val, by omega⟩ d) := by
  unfold rv0_step slab
  rw [rv0_pay2_apply]
  refine congrArg (_ + ·) (Finset.sum_congr rfl fun j _ => ?_)
  rw [rv0_iblk_0_apply V c ⟨n, hn⟩ (ix2 ρ j) (ix2 ⟨1024 * q.val + ρ.val, by omega⟩ ⟨j.val + 2048 * k.val, by omega⟩)
      (by show 1024 * q.val + ρ.val = 1024 * (n / 4) + ρ.val; omega) (by show j.val + 2048 * k.val = 2048 * (n % 4) + j.val; omega),
    rv0_slab_apply _ ⟨n, hn⟩ (ix2 j d) (ix2 ⟨j.val + 2048 * k.val, by omega⟩ d) (by show j.val + 2048 * k.val = 2048 * (n % 4) + j.val; omega) rfl,
    rv0_iblk_1_apply]

theorem rv0_acc_A (c : Dev nD) (t : Fin cfg0.N) (h0 : t.val % 4 = 0) :
    (outsAt0 V c t.val t.isLt).2 = rv0_step V c t.val t.isLt (k0_pay1 (F := Ideal)) := by
  rw [outsAt0_A V c t h0 (by omega)]
  dsimp only
  rw [sout0_A_0_eq]
  rfl

theorem rv0_acc_S (c : Dev nD) (t : Fin cfg0.N) (h0 : ¬t.val % 4 = 0) :
    (outsAt0 V c t.val t.isLt).2
      = rv0_step V c t.val t.isLt (outsAt0 V c (t.val - 1) (Nat.lt_of_le_of_lt (Nat.sub_le _ _) t.isLt)).2 := by
  by_cases h1 : t.val % 4 = 3
  · rw [outsAt0_C V c t h0 h1]; dsimp only; rw [sout0_C_0_eq]; rfl
  · rw [outsAt0_B V c t h0 h1]; dsimp only; rw [sout0_B_0_eq]; rfl

theorem rv0_res_C (c : Dev nD) (t : Fin cfg0.N) (h1 : t.val % 4 = 3) :
    (outsAt0 V c t.val t.isLt).1 = k0_pay3 (F := Ideal) (iblk0 V c 3 t) (iblk0 V c 2 t) (outsAt0 V c t.val t.isLt).2 := by
  rw [outsAt0_C V c t (by omega) h1]
  dsimp only
  rw [out0_C_4_eq, sout0_C_0_eq]

-- The four steps' runs of 2048 columns are the row's 8192 columns.
theorem rv0_row (c : Dev nD) (q : Fin 8) (h : 4 * q.val + 3 < cfg0.N) (ρ : Fin 1024) (d : Fin 128) :
    (outsAt0 V c (4 * q.val + 3) h).2 (ix2 ρ d) = ∑ p : Fin 8192, rv0_L V c (ix2 ⟨1024 * q.val + ρ.val, by omega⟩ p) * rv0_Xb V c (ix2 p d) := by
  refine (congrFun (Pipeline.eq_accAt (fun n hn => (outsAt0 V c n hn).2) 4 (fun n hn => rv0_step V c n hn (k0_pay1 (F := Ideal))) (rv0_step V c)
    (fun n hn h0 => rv0_acc_A V c ⟨n, hn⟩ h0) (fun n hn h0 => rv0_acc_S V c ⟨n + 1, hn⟩ h0) q.val 3 (by decide) h) _).trans ?_
  rw [rv0_sum4, Fin.sum_univ_four]
  show rv0_step V c (4 * q.val + 3) _ (rv0_step V c (4 * q.val + 2) _ (rv0_step V c (4 * q.val + 1) _ (rv0_step V c (4 * q.val) _ (k0_pay1 (F := Ideal))))) (ix2 ρ d) = _
  rw [rv0_step_apply V c q 3, rv0_step_apply V c q 2, rv0_step_apply V c q 1, rv0_step_apply V c q 0, rv0_pay1_apply, zero_add]
  all_goals rfl

theorem rv0 (c : Dev nD) (r : Fin 8192) (d : Fin 128) :
    rv0_O V c (ix2 r d)
      = rv0_X V c (ix2 r d)
        - rv0_tau V c (ix2 (0 : Fin 1) (0 : Fin 1)) * ∑ q : Fin 8192, rv0_L V c (ix2 r q) * rv0_Xb V c (ix2 q d) :=
  congrFun (cover0 V c (fun i => rv0_X V c (ix2 (i 0) (i 1))
      - rv0_tau V c (ix2 (0 : Fin 1) (0 : Fin 1)) * ∑ p : Fin 8192, rv0_L V c (ix2 (i 0) p) * rv0_Xb V c (ix2 p (i 1)))
    fun q n hn e y i hi0 hi1 => by
      subst e
      obtain ⟨ρ, δ, rfl⟩ : ∃ (ρ : Fin 1024) (δ : Fin 128), y = ix2 ρ δ := ⟨_, _, eq_ix2 y⟩
      have hb : 1024 * q.val + ρ.val < 8192 := by omega
      obtain rfl : i = ix2 ⟨_, hb⟩ δ := Shape.idx_ext₂ hi0 hi1
      show _ = rv0_X V c (ix2 ⟨_, hb⟩ δ) - rv0_tau V c (ix2 0 0) * ∑ p : Fin 8192, rv0_L V c (ix2 ⟨_, hb⟩ p) * rv0_Xb V c (ix2 p δ)
      rw [rv0_res_C V c ⟨_, hn⟩ (by show (4 * q.val + 3) % 4 = 3; omega), rv0_pay3_apply, rv0_row,
        rv0_iblk_2_apply V c ⟨_, hn⟩ (ix2 ρ δ) (ix2 ⟨_, hb⟩ δ) (by show 1024 * q.val + ρ.val = 1024 * ((4 * q.val + 3) / 4) + ρ.val; omega) rfl,
        rv0_iblk_3_apply]) (ix2 r d)

end Cert.KernelIdeal.Hand

end
-- ==== Proof.KI.R1Value.lean ====
import proofs.«429692_j807453851732_2_alg».proof.Proof.KI.R1Frame
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Hand

open Cert.KernelIdeal Cert.KernelIdeal.Gen
open Idealize.ShloMosaic Idealize.ShloMosaic.TcCoe Idealize.ShloMosaic.Tactic Idealize.ShloMosaic.ValueIdx

theorem rv1_sum4 (f : Fin 8192 → EReal) :
    ∑ q, f q = ∑ m : Fin 4, ∑ j : Fin 2048, f ⟨j.val + 2048 * m.val, by omega⟩ :=
  ((finProdFinEquiv (m := 4) (n := 2048)).sum_comp f).symm.trans (Fintype.sum_prod_type _)

theorem rv1_dot_apply (a : FVec Ideal S1024x2048 .bf16) (b : FVec Ideal S2048x128 .bf16) (ρ : Fin 1024) (d : Fin 128) :
    FloatOps.matmul dot_S1024x2048_S2048x128_S1024x128_1_0_0_1_n_n none a b (constant S1024x128 .f32 0x00000000#32) (ix2 ρ d)
      = ∑ j : Fin 2048, a (ix2 ρ j) * b (ix2 j d) := by
  rw [Ideal.matmul_constant_zero_apply, ← Equiv.sum_comp (contrEquiv1 dot_S1024x2048_S2048x128_S1024x128_1_0_0_1_n_n 2048 rfl rfl).symm]
  refine Finset.sum_congr rfl fun j _ => ?_
  congr 2 <;> funext x <;> apply Fin.ext <;> fin_cases x <;> rfl

theorem rv1_payZ_apply (i : S1024x128.Idx) : k1_pay1 (F := Ideal) i = 0 := by
  unfold k1_pay1
  simp only [shapeCast_self]
  exact Ideal.ofBits_zero_f32

theorem rv1_payU_apply (v3 : Vec Ideal S1x1024x2048 .f32) (v9 : Vec Ideal S2048x128 .bf16) (v11 : Vec Ideal S1024x128 .f32)
    (ρ : Fin 1024) (d : Fin 128) :
    k1_pay2 (F := Ideal) v3 v9 v11 (ix2 ρ d)
      = v11 (ix2 ρ d) + ∑ j : Fin 2048, v3 (ix3 (0 : Fin 1) ρ j) * v9 (ix2 j d) := by
  unfold k1_pay2
  simp only [shapeCast_self, matmul, addf_apply, rv1_dot_apply, truncf_apply, shapeCast_1ab_ab_apply]

theorem rv1_hz2 : (![0, 0] : Fin 2 → Nat) = fun _ => 0 := funext fun a => by fin_cases a <;> rfl
theorem rv1_hz3 : (![0, 0, 0] : Fin 3 → Nat) = fun _ => 0 := funext fun a => by fin_cases a <;> rfl

abbrev rv1_rows (i : grid1.Coords) (xr : Vec Ideal S8192x128 .bf16) : Vec Ideal S2048x128 .bf16 :=
  View.ld xr (Rect.unit (s := S8192x128) (k1_off1 i) S2048x128.size (k1_off1_inb i))

section
variable {c : Dev nD} {i : grid1.Coords} {arg3 : Memref sig .tc .vmem S1x1024x2048 .f32} {harg3 : arg3.IsWhole}
  {arg4 : Memref sig .tc .vmem S8192x128 .bf16} {harg4 : arg4.IsWhole} {arg5 : Memref sig .tc .vmem S1x1024x128 .f32}
  {harg5 : arg5.IsWhole} {arg6 : Memref sig .tc .vmem S1024x128 .f32} {harg6 : arg6.IsWhole}
  (xk : Vec Ideal S1x1024x2048 .f32) (xr : Vec Ideal S8192x128 .bf16) (xs : Vec Ideal S1024x128 .f32)

theorem rv1_soutA {hcz : cond1_0 i} {hcl : ¬cond1_1 i} :
    sout1_A_0 c i arg3 harg3 arg4 harg4 arg5 harg5 arg6 harg6 hcz hcl xk xr = k1_pay2 xk (rv1_rows i xr) (k1_pay1 (F := Ideal)) := by
  unfold sout1_A_0
  rw [View.read_writes_eq_canon _ _ _ (scover1_A_0 c i arg3 harg3 arg4 harg4 arg5 harg5 arg6 harg6 hcz hcl xk xr)]
  unfold kernelRun1_A
  dsimp only
  sl_unfold_words
  rw [View.canon_cons_unit_zero (S := S1024x128) rv1_hz2, View.readCov_unit_zero (S := S1024x128) _ rv1_hz2]
  simp only [View.readAt_eq_ld, Memref.IsWhole.read_unread, View.ld_unit_zero (S := S1x1024x2048) rv1_hz3]
  rfl

theorem rv1_soutB {hcz : ¬cond1_0 i} {hcl : ¬cond1_1 i} :
    sout1_B_0 c i arg3 harg3 arg4 harg4 arg5 harg5 arg6 harg6 hcz hcl xk xr xs = k1_pay2 xk (rv1_rows i xr) xs := by
  unfold sout1_B_0
  rw [View.read_writes_eq_canon _ _ _ (scover1_B_0 c i arg3 harg3 arg4 harg4 arg5 harg5 arg6 harg6 hcz hcl xk xr xs)]
  unfold kernelRun1_B
  dsimp only
  sl_unfold_words
  rw [View.canon_unit_zero (S := S1024x128) rv1_hz2]
  simp only [View.readAt_eq_ld, Memref.IsWhole.read_unread, View.ld_unit_zero (S := S1x1024x2048) rv1_hz3, View.ld_unit_zero (S := S1024x128) rv1_hz2]
  rfl

theorem rv1_soutC {hcz : ¬cond1_0 i} {hcl : cond1_1 i} :
    sout1_C_0 c i arg3 harg3 arg4 harg4 arg5 harg5 arg6 harg6 hcz hcl xk xr xs = k1_pay2 xk (rv1_rows i xr) xs := by
  unfold sout1_C_0
  rw [View.read_writes_eq_canon _ _ _ (scover1_C_0 c i arg3 harg3 arg4 harg4 arg5 harg5 arg6 harg6 hcz hcl xk xr xs)]
  unfold kernelRun1_C
  dsimp only
  sl_unfold_words
  rw [View.canon_unit_zero (S := S1024x128) rv1_hz2]
  simp only [View.readAt_eq_ld, Memref.IsWhole.read_unread, View.ld_unit_zero (S := S1x1024x2048) rv1_hz3, View.ld_unit_zero (S := S1024x128) rv1_hz2]
  rfl

theorem rv1_outC {hcz : ¬cond1_0 i} {hcl : cond1_1 i} :
    out1_C_2 c i arg3 harg3 arg4 harg4 arg5 harg5 arg6 harg6 hcz hcl xk xr xs = k1_pay3 (k1_pay2 xk (rv1_rows i xr) xs) := by
  unfold out1_C_2
  rw [View.read_writes_eq_canon _ _ _ (cover1_C_2 c i arg3 harg3 arg4 harg4 arg5 harg5 arg6 harg6 hcz hcl xk xr xs)]
  unfold kernelRun1_C
  dsimp only
  sl_unfold_words
  rw [View.canon_unit_zero (S := S1x1024x128) rv1_hz3, View.readCov_unit_zero (S := S1024x128) _ rv1_hz2]
  simp only [View.readAt_eq_ld, Memref.IsWhole.read_unread, View.ld_unit_zero (S := S1x1024x2048) rv1_hz3, View.ld_unit_zero (S := S1024x128) rv1_hz2]
  rfl

end

theorem rv1_idx_facts : ∀ t : Fin cfg1.N,
    win1_0.index t 0 = t.val / 32 ∧ win1_0.index t 1 = t.val / 4 % 8 ∧ win1_0.index t 2 = t.val % 4
    ∧ win1_1.index t 0 = 0 ∧ win1_1.index t 1 = 0
    ∧ win1_2.index t 0 = t.val / 32 ∧ win1_2.index t 1 = t.val / 4 % 8 ∧ win1_2.index t 2 = 0
    ∧ k1_off1 (grid1.coords t) 0 = 2048 * (t.val % 4) ∧ k1_off1 (grid1.coords t) 1 = 0
    ∧ win1_2.xsize (grid1.coords t) 0 = 1 ∧ win1_2.xsize (grid1.coords t) 1 = 1024 ∧ win1_2.xsize (grid1.coords t) 2 = 128 :=
  (by decide +kernel : ∀ t : Fin grid1.N, _)

variable (V : (c : Dev nD) → (b : Ref sig .tc) → Buf (Elt Ideal) ((c : Thread nD τ).loc b)) (c : Dev nD)

theorem rv1_iblk0_apply (t : Fin cfg1.N) (ρ : Fin 1024) (j : Fin 2048) (k : S2x8192x8192.Idx)
    (ha : (k 0).val = t.val / 32) (hb : (k 1).val = 1024 * (t.val / 4 % 8) + ρ.val) (hc : (k 2).val = 2048 * (t.val % 4) + j.val) :
    (iblk1 V c 0 t : Vec Ideal S1x1024x2048 .f32) (ix3 (0 : Fin 1) ρ j) = (V c main_arg1 : S2x8192x8192.Idx → EReal) k := by
  show V c main_arg1 _ = V c main_arg1 _
  congr 1
  funext a
  apply Fin.ext
  match a with
  | ⟨0, _⟩ => show win1_0.index t 0 * 1 + 1 * 0 = (k 0).val; simp only [rv1_idx_facts t]; omega
  | ⟨1, _⟩ => show win1_0.index t 1 * 1024 + 1 * ρ.val = (k 1).val; simp only [rv1_idx_facts t]; omega
  | ⟨2, _⟩ => show win1_0.index t 2 * 2048 + 1 * j.val = (k 2).val; simp only [rv1_idx_facts t]; omega

theorem rv1_rows_apply (t : Fin cfg1.N) (j : Fin 2048) (d : Fin 128) (q : Fin 8192) (hq : q.val = 2048 * (t.val % 4) + j.val) :
    rv1_rows (grid1.coords t) (iblk1 V c 1 t : Vec Ideal S8192x128 .bf16) (ix2 j d) = (V c main_v10 : S8192x128.Idx → EReal) (ix2 q d) := by
  show V c main_v10 _ = V c main_v10 _
  congr 1
  funext a
  apply Fin.ext
  match a with
  | ⟨0, _⟩ => show win1_1.index t 0 * 8192 + 1 * (k1_off1 (grid1.coords t) 0 + 1 * j.val) = q.val; simp only [rv1_idx_facts t]; omega
  | ⟨1, _⟩ => show win1_1.index t 1 * 128 + 1 * (k1_off1 (grid1.coords t) 1 + 1 * d.val) = d.val; simp only [rv1_idx_facts t]; omega

abbrev rv1_K : S2x8192x8192.Idx → EReal := V c main_arg1

abbrev rv1_S : S8192x128.Idx → EReal := V c main_v10

abbrev rv1_O : S2x8192x128.Idx → EReal := (dat1 V c).arrAt 2 cfg1.N

abbrev rv1_f (kk : Fin 2) (R : Fin 8192) (d : Fin 128) (q : Fin 8192) : EReal :=
  rv1_K V c (ix3 kk R q) * rv1_S V c (ix2 q d)

def rv1_P (kk : Fin 2) (R : Fin 8192) (d : Fin 128) (m : Fin 4) : EReal :=
  ∑ j : Fin 2048, rv1_f V c kk R d ⟨j.val + 2048 * m.val, by omega⟩

section
variable (n : ℕ) (hn : n < cfg1.N) (ρ : Fin 1024) (d : Fin 128)

theorem rv1_out_last (hl : n % 4 = 3) (u : Fin 1) :
    (outsAt1 V c n hn).1 (ix3 u ρ d) = (outsAt1 V c n hn).2 (ix2 ρ d) := by
  rw [outsAt1_C V c ⟨n, hn⟩ (by show ¬ n % 4 = 0; omega) hl]
  dsimp only
  rw [rv1_outC, rv1_soutC]
  unfold k1_pay3
  exact shapeCast_ab_1ab_apply _ _ u ρ d

variable (kk : Fin 2) (R : Fin 8192) (hkk : kk.val = n / 32) (hR : R.val = 1024 * (n / 4 % 8) + ρ.val)
include hkk hR

theorem rv1_pay2_point (m : Fin 4) (hm : m.val = n % 4) (acc : Vec Ideal S1024x128 .f32) :
    k1_pay2 (F := Ideal) (iblk1 V c 0 ⟨n, hn⟩) (rv1_rows (grid1.coords ⟨n, hn⟩) (iblk1 V c 1 ⟨n, hn⟩)) acc (ix2 ρ d)
      = acc (ix2 ρ d) + rv1_P V c kk R d m := by
  refine (rv1_payU_apply _ _ _ ρ d).trans (congrArg (acc (ix2 ρ d) + ·) (Finset.sum_congr rfl fun j _ => ?_))
  rw [rv1_iblk0_apply V c ⟨n, hn⟩ ρ j (ix3 kk R ⟨j.val + 2048 * m.val, by omega⟩) hkk hR (by show j.val + 2048 * m.val = 2048 * (n % 4) + j.val; omega),
    rv1_rows_apply V c ⟨n, hn⟩ j d ⟨j.val + 2048 * m.val, by omega⟩ (by show j.val + 2048 * m.val = 2048 * (n % 4) + j.val; omega)]

theorem rv1_acc_first (hz : n % 4 = 0) : (outsAt1 V c n hn).2 (ix2 ρ d) = 0 + rv1_P V c kk R d 0 := by
  rw [outsAt1_A V c ⟨n, hn⟩ hz (by show ¬ n % 4 = 3; omega)]
  dsimp only
  rw [rv1_soutA, rv1_pay2_point V c n hn ρ d kk R hkk hR 0 hz.symm, rv1_payZ_apply]

theorem rv1_acc_step (m : Fin 4) (hm : m.val = n % 4) (hnz : ¬ n % 4 = 0) :
    (outsAt1 V c n hn).2 (ix2 ρ d)
      = (outsAt1 V c (n - 1) (Nat.lt_of_le_of_lt (Nat.sub_le _ _) hn)).2 (ix2 ρ d) + rv1_P V c kk R d m := by
  by_cases hl : n % 4 = 3
  · rw [outsAt1_C V c ⟨n, hn⟩ hnz hl]
    dsimp only
    rw [rv1_soutC]
    exact rv1_pay2_point V c n hn ρ d kk R hkk hR m hm _
  · rw [outsAt1_B V c ⟨n, hn⟩ hnz hl]
    dsimp only
    rw [rv1_soutB]
    exact rv1_pay2_point V c n hn ρ d kk R hkk hR m hm _

theorem rv1_out_eq (hl : n % 4 = 3) (u : Fin 1) :
    (outsAt1 V c n hn).1 (ix3 u ρ d) = ∑ q : Fin 8192, rv1_f V c kk R d q := by
  rw [rv1_out_last V c n hn ρ d hl,
    rv1_acc_step V c n hn ρ d kk R hkk hR 3 hl.symm (by omega),
    rv1_acc_step V c (n - 1) _ ρ d kk R (by omega) (by omega) 2 (by show 2 = _; omega) (by omega),
    rv1_acc_step V c (n - 1 - 1) _ ρ d kk R (by omega) (by omega) 1 (by show 1 = _; omega) (by omega),
    rv1_acc_first V c (n - 1 - 1 - 1) _ ρ d kk R (by omega) (by omega) (by omega),
    rv1_sum4, Fin.sum_univ_four, zero_add]
  rfl

end

def rv1_G : Buf (Elt Ideal) ((c : Thread nD τ).loc main_v11) :=
  fun i : S2x8192x128.Idx => (∑ q : Fin 8192, rv1_f V c (i 0) (i 1) (i 2) q : EReal)

theorem rv1_flushed_eq (t : Fin cfg1.N) (hf : (cfg1.win 2).flush t = true) :
    (dat1 V c).flushed 2 t = ((cfg1.win 2).blk t).view.read (Elt Ideal) (rv1_G V c) := by
  have hl := (flush1_2 t).mp hf
  have hN : t.val < 64 := t.isLt
  show (cfg1.win 2).cut (grid1.coords t) ((dat1 V c).after 2 t) = _
  rw [after1_out]
  funext y
  obtain ⟨u, ρ, d, rfl⟩ : ∃ (u : Fin 1) (ρ : Fin 1024) (d : Fin 128), y = ix3 u ρ d := ⟨_, _, _, eq_ix3 y⟩
  have hemb : (((cfg1.win 2).blk t).view.emb (ix3 u ρ d) : S2x8192x128.Idx)
      = ix3 (⟨t.val / 32, by omega⟩ : Fin 2) (⟨1024 * (t.val / 4 % 8) + ρ.val, by omega⟩ : Fin 8192) d :=
    funext fun a => Fin.ext (by
      match a with
      | ⟨0, _⟩ => show win1_2.index t 0 * 1 + 1 * u.val = t.val / 32; simp only [rv1_idx_facts t]; omega
      | ⟨1, _⟩ => show win1_2.index t 1 * 1024 + 1 * ρ.val = 1024 * (t.val / 4 % 8) + ρ.val; simp only [rv1_idx_facts t]; omega
      | ⟨2, _⟩ => show win1_2.index t 2 * 128 + 1 * d.val = d.val; simp only [rv1_idx_facts t]; omega)
  show (outsAt1 V c t.val t.isLt).1 (ix3 u ρ d) = rv1_G V c (((cfg1.win 2).blk t).view.emb (ix3 u ρ d))
  rw [hemb]
  exact rv1_out_eq V c t.val t.isLt ρ d _ _ rfl rfl hl u

theorem rv1_cover (i : S2x8192x128.Idx) :
    ∃ t : Fin cfg1.N, (cfg1.win 2).flush t = true ∧ i ∈ ((cfg1.win 2).blk t).view.set := by
  have ha : (i 0).val < 2 := (i 0).isLt
  have hb : (i 1).val < 8192 := (i 1).isLt
  have hc : (i 2).val < 128 := (i 2).isLt
  obtain ⟨t, ht⟩ : ∃ t : Fin cfg1.N, t.val = (i 0).val * 32 + (i 1).val / 1024 * 4 + 3 :=
    ⟨⟨(i 0).val * 32 + (i 1).val / 1024 * 4 + 3, by show _ < 64; omega⟩, rfl⟩
  refine ⟨t, (flush1_2 t).mpr (by omega), ?_⟩
  show i ∈ ((View.whole main_v11).slice (win1_2.rect t)).set
  rw [View.set_slice_whole, Rect.mem_set_unit]
  intro a
  match a with
  | ⟨0, _⟩ =>
    show win1_2.index t 0 * 1 ≤ (i 0).val ∧ (i 0).val < win1_2.index t 0 * 1 + win1_2.xsize (grid1.coords t) 0
    simp only [rv1_idx_facts t]; omega
  | ⟨1, _⟩ =>
    show win1_2.index t 1 * 1024 ≤ (i 1).val ∧ (i 1).val < win1_2.index t 1 * 1024 + win1_2.xsize (grid1.coords t) 1
    simp only [rv1_idx_facts t]; omega
  | ⟨2, _⟩ =>
    show win1_2.index t 2 * 128 ≤ (i 2).val ∧ (i 2).val < win1_2.index t 2 * 128 + win1_2.xsize (grid1.coords t) 2
    simp only [rv1_idx_facts t]; omega

theorem rv1 (kk : Fin 2) (r : Fin 8192) (d : Fin 128) :
    rv1_O V c (ix3 kk r d) = ∑ q : Fin 8192, rv1_K V c (ix3 kk r q) * rv1_S V c (ix2 q d) :=
  congrFun ((dat1 V c).arrAt_eq_of_cover 2 (rv1_G V c) (rv1_flushed_eq V c) rv1_cover) (ix3 kk r d)

end Cert.KernelIdeal.Hand

end
-- ==== Proof.KI.R2Value.lean ====
import proofs.«429692_j807453851732_2_alg».proof.Proof.KI.R2Frame
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Hand

open Cert.KernelIdeal Cert.KernelIdeal.Gen
open Idealize.ShloMosaic Idealize.ShloMosaic.TcCoe Idealize.ShloMosaic.Tactic Idealize.ShloMosaic.ValueIdx

theorem rv2_sum4 (f : Fin 8192 → EReal) :
    ∑ q, f q = ∑ m : Fin 4, ∑ j : Fin 2048, f ⟨j.val + 2048 * m.val, by omega⟩ :=
  ((finProdFinEquiv (m := 4) (n := 2048)).sum_comp f).symm.trans (Fintype.sum_prod_type _)

theorem rv2_dot_apply (a : FVec Ideal S1024x2048 .bf16) (b : FVec Ideal S2048x256 .bf16) (ρ : Fin 1024) (d : Fin 256) :
    FloatOps.matmul dot_S1024x2048_S2048x256_S1024x256_1_0_0_1_n_n none a b (constant S1024x256 .f32 0x00000000#32) (ix2 ρ d)
      = ∑ j : Fin 2048, a (ix2 ρ j) * b (ix2 j d) := by
  rw [Ideal.matmul_constant_zero_apply, ← Equiv.sum_comp (contrEquiv1 dot_S1024x2048_S2048x256_S1024x256_1_0_0_1_n_n 2048 rfl rfl).symm]
  refine Finset.sum_congr rfl fun j _ => ?_
  congr 2 <;> funext x <;> apply Fin.ext <;> fin_cases x <;> rfl

theorem rv2_payZ_apply (i : S1024x256.Idx) : k2_pay1 (F := Ideal) i = 0 := by
  unfold k2_pay1
  simp only [shapeCast_self]
  exact Ideal.ofBits_zero_f32

theorem rv2_payU_apply (v3 : Vec Ideal S1x1024x2048 .f32) (v9 : Vec Ideal S2048x256 .bf16) (v11 : Vec Ideal S1024x256 .f32)
    (ρ : Fin 1024) (d : Fin 256) :
    k2_pay2 (F := Ideal) v3 v9 v11 (ix2 ρ d)
      = v11 (ix2 ρ d) + ∑ j : Fin 2048, v3 (ix3 (0 : Fin 1) ρ j) * v9 (ix2 j d) := by
  unfold k2_pay2
  simp only [shapeCast_self, matmul, addf_apply, rv2_dot_apply, truncf_apply, shapeCast_1ab_ab_apply]

theorem rv2_hz2 : (![0, 0] : Fin 2 → Nat) = fun _ => 0 := funext fun a => by fin_cases a <;> rfl
theorem rv2_hz3 : (![0, 0, 0] : Fin 3 → Nat) = fun _ => 0 := funext fun a => by fin_cases a <;> rfl

abbrev rv2_rows (i : grid2.Coords) (xr : Vec Ideal S8192x256 .bf16) : Vec Ideal S2048x256 .bf16 :=
  View.ld xr (Rect.unit (s := S8192x256) (k2_off1 i) S2048x256.size (k2_off1_inb i))

section
variable {c : Dev nD} {i : grid2.Coords} {arg3 : Memref sig .tc .vmem S1x1024x2048 .f32} {harg3 : arg3.IsWhole}
  {arg4 : Memref sig .tc .vmem S8192x256 .bf16} {harg4 : arg4.IsWhole} {arg5 : Memref sig .tc .vmem S1x1024x256 .f32}
  {harg5 : arg5.IsWhole} {arg6 : Memref sig .tc .vmem S1024x256 .f32} {harg6 : arg6.IsWhole}
  (xk : Vec Ideal S1x1024x2048 .f32) (xr : Vec Ideal S8192x256 .bf16) (xs : Vec Ideal S1024x256 .f32)

theorem rv2_soutA {hcz : cond2_0 i} {hcl : ¬cond2_1 i} :
    sout2_A_0 c i arg3 harg3 arg4 harg4 arg5 harg5 arg6 harg6 hcz hcl xk xr = k2_pay2 xk (rv2_rows i xr) (k2_pay1 (F := Ideal)) := by
  unfold sout2_A_0
  rw [View.read_writes_eq_canon _ _ _ (scover2_A_0 c i arg3 harg3 arg4 harg4 arg5 harg5 arg6 harg6 hcz hcl xk xr)]
  unfold kernelRun2_A
  dsimp only
  sl_unfold_words
  rw [View.canon_cons_unit_zero (S := S1024x256) rv2_hz2, View.readCov_unit_zero (S := S1024x256) _ rv2_hz2]
  simp only [View.readAt_eq_ld, Memref.IsWhole.read_unread, View.ld_unit_zero (S := S1x1024x2048) rv2_hz3]
  rfl

theorem rv2_soutB {hcz : ¬cond2_0 i} {hcl : ¬cond2_1 i} :
    sout2_B_0 c i arg3 harg3 arg4 harg4 arg5 harg5 arg6 harg6 hcz hcl xk xr xs = k2_pay2 xk (rv2_rows i xr) xs := by
  unfold sout2_B_0
  rw [View.read_writes_eq_canon _ _ _ (scover2_B_0 c i arg3 harg3 arg4 harg4 arg5 harg5 arg6 harg6 hcz hcl xk xr xs)]
  unfold kernelRun2_B
  dsimp only
  sl_unfold_words
  rw [View.canon_unit_zero (S := S1024x256) rv2_hz2]
  simp only [View.readAt_eq_ld, Memref.IsWhole.read_unread, View.ld_unit_zero (S := S1x1024x2048) rv2_hz3, View.ld_unit_zero (S := S1024x256) rv2_hz2]
  rfl

theorem rv2_soutC {hcz : ¬cond2_0 i} {hcl : cond2_1 i} :
    sout2_C_0 c i arg3 harg3 arg4 harg4 arg5 harg5 arg6 harg6 hcz hcl xk xr xs = k2_pay2 xk (rv2_rows i xr) xs := by
  unfold sout2_C_0
  rw [View.read_writes_eq_canon _ _ _ (scover2_C_0 c i arg3 harg3 arg4 harg4 arg5 harg5 arg6 harg6 hcz hcl xk xr xs)]
  unfold kernelRun2_C
  dsimp only
  sl_unfold_words
  rw [View.canon_unit_zero (S := S1024x256) rv2_hz2]
  simp only [View.readAt_eq_ld, Memref.IsWhole.read_unread, View.ld_unit_zero (S := S1x1024x2048) rv2_hz3, View.ld_unit_zero (S := S1024x256) rv2_hz2]
  rfl

theorem rv2_outC {hcz : ¬cond2_0 i} {hcl : cond2_1 i} :
    out2_C_2 c i arg3 harg3 arg4 harg4 arg5 harg5 arg6 harg6 hcz hcl xk xr xs = k2_pay3 (k2_pay2 xk (rv2_rows i xr) xs) := by
  unfold out2_C_2
  rw [View.read_writes_eq_canon _ _ _ (cover2_C_2 c i arg3 harg3 arg4 harg4 arg5 harg5 arg6 harg6 hcz hcl xk xr xs)]
  unfold kernelRun2_C
  dsimp only
  sl_unfold_words
  rw [View.canon_unit_zero (S := S1x1024x256) rv2_hz3, View.readCov_unit_zero (S := S1024x256) _ rv2_hz2]
  simp only [View.readAt_eq_ld, Memref.IsWhole.read_unread, View.ld_unit_zero (S := S1x1024x2048) rv2_hz3, View.ld_unit_zero (S := S1024x256) rv2_hz2]
  rfl

end

theorem rv2_idx_facts : ∀ t : Fin cfg2.N,
    win2_0.index t 0 = t.val / 32 ∧ win2_0.index t 1 = t.val / 4 % 8 ∧ win2_0.index t 2 = t.val % 4
    ∧ win2_1.index t 0 = 0 ∧ win2_1.index t 1 = 0
    ∧ win2_2.index t 0 = t.val / 32 ∧ win2_2.index t 1 = t.val / 4 % 8 ∧ win2_2.index t 2 = 0
    ∧ k2_off1 (grid2.coords t) 0 = 2048 * (t.val % 4) ∧ k2_off1 (grid2.coords t) 1 = 0
    ∧ win2_2.xsize (grid2.coords t) 0 = 1 ∧ win2_2.xsize (grid2.coords t) 1 = 1024 ∧ win2_2.xsize (grid2.coords t) 2 = 256 :=
  (by decide +kernel : ∀ t : Fin grid2.N, _)

variable (V : (c : Dev nD) → (b : Ref sig .tc) → Buf (Elt Ideal) ((c : Thread nD τ).loc b)) (c : Dev nD)

theorem rv2_iblk0_apply (t : Fin cfg2.N) (ρ : Fin 1024) (j : Fin 2048) (k : S2x8192x8192.Idx)
    (ha : (k 0).val = t.val / 32) (hb : (k 1).val = 1024 * (t.val / 4 % 8) + ρ.val) (hc : (k 2).val = 2048 * (t.val % 4) + j.val) :
    (iblk2 V c 0 t : Vec Ideal S1x1024x2048 .f32) (ix3 (0 : Fin 1) ρ j) = (V c main_arg1 : S2x8192x8192.Idx → EReal) k := by
  show V c main_arg1 _ = V c main_arg1 _
  congr 1
  funext a
  apply Fin.ext
  match a with
  | ⟨0, _⟩ => show win2_0.index t 0 * 1 + 1 * 0 = (k 0).val; simp only [rv2_idx_facts t]; omega
  | ⟨1, _⟩ => show win2_0.index t 1 * 1024 + 1 * ρ.val = (k 1).val; simp only [rv2_idx_facts t]; omega
  | ⟨2, _⟩ => show win2_0.index t 2 * 2048 + 1 * j.val = (k 2).val; simp only [rv2_idx_facts t]; omega

theorem rv2_rows_apply (t : Fin cfg2.N) (j : Fin 2048) (d : Fin 256) (q : Fin 8192) (hq : q.val = 2048 * (t.val % 4) + j.val) :
    rv2_rows (grid2.coords t) (iblk2 V c 1 t : Vec Ideal S8192x256 .bf16) (ix2 j d) = (V c main_v19 : S8192x256.Idx → EReal) (ix2 q d) := by
  show V c main_v19 _ = V c main_v19 _
  congr 1
  funext a
  apply Fin.ext
  match a with
  | ⟨0, _⟩ => show win2_1.index t 0 * 8192 + 1 * (k2_off1 (grid2.coords t) 0 + 1 * j.val) = q.val; simp only [rv2_idx_facts t]; omega
  | ⟨1, _⟩ => show win2_1.index t 1 * 256 + 1 * (k2_off1 (grid2.coords t) 1 + 1 * d.val) = d.val; simp only [rv2_idx_facts t]; omega

abbrev rv2_K : S2x8192x8192.Idx → EReal := V c main_arg1

abbrev rv2_S : S8192x256.Idx → EReal := V c main_v19

abbrev rv2_O : S2x8192x256.Idx → EReal := (dat2 V c).arrAt 2 cfg2.N

abbrev rv2_f (kk : Fin 2) (R : Fin 8192) (d : Fin 256) (q : Fin 8192) : EReal :=
  rv2_K V c (ix3 kk R q) * rv2_S V c (ix2 q d)

def rv2_P (kk : Fin 2) (R : Fin 8192) (d : Fin 256) (m : Fin 4) : EReal :=
  ∑ j : Fin 2048, rv2_f V c kk R d ⟨j.val + 2048 * m.val, by omega⟩

section
variable (n : ℕ) (hn : n < cfg2.N) (ρ : Fin 1024) (d : Fin 256)

theorem rv2_out_last (hl : n % 4 = 3) (u : Fin 1) :
    (outsAt2 V c n hn).1 (ix3 u ρ d) = (outsAt2 V c n hn).2 (ix2 ρ d) := by
  rw [outsAt2_C V c ⟨n, hn⟩ (by show ¬ n % 4 = 0; omega) hl]
  dsimp only
  rw [rv2_outC, rv2_soutC]
  unfold k2_pay3
  exact shapeCast_ab_1ab_apply _ _ u ρ d

variable (kk : Fin 2) (R : Fin 8192) (hkk : kk.val = n / 32) (hR : R.val = 1024 * (n / 4 % 8) + ρ.val)
include hkk hR

theorem rv2_pay2_point (m : Fin 4) (hm : m.val = n % 4) (acc : Vec Ideal S1024x256 .f32) :
    k2_pay2 (F := Ideal) (iblk2 V c 0 ⟨n, hn⟩) (rv2_rows (grid2.coords ⟨n, hn⟩) (iblk2 V c 1 ⟨n, hn⟩)) acc (ix2 ρ d)
      = acc (ix2 ρ d) + rv2_P V c kk R d m := by
  refine (rv2_payU_apply _ _ _ ρ d).trans (congrArg (acc (ix2 ρ d) + ·) (Finset.sum_congr rfl fun j _ => ?_))
  rw [rv2_iblk0_apply V c ⟨n, hn⟩ ρ j (ix3 kk R ⟨j.val + 2048 * m.val, by omega⟩) hkk hR (by show j.val + 2048 * m.val = 2048 * (n % 4) + j.val; omega),
    rv2_rows_apply V c ⟨n, hn⟩ j d ⟨j.val + 2048 * m.val, by omega⟩ (by show j.val + 2048 * m.val = 2048 * (n % 4) + j.val; omega)]

theorem rv2_acc_first (hz : n % 4 = 0) : (outsAt2 V c n hn).2 (ix2 ρ d) = 0 + rv2_P V c kk R d 0 := by
  rw [outsAt2_A V c ⟨n, hn⟩ hz (by show ¬ n % 4 = 3; omega)]
  dsimp only
  rw [rv2_soutA, rv2_pay2_point V c n hn ρ d kk R hkk hR 0 hz.symm, rv2_payZ_apply]

theorem rv2_acc_step (m : Fin 4) (hm : m.val = n % 4) (hnz : ¬ n % 4 = 0) :
    (outsAt2 V c n hn).2 (ix2 ρ d)
      = (outsAt2 V c (n - 1) (Nat.lt_of_le_of_lt (Nat.sub_le _ _) hn)).2 (ix2 ρ d) + rv2_P V c kk R d m := by
  by_cases hl : n % 4 = 3
  · rw [outsAt2_C V c ⟨n, hn⟩ hnz hl]
    dsimp only
    rw [rv2_soutC]
    exact rv2_pay2_point V c n hn ρ d kk R hkk hR m hm _
  · rw [outsAt2_B V c ⟨n, hn⟩ hnz hl]
    dsimp only
    rw [rv2_soutB]
    exact rv2_pay2_point V c n hn ρ d kk R hkk hR m hm _

theorem rv2_out_eq (hl : n % 4 = 3) (u : Fin 1) :
    (outsAt2 V c n hn).1 (ix3 u ρ d) = ∑ q : Fin 8192, rv2_f V c kk R d q := by
  rw [rv2_out_last V c n hn ρ d hl,
    rv2_acc_step V c n hn ρ d kk R hkk hR 3 hl.symm (by omega),
    rv2_acc_step V c (n - 1) _ ρ d kk R (by omega) (by omega) 2 (by show 2 = _; omega) (by omega),
    rv2_acc_step V c (n - 1 - 1) _ ρ d kk R (by omega) (by omega) 1 (by show 1 = _; omega) (by omega),
    rv2_acc_first V c (n - 1 - 1 - 1) _ ρ d kk R (by omega) (by omega) (by omega),
    rv2_sum4, Fin.sum_univ_four, zero_add]
  rfl

end

def rv2_G : Buf (Elt Ideal) ((c : Thread nD τ).loc main_v20) :=
  fun i : S2x8192x256.Idx => (∑ q : Fin 8192, rv2_f V c (i 0) (i 1) (i 2) q : EReal)

theorem rv2_flushed_eq (t : Fin cfg2.N) (hf : (cfg2.win 2).flush t = true) :
    (dat2 V c).flushed 2 t = ((cfg2.win 2).blk t).view.read (Elt Ideal) (rv2_G V c) := by
  have hl := (flush2_2 t).mp hf
  have hN : t.val < 64 := t.isLt
  show (cfg2.win 2).cut (grid2.coords t) ((dat2 V c).after 2 t) = _
  rw [after2_out]
  funext y
  obtain ⟨u, ρ, d, rfl⟩ : ∃ (u : Fin 1) (ρ : Fin 1024) (d : Fin 256), y = ix3 u ρ d := ⟨_, _, _, eq_ix3 y⟩
  have hemb : (((cfg2.win 2).blk t).view.emb (ix3 u ρ d) : S2x8192x256.Idx)
      = ix3 (⟨t.val / 32, by omega⟩ : Fin 2) (⟨1024 * (t.val / 4 % 8) + ρ.val, by omega⟩ : Fin 8192) d :=
    funext fun a => Fin.ext (by
      match a with
      | ⟨0, _⟩ => show win2_2.index t 0 * 1 + 1 * u.val = t.val / 32; simp only [rv2_idx_facts t]; omega
      | ⟨1, _⟩ => show win2_2.index t 1 * 1024 + 1 * ρ.val = 1024 * (t.val / 4 % 8) + ρ.val; simp only [rv2_idx_facts t]; omega
      | ⟨2, _⟩ => show win2_2.index t 2 * 256 + 1 * d.val = d.val; simp only [rv2_idx_facts t]; omega)
  show (outsAt2 V c t.val t.isLt).1 (ix3 u ρ d) = rv2_G V c (((cfg2.win 2).blk t).view.emb (ix3 u ρ d))
  rw [hemb]
  exact rv2_out_eq V c t.val t.isLt ρ d _ _ rfl rfl hl u

theorem rv2_cover (i : S2x8192x256.Idx) :
    ∃ t : Fin cfg2.N, (cfg2.win 2).flush t = true ∧ i ∈ ((cfg2.win 2).blk t).view.set := by
  have ha : (i 0).val < 2 := (i 0).isLt
  have hb : (i 1).val < 8192 := (i 1).isLt
  have hc : (i 2).val < 256 := (i 2).isLt
  obtain ⟨t, ht⟩ : ∃ t : Fin cfg2.N, t.val = (i 0).val * 32 + (i 1).val / 1024 * 4 + 3 :=
    ⟨⟨(i 0).val * 32 + (i 1).val / 1024 * 4 + 3, by show _ < 64; omega⟩, rfl⟩
  refine ⟨t, (flush2_2 t).mpr (by omega), ?_⟩
  show i ∈ ((View.whole main_v20).slice (win2_2.rect t)).set
  rw [View.set_slice_whole, Rect.mem_set_unit]
  intro a
  match a with
  | ⟨0, _⟩ =>
    show win2_2.index t 0 * 1 ≤ (i 0).val ∧ (i 0).val < win2_2.index t 0 * 1 + win2_2.xsize (grid2.coords t) 0
    simp only [rv2_idx_facts t]; omega
  | ⟨1, _⟩ =>
    show win2_2.index t 1 * 1024 ≤ (i 1).val ∧ (i 1).val < win2_2.index t 1 * 1024 + win2_2.xsize (grid2.coords t) 1
    simp only [rv2_idx_facts t]; omega
  | ⟨2, _⟩ =>
    show win2_2.index t 2 * 256 ≤ (i 2).val ∧ (i 2).val < win2_2.index t 2 * 256 + win2_2.xsize (grid2.coords t) 2
    simp only [rv2_idx_facts t]; omega

theorem rv2 (kk : Fin 2) (r : Fin 8192) (d : Fin 256) :
    rv2_O V c (ix3 kk r d) = ∑ q : Fin 8192, rv2_K V c (ix3 kk r q) * rv2_S V c (ix2 q d) :=
  congrFun ((dat2 V c).arrAt_eq_of_cover 2 (rv2_G V c) (rv2_flushed_eq V c) rv2_cover) (ix3 kk r d)

end Cert.KernelIdeal.Hand

end
-- ==== Proof.KI.R3Value.lean ====
import proofs.«429692_j807453851732_2_alg».proof.Proof.KI.R3Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

theorem dotA_apply (a : FVec Ideal S1024x128 .bf16) (w : FVec Ideal S128x128 .bf16) (ρ : Fin 1024) (o : Fin 128) :
    FloatOps.matmul dot_S1024x128_S128x128_S1024x128_1_0_0_1_n_n none a w (constant S1024x128 .f32 0x00000000#32) (ix2 ρ o)
      = ∑ k : Fin 128, a (ix2 ρ k) * w (ix2 k o) := by
  rw [Ideal.matmul_constant_zero_apply, ← Equiv.sum_comp (contrEquiv1 dot_S1024x128_S128x128_S1024x128_1_0_0_1_n_n 128 rfl rfl).symm]
  refine Finset.sum_congr rfl fun k _ => ?_
  congr 2 <;> funext x <;> apply Fin.ext <;> fin_cases x <;> rfl

theorem dotB_apply (a : FVec Ideal S1024x256 .bf16) (w : FVec Ideal S256x128 .bf16) (ρ : Fin 1024) (o : Fin 128) :
    FloatOps.matmul dot_S1024x256_S256x128_S1024x128_1_0_0_1_n_n none a w (constant S1024x128 .f32 0x00000000#32) (ix2 ρ o)
      = ∑ k : Fin 256, a (ix2 ρ k) * w (ix2 k o) := by
  rw [Ideal.matmul_constant_zero_apply, ← Equiv.sum_comp (contrEquiv1 dot_S1024x256_S256x128_S1024x128_1_0_0_1_n_n 256 rfl rfl).symm]
  refine Finset.sum_congr rfl fun k _ => ?_
  congr 2 <;> funext x <;> apply Fin.ext <;> fin_cases x <;> rfl

theorem tanh_apply {s : Shape} {φ : FTy} (x : FVec Ideal s φ) (i : s.Idx) : tanh x i = Ideal.tanh (x i) := rfl

theorem pay3_apply (v0 v7 v15 : Vec Ideal S1024x128 .f32) (v23 v31 : Vec Ideal S1024x256 .f32) (v3 v10 v18 : Vec Ideal S128x128 .f32)
    (v26 v34 : Vec Ideal S256x128 .f32) (v39 : Vec Ideal S1x128 .f32) (ρ : Fin 1024) (o : Fin 128) :
    k3_pay1 (k3_pay2 v0 v3 v7 v10 v15 v18 v23 v26) (k3_pay3 v31) v34 v39 (ix2 ρ o)
      = Ideal.tanh ((((((∑ d : Fin 128, v0 (ix2 ρ d) * v3 (ix2 d o)) + ∑ d : Fin 128, v7 (ix2 ρ d) * v10 (ix2 d o))
          + ∑ d : Fin 128, v15 (ix2 ρ d) * v18 (ix2 d o)) + ∑ e : Fin 256, v23 (ix2 ρ e) * v26 (ix2 e o))
          + ∑ e : Fin 256, v31 (ix2 ρ e) * v34 (ix2 e o)) + v39 (ix2 (0 : Fin 1) o)) := by
  unfold k3_pay1 k3_pay2 k3_pay3
  simp only [shapeCast_self, matmul, tanh_apply, addf_apply, dotA_apply, dotB_apply, broadcastTo_1b_ab_apply, truncf_apply]

theorem hz3 : (![0, 0] : Fin 2 → Nat) = fun _ => 0 := funext fun a => by fin_cases a <;> rfl

theorem idx3 : ∀ t : Fin cfg3.N,
    win3_0.index t 0 = t.val ∧ win3_0.index t 1 = 0 ∧ win3_1.index t 0 = t.val ∧ win3_1.index t 1 = 0 ∧ win3_2.index t 0 = t.val ∧ win3_2.index t 1 = 0 ∧ win3_3.index t 0 = t.val ∧ win3_3.index t 1 = 0
    ∧ win3_4.index t 0 = t.val ∧ win3_4.index t 1 = 0 ∧ win3_11.index t 0 = t.val ∧ win3_11.index t 1 = 0 ∧ win3_5.index t 0 = 0 ∧ win3_5.index t 1 = 0 ∧ win3_6.index t 0 = 0 ∧ win3_6.index t 1 = 0
    ∧ win3_7.index t 0 = 0 ∧ win3_7.index t 1 = 0 ∧ win3_8.index t 0 = 0 ∧ win3_8.index t 1 = 0 ∧ win3_9.index t 0 = 0 ∧ win3_9.index t 1 = 0 ∧ win3_10.index t 0 = 0 ∧ win3_10.index t 1 = 0 :=
  (by decide +kernel : ∀ t : Fin grid3.N, _)

variable (V : (c : Dev nD) → (b : Ref sig .tc) → Buf (Elt Ideal) ((c : Thread nD τ).loc b)) (c : Dev nD)

section
variable (t : Fin cfg3.N)

theorem iblk3_5_at (p : Fin 128) (q : Fin 128) :
    (iblk3 V c 5 t : Vec Ideal S128x128 .f32) (ix2 p q) = V c main_v34 (ix2 p q) := by
  show V c main_v34 _ = V c main_v34 _
  congr 1
  funext a
  apply Fin.ext
  match a with
  | ⟨0, _⟩ => show win3_5.index t 0 * 128 + 1 * p.val = p.val; simp only [idx3 t]; omega
  | ⟨1, _⟩ => show win3_5.index t 1 * 128 + 1 * q.val = q.val; simp only [idx3 t]; omega
theorem iblk3_6_at (p : Fin 128) (q : Fin 128) :
    (iblk3 V c 6 t : Vec Ideal S128x128 .f32) (ix2 p q) = V c main_v35 (ix2 p q) := by
  show V c main_v35 _ = V c main_v35 _
  congr 1
  funext a
  apply Fin.ext
  match a with
  | ⟨0, _⟩ => show win3_6.index t 0 * 128 + 1 * p.val = p.val; simp only [idx3 t]; omega
  | ⟨1, _⟩ => show win3_6.index t 1 * 128 + 1 * q.val = q.val; simp only [idx3 t]; omega
theorem iblk3_7_at (p : Fin 128) (q : Fin 128) :
    (iblk3 V c 7 t : Vec Ideal S128x128 .f32) (ix2 p q) = V c main_v36 (ix2 p q) := by
  show V c main_v36 _ = V c main_v36 _
  congr 1
  funext a
  apply Fin.ext
  match a with
  | ⟨0, _⟩ => show win3_7.index t 0 * 128 + 1 * p.val = p.val; simp only [idx3 t]; omega
  | ⟨1, _⟩ => show win3_7.index t 1 * 128 + 1 * q.val = q.val; simp only [idx3 t]; omega
theorem iblk3_8_at (p : Fin 256) (q : Fin 128) :
    (iblk3 V c 8 t : Vec Ideal S256x128 .f32) (ix2 p q) = V c main_v37 (ix2 p q) := by
  show V c main_v37 _ = V c main_v37 _
  congr 1
  funext a
  apply Fin.ext
  match a with
  | ⟨0, _⟩ => show win3_8.index t 0 * 256 + 1 * p.val = p.val; simp only [idx3 t]; omega
  | ⟨1, _⟩ => show win3_8.index t 1 * 128 + 1 * q.val = q.val; simp only [idx3 t]; omega
theorem iblk3_9_at (p : Fin 256) (q : Fin 128) :
    (iblk3 V c 9 t : Vec Ideal S256x128 .f32) (ix2 p q) = V c main_v38 (ix2 p q) := by
  show V c main_v38 _ = V c main_v38 _
  congr 1
  funext a
  apply Fin.ext
  match a with
  | ⟨0, _⟩ => show win3_9.index t 0 * 256 + 1 * p.val = p.val; simp only [idx3 t]; omega
  | ⟨1, _⟩ => show win3_9.index t 1 * 128 + 1 * q.val = q.val; simp only [idx3 t]; omega
theorem iblk3_10_at (p : Fin 1) (q : Fin 128) :
    (iblk3 V c 10 t : Vec Ideal S1x128 .f32) (ix2 p q) = V c main_v40 (ix2 p q) := by
  show V c main_v40 _ = V c main_v40 _
  congr 1
  funext a
  apply Fin.ext
  match a with
  | ⟨0, _⟩ => show win3_10.index t 0 * 1 + 1 * p.val = p.val; simp only [idx3 t]; omega
  | ⟨1, _⟩ => show win3_10.index t 1 * 128 + 1 * q.val = q.val; simp only [idx3 t]; omega

variable (ρ : Fin 1024) (r : Fin 8192) (h : r.val = 1024 * t.val + ρ.val)
include h

theorem iblk3_0_at (d : Fin 128) :
    (iblk3 V c 0 t : Vec Ideal S1024x128 .f32) (ix2 ρ d) = V c main_v2 (ix2 r d) := by
  show V c main_v2 _ = V c main_v2 _
  congr 1
  funext a
  apply Fin.ext
  match a with
  | ⟨0, _⟩ => show win3_0.index t 0 * 1024 + 1 * ρ.val = r.val; simp only [idx3 t]; omega
  | ⟨1, _⟩ => show win3_0.index t 1 * 128 + 1 * d.val = d.val; simp only [idx3 t]; omega
theorem iblk3_1_at (d : Fin 128) :
    (iblk3 V c 1 t : Vec Ideal S1024x128 .f32) (ix2 ρ d) = V c main_v22 (ix2 r d) := by
  show V c main_v22 _ = V c main_v22 _
  congr 1
  funext a
  apply Fin.ext
  match a with
  | ⟨0, _⟩ => show win3_1.index t 0 * 1024 + 1 * ρ.val = r.val; simp only [idx3 t]; omega
  | ⟨1, _⟩ => show win3_1.index t 1 * 128 + 1 * d.val = d.val; simp only [idx3 t]; omega
theorem iblk3_2_at (d : Fin 128) :
    (iblk3 V c 2 t : Vec Ideal S1024x128 .f32) (ix2 ρ d) = V c main_v24 (ix2 r d) := by
  show V c main_v24 _ = V c main_v24 _
  congr 1
  funext a
  apply Fin.ext
  match a with
  | ⟨0, _⟩ => show win3_2.index t 0 * 1024 + 1 * ρ.val = r.val; simp only [idx3 t]; omega
  | ⟨1, _⟩ => show win3_2.index t 1 * 128 + 1 * d.val = d.val; simp only [idx3 t]; omega
theorem iblk3_3_at (d : Fin 256) :
    (iblk3 V c 3 t : Vec Ideal S1024x256 .f32) (ix2 ρ d) = V c main_v26 (ix2 r d) := by
  show V c main_v26 _ = V c main_v26 _
  congr 1
  funext a
  apply Fin.ext
  match a with
  | ⟨0, _⟩ => show win3_3.index t 0 * 1024 + 1 * ρ.val = r.val; simp only [idx3 t]; omega
  | ⟨1, _⟩ => show win3_3.index t 1 * 256 + 1 * d.val = d.val; simp only [idx3 t]; omega
theorem iblk3_4_at (d : Fin 256) :
    (iblk3 V c 4 t : Vec Ideal S1024x256 .f32) (ix2 ρ d) = V c main_v28 (ix2 r d) := by
  show V c main_v28 _ = V c main_v28 _
  congr 1
  funext a
  apply Fin.ext
  match a with
  | ⟨0, _⟩ => show win3_4.index t 0 * 1024 + 1 * ρ.val = r.val; simp only [idx3 t]; omega
  | ⟨1, _⟩ => show win3_4.index t 1 * 256 + 1 * d.val = d.val; simp only [idx3 t]; omega

end

local notation:70 a:70 " *ₑ " b:71 => @HMul.hMul EReal EReal EReal _ a b

def G3pt (r : Fin 8192) (o : Fin 128) : EReal :=
  Ideal.tanh ((((((∑ d : Fin 128, V c main_v2 (ix2 r d) *ₑ V c main_v34 (ix2 d o)) + ∑ d : Fin 128, V c main_v22 (ix2 r d) *ₑ V c main_v35 (ix2 d o)) + ∑ d : Fin 128, V c main_v24 (ix2 r d) *ₑ V c main_v36 (ix2 d o)) + ∑ e : Fin 256, V c main_v26 (ix2 r e) *ₑ V c main_v37 (ix2 e o)) + ∑ e : Fin 256, V c main_v28 (ix2 r e) *ₑ V c main_v38 (ix2 e o)) + V c main_v40 (ix2 0 o))

def G3 : Buf (Elt Ideal) ((c : Thread nD τ).loc main_v41) :=
  fun i : S8192x128.Idx => G3pt V c (i 0) (i 1)

theorem flushed3_pt (t : Fin cfg3.N) (j : S1024x128.Idx) (i : S8192x128.Idx)
    (hi0 : (i 0).val = 1024 * t.val + (j 0).val) (hi1 : (i 1).val = (j 1).val) :
    k3_pay1 (k3_pay2 (iblk3 V c 0 t) (iblk3 V c 5 t) (iblk3 V c 1 t) (iblk3 V c 6 t) (iblk3 V c 2 t) (iblk3 V c 7 t) (iblk3 V c 3 t) (iblk3 V c 8 t)) (k3_pay3 (iblk3 V c 4 t)) (iblk3 V c 9 t) (iblk3 V c 10 t) j = G3 V c i := by
  obtain ⟨ρ, o, rfl⟩ : ∃ (ρ : Fin 1024) (o : Fin 128), j = ix2 ρ o := ⟨j 0, j 1, eq_ix2 j⟩
  have ho : i 1 = o := Fin.ext hi1
  rw [pay3_apply]
  unfold G3 G3pt
  rw [ho]
  simp only [iblk3_0_at V c t ρ (i 0) hi0, iblk3_1_at V c t ρ (i 0) hi0,
    iblk3_2_at V c t ρ (i 0) hi0, iblk3_3_at V c t ρ (i 0) hi0,
    iblk3_4_at V c t ρ (i 0) hi0, iblk3_5_at V c t, iblk3_6_at V c t, iblk3_7_at V c t,
    iblk3_8_at V c t, iblk3_9_at V c t, iblk3_10_at V c t]

theorem flushed3_eq (t : Fin cfg3.N) :
    (dat3 V c).flushed 11 t = ((cfg3.win 11).blk t).view.read (Elt Ideal) (G3 V c) := by
  show (cfg3.win 11).cut (grid3.coords t) ((dat3 V c).after 11 t) = _
  rw [after3_11]
  unfold out3_11
  rw [View.canon_unit_zero hz3]
  simp only [View.ld_unit_zero (S := S1024x128) hz3, View.ld_unit_zero (S := S1024x256) hz3,
    View.ld_unit_zero (S := S128x128) hz3, View.ld_unit_zero (S := S256x128) hz3, View.ld_unit_zero (S := S1x128) hz3]
  funext j
  refine flushed3_pt V c t j (((cfg3.win 11).blk t).view.emb j) ?_ ?_
  · show win3_11.index t 0 * 1024 + 1 * (j 0).val = 1024 * t.val + (j 0).val
    simp only [idx3 t]; omega
  · show win3_11.index t 1 * 128 + 1 * (j 1).val = (j 1).val
    simp only [idx3 t]; omega

theorem cover3 (i : S8192x128.Idx) : ∃ t : Fin cfg3.N, (cfg3.win 11).flush t = true ∧ i ∈ ((cfg3.win 11).blk t).view.set := by
  have h0 : (i 0).val < 8192 := (i 0).isLt
  have hi : (i 1).val < 128 := (i 1).isLt
  obtain ⟨t, ht⟩ : ∃ t : Fin cfg3.N, t.val = (i 0).val / 1024 := ⟨⟨(i 0).val / 1024, by show _ < 8; omega⟩, rfl⟩
  refine ⟨t, flush3_11 t, ?_⟩
  show i ∈ ((View.whole main_v41).slice (win3_11.rect t)).set
  rw [View.set_slice_whole, Rect.mem_set_unit]
  intro a
  match a with
  | ⟨0, _⟩ =>
    show win3_11.index t 0 * 1024 ≤ (i 0).val ∧ (i 0).val < win3_11.index t 0 * 1024 + 1024
    simp only [idx3 t]; omega
  | ⟨1, _⟩ =>
    show win3_11.index t 1 * 128 ≤ (i 1).val ∧ (i 1).val < win3_11.index t 1 * 128 + 128
    simp only [idx3 t]; omega

theorem rv3 (r : Fin 8192) (o' : Fin 128) :
    (dat3 V c).arrAt 11 cfg3.N (ValueIdx.ix2 r o') = Ideal.tanh ((((((∑ d : Fin 128, V c main_v2 (ValueIdx.ix2 r d) *ₑ V c main_v34 (ValueIdx.ix2 d o')) + ∑ d : Fin 128, V c main_v22 (ValueIdx.ix2 r d) *ₑ V c main_v35 (ValueIdx.ix2 d o')) + ∑ d : Fin 128, V c main_v24 (ValueIdx.ix2 r d) *ₑ V c main_v36 (ValueIdx.ix2 d o')) + ∑ e : Fin 256, V c main_v26 (ValueIdx.ix2 r e) *ₑ V c main_v37 (ValueIdx.ix2 e o')) + ∑ e : Fin 256, V c main_v28 (ValueIdx.ix2 r e) *ₑ V c main_v38 (ValueIdx.ix2 e o')) + V c main_v40 (ValueIdx.ix2 0 o')) :=
  congrFun ((dat3 V c).arrAt_eq_of_cover 11 (G3 V c) (fun t _ => flushed3_eq V c t) cover3) (ix2 r o')

end Cert.KernelIdeal.Hand

end
-- ==== Proof.RefValue.lean ====
import proofs.«429692_j807453851732_2_alg».proof.Proof.Gen.ReferenceIdeal.Read
import proofs.«429692_j807453851732_2_alg».proof.Proof.SpecArgs

noncomputable section

namespace Cert.ReferenceIdeal.RefValue

open Cert.ReferenceIdeal Idealize.ShloMosaic Idealize.ShloMosaic.ValueIdx Idealize.ShloMosaic.TcCoe Idealize.SL.Sem
open scoped BigOperators

variable [Cert.ReferenceIdeal.Facts]

section Gathers
variable {α : Type} {w : Nat} {s si t : Shape} (D : GatherDims s si t) (I : t.Idx) (idx : IVec si w) (a : Fin s.rank)
  (hb : D.operandBatchingDims = [])
include hb

theorem coord_off (ha : a ∉ D.startIndexMap) : (D.operandIdx I idx a).val = D.offCoord I a := by
  show D.start I idx a + D.batchCoord I a + _ = _
  rw [GatherDims.start, dif_neg ha, D.batchCoord_eq_zero _ _ (hb ▸ List.not_mem_nil)]
  exact Nat.zero_add _

theorem coord_start (ha : a ∈ D.startIndexMap) (hc : a ∈ D.collapsedSliceDims) {J : si.Idx}
    (hJ : D.siIdx I ⟨_, List.idxOf_lt_length_iff.2 ha⟩ = J) :
    (D.operandIdx I idx a).val = min (idx J).toInt.toNat (s.size a - D.sliceSizes a) := by
  subst hJ
  show D.start I idx a + D.batchCoord I a + D.offCoord I a = _
  rw [GatherDims.start, dif_pos ha, D.batchCoord_eq_zero _ _ (hb ▸ List.not_mem_nil), D.offCoord_eq_zero _ _ fun h => ((D.mem_sKept a).1 h).1 hc]
  rfl

omit hb

def clampRow (v : BitVec w) : Fin 8192 := ⟨min v.toInt.toNat 8191, by omega⟩

theorem gather_rows_apply (x : S8192x128.Idx → α) (idx : IVec S8192x1 w) (j : Fin 8192) (d : Fin 128) :
    Host.gather gather_S8192x128_S8192x1_S8192x128_1_0_n_n_0_1_1128 x idx (ix2 j d)
      = x (ix2 (clampRow (idx (ix2 j (0 : Fin 1)))) d) := by
  refine congrArg x (funext fun a => Fin.ext ?_)
  match a with
  | ⟨0, _⟩ => exact coord_start _ _ _ _ rfl (show (0 : Fin 2) ∈ _ by decide) (show (0 : Fin 2) ∈ _ by decide) (eq_ix2 _)
  | ⟨1, _⟩ => exact coord_off _ _ _ _ rfl (show (1 : Fin 2) ∉ _ by decide)

theorem gather_mid_apply (x : S2x8192x8192.Idx → α) (idx : IVec S8192x1 w) (kk : Fin 2) (j q : Fin 8192) :
    Host.gather gather_S2x8192x8192_S8192x1_S2x8192x8192_02_1_n_n_1_1_218192 x idx (ix3 kk j q)
      = x (ix3 kk (clampRow (idx (ix2 j (0 : Fin 1)))) q) := by
  refine congrArg x (funext fun a => Fin.ext ?_)
  match a with
  | ⟨0, _⟩ => exact coord_off _ _ _ _ rfl (show (0 : Fin 3) ∉ _ by decide)
  | ⟨1, _⟩ => exact coord_start _ _ _ _ rfl (show (1 : Fin 3) ∈ _ by decide) (show (1 : Fin 3) ∈ _ by decide) (eq_ix2 _)
  | ⟨2, _⟩ => exact coord_off _ _ _ _ rfl (show (2 : Fin 3) ∉ _ by decide)

theorem gather_last_apply (x : S2x8192x8192.Idx → α) (idx : IVec S8192x1 w) (kk : Fin 2) (j i : Fin 8192) :
    Host.gather gather_S2x8192x8192_S8192x1_S2x8192x8192_01_2_n_n_2_1_281921 x idx (ix3 kk j i)
      = x (ix3 kk j (clampRow (idx (ix2 i (0 : Fin 1))))) := by
  refine congrArg x (funext fun a => Fin.ext ?_)
  match a with
  | ⟨0, _⟩ => exact coord_off _ _ _ _ rfl (show (0 : Fin 3) ∉ _ by decide)
  | ⟨1, _⟩ => exact coord_off _ _ _ _ rfl (show (1 : Fin 3) ∉ _ by decide)
  | ⟨2, _⟩ => exact coord_start _ _ _ _ rfl (show (2 : Fin 3) ∈ _ by decide) (show (2 : Fin 3) ∈ _ by decide) (eq_ix2 _)

end Gathers

theorem slt_zero_of_nonneg (a : BitVec 32) (h : 0 ≤ a.toInt) : IntOp.cmpi .slt a 0#32 = 0#1 :=
  eq_zero_of_ne_one fun e => absurd (IntOp.cmpi_slt.1 e) (not_lt.2 h)

section Stages

variable {x0 : FVec Ideal S8192x128 .f32} {x1 : FVec Ideal S2x8192x8192 .f32} {x2 : FVec Ideal S8192x8192 .f32}
  {x3 : FVec Ideal S1 .f32} {x4 : FVec Ideal S896x64 .f32} {x5 : FVec Ideal S64 .f32} {x6 : IVec S8192 32}

local notation "fX" => (fun (r : Fin 8192) (d : Fin 128) => x0 (ix2 r d))
local notation "fK" => (fun (kk : Fin 2) (r q : Fin 8192) => x1 (ix3 kk r q))
local notation "fL" => (fun (r q : Fin 8192) => x2 (ix2 r q))
local notation "fT" => (x3 (ix1 (0 : Fin 1)))
local notation "fN" => (Cert.Spec.nidOf x6)

theorem v4_at (r : Fin 8192) (d : Fin 128) :
    Read.val_main_v4 (F := Ideal) x0 x2 x3 (ix2 r d) = Cert.Spec.x1 fX fL fT r d := by
  rw [Read.val_main_v4_apply, Read.val_main_v3_apply, Read.val_main_v2_apply, Read.val_main_v1_apply, Read.val_main_v0_apply]
  simp only [show ∀ k : Fin 8192, Read.lidx_main_v0 (ix2 r d) k = ix2 r k from fun _ => eq_ix2 _,
    show ∀ k : Fin 8192, Read.ridx_main_v0 (ix2 r d) k = ix2 k d from fun _ => eq_ix2 _,
    show Read.idx_main_v1 (Read.idx_main_v2 (ix2 r d)) = ix1 (0 : Fin 1) from eq_ix1 _]
  rfl

variable (h0 : ∀ j : Fin 8192, 0 ≤ (x6 (ix1 j)).toInt)
include h0

-- A non-negative id is not wrapped, and its clamp is the specification's node id.
theorem nid_at (j : Fin 8192) :
    clampRow (Read.val_main_v10 (F := Ideal) x6 (ix2 j (0 : Fin 1))) = fN j := by
  rw [Read.val_main_v10_apply, show Read.idx_main_v10 (ix2 j (0 : Fin 1)) = ix1 j from eq_ix1 _, Read.val_main_v9_apply,
    Read.val_main_v6_apply, Read.val_main_v5_apply, Read.val_main_c_apply, slt_zero_of_nonneg _ (h0 j), select_zero]
  rfl

theorem v11_at (j : Fin 8192) (d : Fin 128) :
    Read.val_main_v11 (F := Ideal) x0 x2 x3 x6 (ix2 j d) = Cert.Spec.xg fX fL fT fN j d := by
  rw [Read.val_main_v11, gather_rows_apply, nid_at h0, v4_at]
  rfl

-- The three wrapped id columns are one term.
theorem v25_at (kk : Fin 2) (j i : Fin 8192) :
    Read.val_main_v25 (F := Ideal) x1 x6 (ix3 kk j i) = Cert.Spec.Ks fK fN kk j i := by
  rw [Read.val_main_v25, Read.val_main_v18, gather_last_apply, gather_mid_apply]
  exact congrArg₂ (fun a b => x1 (ix3 kk a b)) (nid_at h0 j) (nid_at h0 i)

theorem v28_at (j : Fin 8192) (e : Fin 256) :
    Read.val_main_v28 (F := Ideal) x0 x1 x2 x3 x6 (ix2 j e) = Cert.Spec.h1r fX fK fL fT fN j e := by
  have e1 : Read.idx_main_v28 (ix2 j e)
      = ix3 j ⟨e.val / 128, by omega⟩ ⟨e.val % 128, by omega⟩ := by
    funext a; refine Fin.ext ?_
    match a with
    | ⟨0, _⟩ => show (j.val * 256 + e.val) / 256 = j.val; omega
    | ⟨1, _⟩ => show (j.val * 256 + e.val) / 128 % 2 = e.val / 128; omega
    | ⟨2, _⟩ => show (j.val * 256 + e.val) % 128 = e.val % 128; omega
  rw [Read.val_main_v28_apply, e1, Read.val_main_v27_apply,
    show ∀ (kk : Fin 2) (d : Fin 128), Read.idx_main_v27 (ix3 j kk d) = ix3 d kk j from fun _ _ => eq_ix3 _,
    Read.val_main_v26_apply, Cert.Spec.h1r, Cert.Spec.h1]
  refine Finset.sum_congr rfl fun i _ => ?_
  rw [show ∀ (kk : Fin 2) (d : Fin 128), Read.lidx_main_v26 (ix3 d kk j) i = ix2 i d from fun _ _ => eq_ix2 _,
    show ∀ (kk : Fin 2) (d : Fin 128), Read.ridx_main_v26 (ix3 d kk j) i = ix3 kk j i from fun _ _ => eq_ix3 _,
    v11_at h0, v25_at h0]

theorem v31_at (j : Fin 8192) (f : Fin 512) :
    Read.val_main_v31 (F := Ideal) x0 x1 x2 x3 x6 (ix2 j f) = Cert.Spec.h2r fX fK fL fT fN j f := by
  have e1 : Read.idx_main_v31 (ix2 j f)
      = ix3 j ⟨f.val / 256, by omega⟩ ⟨f.val % 256, by omega⟩ := by
    funext a; refine Fin.ext ?_
    match a with
    | ⟨0, _⟩ => show (j.val * 512 + f.val) / 512 = j.val; omega
    | ⟨1, _⟩ => show (j.val * 512 + f.val) / 256 % 2 = f.val / 256; omega
    | ⟨2, _⟩ => show (j.val * 512 + f.val) % 256 = f.val % 256; omega
  rw [Read.val_main_v31_apply, e1, Read.val_main_v30_apply,
    show ∀ (kk : Fin 2) (e : Fin 256), Read.idx_main_v30 (ix3 j kk e) = ix3 e kk j from fun _ _ => eq_ix3 _,
    Read.val_main_v29_apply, Cert.Spec.h2r, Cert.Spec.h2]
  refine Finset.sum_congr rfl fun i _ => ?_
  rw [show ∀ (kk : Fin 2) (e : Fin 256), Read.lidx_main_v29 (ix3 e kk j) i = ix2 i e from fun _ _ => eq_ix2 _,
    show ∀ (kk : Fin 2) (e : Fin 256), Read.ridx_main_v29 (ix3 e kk j) i = ix3 kk j i from fun _ _ => eq_ix3 _,
    v28_at h0, v25_at h0]

theorem v32_at (j : Fin 8192) (c : Fin 896) :
    Read.val_main_v32 (F := Ideal) x0 x1 x2 x3 x6 (ix2 j c) = Cert.Spec.cat fX fK fL fT fN j c := by
  rw [Cert.Spec.cat]
  split
  next h1 =>
    rw [← v11_at h0]
    exact concatenate_apply_piece (t := S8192x896) 1 _ _ (ix2 j c) 0 (by simp) S8192x128 _ rfl rfl 0 rfl
      (ix2 j (⟨c.val, h1⟩ : Fin 128)) (fun b hb => by match b with | ⟨0, _⟩ => rfl | ⟨1, _⟩ => exact absurd rfl hb)
      (Nat.zero_add _)
  next h1 =>
    split
    next h2 =>
      rw [← v28_at h0]
      exact concatenate_apply_piece (t := S8192x896) 1 _ _ (ix2 j c) 1 (by simp) S8192x256 _ rfl rfl 128 rfl
        (ix2 j (⟨c.val - 128, by omega⟩ : Fin 256)) (fun b hb => by match b with | ⟨0, _⟩ => rfl | ⟨1, _⟩ => exact absurd rfl hb)
        (by show 128 + (c.val - 128) = c.val; omega)
    next h2 =>
      rw [← v31_at h0]
      exact concatenate_apply_piece (t := S8192x896) 1 _ _ (ix2 j c) 2 (by simp) S8192x512 _ rfl rfl 384 rfl
        (ix2 j (⟨c.val - 384, by omega⟩ : Fin 512)) (fun b hb => by match b with | ⟨0, _⟩ => rfl | ⟨1, _⟩ => exact absurd rfl hb)
        (by show 384 + (c.val - 384) = c.val; omega)

theorem v37_at (j : Fin 8192) (o : Fin 64) :
    Read.val_main_v37 (F := Ideal) x0 x1 x2 x3 x4 x5 x6 (ix2 j o) = Cert.Spec.routOf x0 x1 x2 x3 x4 x5 x6 (ix2 j o) := by
  rw [Read.val_main_v37_apply, Read.val_main_v36_apply, Read.val_main_v33_apply, Read.val_main_v35_apply, Read.val_main_v34_apply,
    Ideal.hostUnary_tanh_def, show Read.idx_main_v34 (Read.idx_main_v35 (ix2 j o)) = ix1 o from eq_ix1 _]
  simp only [show ∀ k : Fin 896, Read.lidx_main_v33 (ix2 j o) k = ix2 j k from fun _ => eq_ix2 _,
    show ∀ k : Fin 896, Read.ridx_main_v33 (ix2 j o) k = ix2 k o from fun _ => eq_ix2 _, v32_at h0]
  rfl

end Stages

theorem ref_result (m : (ℓ : Loc nD τ sig) → Buf (Elt Ideal) ℓ) (c : Dev nD)
    (hr : ∀ j : Fin 8192, 0 ≤ ((m ((c.tc : Thread nD τ).loc main_arg6)) (ValueIdx.ix1 j)).toInt
      ∧ ((m ((c.tc : Thread nD τ).loc main_arg6)) (ValueIdx.ix1 j)).toInt < 8192) :
    Cert.ReferenceIdeal.Value.res_main_v37 (F := Ideal) m c
      = Cert.Spec.routOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [Read.val_main_v37_eq]
  funext i
  obtain ⟨j, o, rfl⟩ : ∃ j o, i = ix2 j o := ⟨_, _, eq_ix2 i⟩
  exact v37_at (fun j => (hr j).1) j o

end Cert.ReferenceIdeal.RefValue

end
-- ==== Proof.PreDecode.lean ====
import proofs.«429692_j807453851732_2_alg».proof.Pre_finite_inputs
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx Cert.Pre_finite_inputs

variable [Cert.Pre_finite_inputs.Facts]

theorem part2_all {F : FTy → Type} [FloatOps F] (v28 : IVec S_ 1) (v33 : IVec S8192 1)
    (h : fn_part2 (F := F) v28 v33 ix0 = 1#1) (i : S8192.Idx) : v33 i = 1#1 := by
  dsimp only [fn_part2, Idealize.ShloMosaic.andi] at h
  exact Host.reduce_andi_all _ _ _ _ _ (IntOp.andi_eq_one.1 h).2 i

theorem nid_range {F : FTy → Type} [FloatOps F]
    (a0 : FVec F S8192x128 .f32) (a1 : FVec F S2x8192x8192 .f32) (a2 : FVec F S8192x8192 .f32)
    (a3 : FVec F S1 .f32) (a4 : FVec F S896x64 .f32) (a5 : FVec F S64 .f32) (a6 : IVec S8192 32)
    (h : Cert.Pre_finite_inputs.fn (F := F) a0 a1 a2 a3 a4 a5 a6 = fun _ => 1#1) :
    ∀ j : Fin 8192, 0 ≤ (a6 (ix1 j)).toInt ∧ (a6 (ix1 j)).toInt < 8192 := by
  intro j
  have h0 := congrFun h ix0
  dsimp only [fn, fn_part1] at h0
  have hb := part2_all _ _ h0 (ix1 j)
  dsimp only [Idealize.ShloMosaic.andi, Idealize.ShloMosaic.cmpi] at hb
  obtain ⟨hge, hlt⟩ := IntOp.andi_eq_one.1 hb
  rw [StableHlo.Predicate.bcast_scalar _ Facts.h_S_] at hge hlt
  exact ⟨IntOp.cmpi_sge.1 hge, IntOp.cmpi_slt.1 hlt⟩

end Cert.PreDecode
-- ==== Proof.lean ====
import proofs.«429692_j807453851732_2_alg».proof.Defs
import proofs.«429692_j807453851732_2_alg».proof.Proof.Gen.Kernel
import proofs.«429692_j807453851732_2_alg».proof.Proof.Gen.KernelIdeal
import proofs.«429692_j807453851732_2_alg».proof.Proof.Gen.ReferenceIdeal
import proofs.«429692_j807453851732_2_alg».proof.Proof.Gen.Pre_finite_inputs
import proofs.«429692_j807453851732_2_alg».proof.Proof.K.Assembly
import proofs.«429692_j807453851732_2_alg».proof.Proof.KI.Assembly
import proofs.«429692_j807453851732_2_alg».proof.Proof.KI.Final
import proofs.«429692_j807453851732_2_alg».proof.Proof.KI.HostA
import proofs.«429692_j807453851732_2_alg».proof.Proof.KI.HostB
import proofs.«429692_j807453851732_2_alg».proof.Proof.KI.R0Value
import proofs.«429692_j807453851732_2_alg».proof.Proof.KI.R1Value
import proofs.«429692_j807453851732_2_alg».proof.Proof.KI.R2Value
import proofs.«429692_j807453851732_2_alg».proof.Proof.KI.R3Value
import proofs.«429692_j807453851732_2_alg».proof.Proof.RefValue
import proofs.«429692_j807453851732_2_alg».proof.Proof.PreDecode
import proofs.«429692_j807453851732_2_alg».proof.Proof.SpecArgs
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem ids_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j : Fin 8192, 0 ≤ ((m ((c.tc : Thread Cert.KernelIdeal.nD Cert.KernelIdeal.τ).loc Cert.KernelIdeal.main_arg6)) (ValueIdx.ix1 j)).toInt ∧ ((m ((c.tc : Thread Cert.KernelIdeal.nD Cert.KernelIdeal.τ).loc Cert.KernelIdeal.main_arg6)) (ValueIdx.ix1 j)).toInt < 8192 :=
  Cert.PreDecode.nid_range _ _ _ _ _ _ _ (hpre c)

theorem algebraic : Cert.algebraic_KernelIdeal_ReferenceIdeal := by
  intro m ρ m' ρ' hpre hagree
  refine ⟨fun c => Cert.Spec.koutOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelIdeal.Hand.run_value m ρ)
    have hr := ids_in_range m hpre c
    exact Cert.KernelIdeal.Hand.kernel_value m c
      (fun V r d => Cert.KernelIdeal.Hand.rv0 V c r d)
      (fun V kk r d => Cert.KernelIdeal.Hand.rv1 V c kk r d)
      (fun V kk r e => Cert.KernelIdeal.Hand.rv2 V c kk r e)
      (fun V r o' => Cert.KernelIdeal.Hand.rv3 V c r o')
      (fun r d => Cert.KernelIdeal.HostValue.v0_eq m c r d)
      (Cert.KernelIdeal.HostValue.v1_eq m c)
      (Cert.KernelIdeal.HostValue.arg_keep1 m c).1
      (Cert.KernelIdeal.HostValue.arg_keep1 m c).2
      (fun os q d => Cert.KernelIdeal.HostValue.v10_eq m os c hr q d)
      (fun os => Cert.KernelIdeal.HostValue.keep3 m os c)
      (fun os q e => Cert.KernelIdeal.HostValue.v19_eq m os c hr q e)
      (fun os => Cert.KernelIdeal.HostValue.keep5 m os c)
      (fun os => Cert.KernelIdeal.HostValue.v2_eq m os c)
      (fun os r d => Cert.KernelIdeal.HostValue.v22_eq m os c r d)
      (fun os r d => Cert.KernelIdeal.HostValue.v24_eq m os c r d)
      (fun os r e => Cert.KernelIdeal.HostValue.v26_eq m os c r e)
      (fun os r e => Cert.KernelIdeal.HostValue.v28_eq m os c r e)
      (fun os d o' => Cert.KernelIdeal.HostValue.v34_eq m os c d o')
      (fun os d o' => Cert.KernelIdeal.HostValue.v35_eq m os c d o')
      (fun os d o' => Cert.KernelIdeal.HostValue.v36_eq m os c d o')
      (fun os e o' => Cert.KernelIdeal.HostValue.v37_eq m os c e o')
      (fun os e o' => Cert.KernelIdeal.HostValue.v38_eq m os c e o')
      (fun os o' => Cert.KernelIdeal.HostValue.v40_eq m os c o')
      (fun os j o => Cert.KernelIdeal.HostValue.out_eq m os c hr j o)
  · refine (θ_run Cert.ReferenceIdeal.defs _ _).mono (fun _ h c => ⟨(h c).1.trans ?_, (h c).2⟩) (Cert.ReferenceIdeal.Value.run (F := Ideal) m' ρ')
    have hr := ids_in_range m hpre c
    obtain ⟨e0, e1, e2, e3, e4, e5, e6⟩ := hagree c
    rw [Cert.ReferenceIdeal.RefValue.ref_result m' c (by rw [e6]; exact hr), e0, e1, e2, e3, e4, e5, e6]
    exact (Cert.Spec.koutOf_eq_routOf _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
